-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_arg5)) (v1 : (c : Dev Cert.KernelIdeal.nD) → Buf (Elt Ideal) ((c.tc : Thread Cert.KernelIdeal.nD Cert.KernelIdeal.τ).loc Cert.KernelIdeal.main_arg6)) (v2 : (c : Dev Cert.KernelIdeal.nD) → Buf (Elt Ideal) ((c.tc : Thread Cert.KernelIdeal.nD Cert.KernelIdeal.τ).loc Cert.KernelIdeal.main_v123)) (v3 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg5) = v0 c
          ∧ r.2.mem ((c.tc : Thread Cert.KernelIdeal.nD Cert.KernelIdeal.τ).loc Cert.KernelIdeal.main_arg6) = v1 c
          ∧ r.2.mem ((c.tc : Thread Cert.KernelIdeal.nD Cert.KernelIdeal.τ).loc Cert.KernelIdeal.main_v123) = v2 c
          ∧ r.2.mem ((c.tc : Thread Cert.KernelIdeal.nD Cert.KernelIdeal.τ).loc Cert.KernelIdeal.main_v114) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg5) = v0 c
          ∧ r.2.mem ((c.tc : Thread Cert.ReferenceIdeal.nD Cert.ReferenceIdeal.τ).loc Cert.ReferenceIdeal.main_arg6) = v1 c
          ∧ r.2.mem ((c.tc : Thread Cert.ReferenceIdeal.nD Cert.ReferenceIdeal.τ).loc Cert.ReferenceIdeal.main_v281) = v2 c
          ∧ r.2.mem ((c.tc : Thread Cert.ReferenceIdeal.nD Cert.ReferenceIdeal.τ).loc Cert.ReferenceIdeal.main_v272) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S400000x8 : Shape := ⟨2, ![400000, 8]⟩
abbrev S2x400000 : Shape := ⟨2, ![2, 400000]⟩
abbrev S400000 : Shape := ⟨1, ![400000]⟩
abbrev S50000 : Shape := ⟨1, ![50000]⟩
abbrev S1x64 : Shape := ⟨2, ![1, 64]⟩
abbrev S1x100 : Shape := ⟨2, ![1, 100]⟩
abbrev S1x3 : Shape := ⟨2, ![1, 3]⟩
abbrev S32x128 : Shape := ⟨2, ![32, 128]⟩
abbrev S128 : Shape := ⟨1, ![128]⟩
abbrev S8x128 : Shape := ⟨2, ![8, 128]⟩
abbrev S2x384x128 : Shape := ⟨3, ![2, 384, 128]⟩
abbrev S2x128 : Shape := ⟨2, ![2, 128]⟩
abbrev S2x128x128 : Shape := ⟨3, ![2, 128, 128]⟩
abbrev S2x256x64 : Shape := ⟨3, ![2, 256, 64]⟩
abbrev S2x64 : Shape := ⟨2, ![2, 64]⟩
abbrev S2x64x1 : Shape := ⟨3, ![2, 64, 1]⟩
abbrev S2x1 : Shape := ⟨2, ![2, 1]⟩
abbrev S2x256x128 : Shape := ⟨3, ![2, 256, 128]⟩
abbrev S128x128 : Shape := ⟨2, ![128, 128]⟩
abbrev S128x16 : Shape := ⟨2, ![128, 16]⟩
abbrev S16 : Shape := ⟨1, ![16]⟩
abbrev S_ : Shape := ⟨0, ![]⟩
abbrev S1x400000 : Shape := ⟨2, ![1, 400000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S400000x8 : S_.BroadcastsInDim S400000x8 (![] : Fin 0 → Fin S400000x8.rank)
  reducesTo_S400000x8_S_d0_1 : S400000x8.ReducesTo [0, 1] S_
  bcast_S_S1x64 : S_.BroadcastsInDim S1x64 (![] : Fin 0 → Fin S1x64.rank)
  reducesTo_S1x64_S_d0_1 : S1x64.ReducesTo [0, 1] S_
  bcast_S_S1x100 : S_.BroadcastsInDim S1x100 (![] : Fin 0 → Fin S1x100.rank)
  reducesTo_S1x100_S_d0_1 : S1x100.ReducesTo [0, 1] S_
  bcast_S_S1x3 : S_.BroadcastsInDim S1x3 (![] : Fin 0 → Fin S1x3.rank)
  reducesTo_S1x3_S_d0_1 : S1x3.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S2x384x128 : S_.BroadcastsInDim S2x384x128 (![] : Fin 0 → Fin S2x384x128.rank)
  reducesTo_S2x384x128_S_d0_1_2 : S2x384x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x256x64 : S_.BroadcastsInDim S2x256x64 (![] : Fin 0 → Fin S2x256x64.rank)
  reducesTo_S2x256x64_S_d0_1_2 : S2x256x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x1 : S_.BroadcastsInDim S2x64x1 (![] : Fin 0 → Fin S2x64x1.rank)
  reducesTo_S2x64x1_S_d0_1_2 : S2x64x1.ReducesTo [0, 1, 2] S_
  bcast_S_S2x1 : S_.BroadcastsInDim S2x1 (![] : Fin 0 → Fin S2x1.rank)
  reducesTo_S2x1_S_d0_1 : S2x1.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part8 {F : FTy → Type} [FloatOps F] (main_arg2 : IVec S2x400000 32) (main_arg31 : FVec F S16 .f32) (main_v133 : IVec S_ 1) (main_v136 : IVec S128x16 1) : IVec S_ 1 :=
  let main_c_53 : IVec S_ 1 := constantI S_ 1 1#1
  let main_v137 : IVec S_ 1 := (fun x v => Host.reduce IntOp.andi x v reducesTo_S128x16_S_d0_1 h_S_) main_v136 main_c_53
  let main_v138 : IVec S_ 1 := andi main_v133 main_v137
  let main_v139 : FVec F S16 .f32 := Host.absf main_arg31
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  let main_v144 : IVec S1x400000 32 := (extractStridedSlice S1x400000 ![0, 0] · slices_S2x400000_S1x400000_0_0) main_arg2
  let main_v145 : IVec S400000 32 := shapeCast S400000 main_v144 shapeCasts_S1x400000_S400000
  let main_c_56 : IVec S_ 32 := constantI S_ 32 4294917296#32
  let main_v146 : IVec S400000 32 := broadcastInDim S400000 ![] bcast_S_S400000 main_c_56
  let main_v147 : IVec S400000 1 := cmpi .sge main_v145 main_v146
  let main_v148 : IVec S1x400000 32 := (extractStridedSlice S1x400000 ![0, 0] · slices_S2x400000_S1x400000_0_0) main_arg2
  let main_v149 : IVec S400000 32 := shapeCast S400000 main_v148 shapeCasts_S1x400000_S400000
  let main_c_57 : IVec S_ 32 := constantI S_ 32 50000#32
  let main_v150 : IVec S400000 32 := broadcastInDim S400000 ![] bcast_S_S400000 main_c_57
  let main_v151 : IVec S400000 1 := cmpi .slt main_v149 main_v150
  let main_v152 : IVec S400000 1 := andi main_v147 main_v151
  let main_c_58 : IVec S_ 1 := constantI S_ 1 1#1
  let main_v153 : IVec S_ 1 := (fun x v => Host.reduce IntOp.andi x v reducesTo_S400000_S_d0 h_S_) main_v152 main_c_58
  let main_v154 : IVec S_ 1 := andi main_v143 main_v153
  main_v154

def fn_part7 {F : FTy → Type} [FloatOps F] (main_arg2 : IVec S2x400000 32) (main_arg28 : FVec F S128x128 .f32) (main_arg29 : FVec F S128 .f32) (main_arg30 : FVec F S128x16 .f32) (main_arg31 : FVec F S16 .f32) (main_v118 : IVec S_ 1) (main_v119 : FVec F S2x128 .f32) : IVec S_ 1 :=
  let main_cst_46 : FVec F S_ .f32 := constant S_ .f32 0x7F800000#32
  let main_v120 : FVec F S2x128 .f32 := broadcastInDim S2x128 ![] bcast_S_S2x128 main_cst_46
  let main_v121 : IVec S2x128 1 := cmpf .olt main_v119 main_v120
  let main_c_47 : IVec S_ 1 := constantI S_ 1 1#1
  let main_v122 : IVec S_ 1 := (fun x v => Host.reduce IntOp.andi x v reducesTo_S2x128_S_d0_1 h_S_) main_v121 main_c_47
  let main_v123 : IVec S_ 1 := andi main_v118 main_v122
  let main_v124 : FVec F S128x128 .f32 := Host.absf main_arg28
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg29
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x16 .f32 := Host.absf main_arg30
  let main_cst_52 : FVec F S_ .f32 := constant S_ .f32 0x7F800000#32
  let main_v135 : FVec F S128x16 .f32 := broadcastInDim S128x16 ![] bcast_S_S128x16 main_cst_52
  let main_v136 : IVec S128x16 1 := cmpf .olt main_v134 main_v135
  fn_part8 (F := F) main_arg2 main_arg31 main_v133 main_v136

def fn_part6 {F : FTy → Type} [FloatOps F] (main_arg2 : IVec S2x400000 32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v98 : IVec S_ 1) (main_v101 : IVec S2x1 1) (main_c_39 : IVec S_ 1) : IVec S_ 1 :=
  let main_v102 : IVec S_ 1 := (fun x v => Host.reduce IntOp.andi x v reducesTo_S2x1_S_d0_1 h_S_) main_v101 main_c_39
  let main_v103 : IVec S_ 1 := andi main_v98 main_v102
  let main_v104 : FVec F S2x256x128 .f32 := Host.absf main_arg24
  let main_cst_40 : FVec F S_ .f32 := constant S_ .f32 0x7F800000#32
  let main_v105 : FVec F S2x256x128 .f32 := broadcastInDim S2x256x128 ![] bcast_S_S2x256x128 main_cst_40
  let main_v106 : IVec S2x256x128 1 := cmpf .olt main_v104 main_v105
  let main_c_41 : IVec S_ 1 := constantI S_ 1 1#1
  let main_v107 : IVec S_ 1 := (fun x v => Host.reduce IntOp.andi x v reducesTo_S2x256x128_S_d0_1_2 h_S_) main_v106 main_c_41
  let main_v108 : IVec S_ 1 := andi main_v103 main_v107
  let main_v109 : FVec F S2x128 .f32 := Host.absf main_arg25
  let main_cst_42 : FVec F S_ .f32 := constant S_ .f32 0x7F800000#32
  let main_v110 : FVec F S2x128 .f32 := broadcastInDim S2x128 ![] bcast_S_S2x128 main_cst_42
  let main_v111 : IVec S2x128 1 := cmpf .olt main_v109 main_v110
  let main_c_43 : IVec S_ 1 := constantI S_ 1 1#1
  let main_v112 : IVec S_ 1 := (fun x v => Host.reduce IntOp.andi x v reducesTo_S2x128_S_d0_1 h_S_) main_v111 main_c_43
  let main_v113 : IVec S_ 1 := andi main_v108 main_v112
  let main_v114 : FVec F S2x128 .f32 := Host.absf main_arg26
  let main_cst_44 : FVec F S_ .f32 := constant S_ .f32 0x7F800000#32
  let main_v115 : FVec F S2x128 .f32 := broadcastInDim S2x128 ![] bcast_S_S2x128 main_cst_44
  let main_v116 : IVec S2x128 1 := cmpf .olt main_v114 main_v115
  let main_c_45 : IVec S_ 1 := constantI S_ 1 1#1
  let main_v117 : IVec S_ 1 := (fun x v => Host.reduce IntOp.andi x v reducesTo_S2x128_S_d0_1 h_S_) main_v116 main_c_45
  let main_v118 : IVec S_ 1 := andi main_v113 main_v117
  let main_v119 : FVec F S2x128 .f32 := Host.absf main_arg27
  fn_part7 (F := F) main_arg2 main_arg28 main_arg29 main_arg30 main_arg31 main_v118 main_v119

def fn_part5 {F : FTy → Type} [FloatOps F] (main_arg2 : IVec S2x400000 32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v83 : IVec S_ 1) (main_v84 : FVec F S2x256x64 .f32) (main_cst_32 : FVec F S_ .f32) : IVec S_ 1 :=
  let main_v85 : FVec F S2x256x64 .f32 := broadcastInDim S2x256x64 ![] bcast_S_S2x256x64 main_cst_32
  let main_v86 : IVec S2x256x64 1 := cmpf .olt main_v84 main_v85
  let main_c_33 : IVec S_ 1 := constantI S_ 1 1#1
  let main_v87 : IVec S_ 1 := (fun x v => Host.reduce IntOp.andi x v reducesTo_S2x256x64_S_d0_1_2 h_S_) main_v86 main_c_33
  let main_v88 : IVec S_ 1 := andi main_v83 main_v87
  let main_v89 : FVec F S2x64 .f32 := Host.absf main_arg21
  let main_cst_34 : FVec F S_ .f32 := constant S_ .f32 0x7F800000#32
  let main_v90 : FVec F S2x64 .f32 := broadcastInDim S2x64 ![] bcast_S_S2x64 main_cst_34
  let main_v91 : IVec S2x64 1 := cmpf .olt main_v89 main_v90
  let main_c_35 : IVec S_ 1 := constantI S_ 1 1#1
  let main_v92 : IVec S_ 1 := (fun x v => Host.reduce IntOp.andi x v reducesTo_S2x64_S_d0_1 h_S_) main_v91 main_c_35
  let main_v93 : IVec S_ 1 := andi main_v88 main_v92
  let main_v94 : FVec F S2x64x1 .f32 := Host.absf main_arg22
  let main_cst_36 : FVec F S_ .f32 := constant S_ .f32 0x7F800000#32
  let main_v95 : FVec F S2x64x1 .f32 := broadcastInDim S2x64x1 ![] bcast_S_S2x64x1 main_cst_36
  let main_v96 : IVec S2x64x1 1 := cmpf .olt main_v94 main_v95
  let main_c_37 : IVec S_ 1 := constantI S_ 1 1#1
  let main_v97 : IVec S_ 1 := (fun x v => Host.reduce IntOp.andi x v reducesTo_S2x64x1_S_d0_1_2 h_S_) main_v96 main_c_37
  let main_v98 : IVec S_ 1 := andi main_v93 main_v97
  let main_v99 : FVec F S2x1 .f32 := Host.absf main_arg23
  let main_cst_38 : FVec F S_ .f32 := constant S_ .f32 0x7F800000#32
  let main_v100 : FVec F S2x1 .f32 := broadcastInDim S2x1 ![] bcast_S_S2x1 main_cst_38
  let main_v101 : IVec S2x1 1 := cmpf .olt main_v99 main_v100
  let main_c_39 : IVec S_ 1 := constantI S_ 1 1#1
  fn_part6 (F := F) main_arg2 main_arg24 main_arg25 main_arg26 main_arg27 main_arg28 main_arg29 main_arg30 main_arg31 main_v98 main_v101 main_c_39

def fn_part4 {F : FTy → Type} [FloatOps F] (main_arg2 : IVec S2x400000 32) (main_arg17 : FVec F S2x128 .f32) (main_arg18 : FVec F S2x128x128 .f32) (main_arg19 : FVec F S2x128 .f32) (main_arg20 : FVec F S2x256x64 .f32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v63 : IVec S_ 1) (main_v67 : IVec S_ 1) : IVec S_ 1 :=
  let main_v68 : IVec S_ 1 := andi main_v63 main_v67
  let main_v69 : FVec F S2x128 .f32 := Host.absf main_arg17
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2x128x128 .f32 := Host.absf main_arg18
  let main_cst_28 : FVec F S_ .f32 := constant S_ .f32 0x7F800000#32
  let main_v75 : FVec F S2x128x128 .f32 := broadcastInDim S2x128x128 ![] bcast_S_S2x128x128 main_cst_28
  let main_v76 : IVec S2x128x128 1 := cmpf .olt main_v74 main_v75
  let main_c_29 : IVec S_ 1 := constantI S_ 1 1#1
  let main_v77 : IVec S_ 1 := (fun x v => Host.reduce IntOp.andi x v reducesTo_S2x128x128_S_d0_1_2 h_S_) main_v76 main_c_29
  let main_v78 : IVec S_ 1 := andi main_v73 main_v77
  let main_v79 : FVec F S2x128 .f32 := Host.absf main_arg19
  let main_cst_30 : FVec F S_ .f32 := constant S_ .f32 0x7F800000#32
  let main_v80 : FVec F S2x128 .f32 := broadcastInDim S2x128 ![] bcast_S_S2x128 main_cst_30
  let main_v81 : IVec S2x128 1 := cmpf .olt main_v79 main_v80
  let main_c_31 : IVec S_ 1 := constantI S_ 1 1#1
  let main_v82 : IVec S_ 1 := (fun x v => Host.reduce IntOp.andi x v reducesTo_S2x128_S_d0_1 h_S_) main_v81 main_c_31
  let main_v83 : IVec S_ 1 := andi main_v78 main_v82
  let main_v84 : FVec F S2x256x64 .f32 := Host.absf main_arg20
  let main_cst_32 : FVec F S_ .f32 := constant S_ .f32 0x7F800000#32
  fn_part5 (F := F) main_arg2 main_arg21 main_arg22 main_arg23 main_arg24 main_arg25 main_arg26 main_arg27 main_arg28 main_arg29 main_arg30 main_arg31 main_v83 main_v84 main_cst_32

def fn_part3 {F : FTy → Type} [FloatOps F] (main_arg2 : IVec S2x400000 32) (main_arg14 : FVec F S2x128x128 .f32) (main_arg15 : FVec F S2x128 .f32) (main_arg16 : FVec F S2x384x128 .f32) (main_arg17 : FVec F S2x128 .f32) (main_arg18 : FVec F S2x128x128 .f32) (main_arg19 : FVec F S2x128 .f32) (main_arg20 : FVec F S2x256x64 .f32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128x128 .f32 := Host.absf main_arg14
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128 .f32 := Host.absf main_arg15
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x384x128 .f32 := Host.absf main_arg16
  let main_cst_24 : FVec F S_ .f32 := constant S_ .f32 0x7F800000#32
  let main_v65 : FVec F S2x384x128 .f32 := broadcastInDim S2x384x128 ![] bcast_S_S2x384x128 main_cst_24
  let main_v66 : IVec S2x384x128 1 := cmpf .olt main_v64 main_v65
  let main_c_25 : IVec S_ 1 := constantI S_ 1 1#1
  let main_v67 : IVec S_ 1 := (fun x v => Host.reduce IntOp.andi x v reducesTo_S2x384x128_S_d0_1_2 h_S_) main_v66 main_c_25
  fn_part4 (F := F) main_arg2 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg2 : IVec S2x400000 32) (main_arg10 : FVec F S8x128 .f32) (main_arg11 : FVec F S128 .f32) (main_arg12 : FVec F S2x384x128 .f32) (main_arg13 : FVec F S2x128 .f32) (main_arg14 : FVec F S2x128x128 .f32) (main_arg15 : FVec F S2x128 .f32) (main_arg16 : FVec F S2x384x128 .f32) (main_arg17 : FVec F S2x128 .f32) (main_arg18 : FVec F S2x128x128 .f32) (main_arg19 : FVec F S2x128 .f32) (main_arg20 : FVec F S2x256x64 .f32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v33 : IVec S_ 1) : IVec S_ 1 :=
  let main_v34 : FVec F S8x128 .f32 := Host.absf main_arg10
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x384x128 .f32 := Host.absf main_arg12
  let main_cst_16 : FVec F S_ .f32 := constant S_ .f32 0x7F800000#32
  let main_v45 : FVec F S2x384x128 .f32 := broadcastInDim S2x384x128 ![] bcast_S_S2x384x128 main_cst_16
  let main_v46 : IVec S2x384x128 1 := cmpf .olt main_v44 main_v45
  let main_c_17 : IVec S_ 1 := constantI S_ 1 1#1
  let main_v47 : IVec S_ 1 := (fun x v => Host.reduce IntOp.andi x v reducesTo_S2x384x128_S_d0_1_2 h_S_) main_v46 main_c_17
  let main_v48 : IVec S_ 1 := andi main_v43 main_v47
  let main_v49 : FVec F S2x128 .f32 := Host.absf main_arg13
  let main_cst_18 : FVec F S_ .f32 := constant S_ .f32 0x7F800000#32
  let main_v50 : FVec F S2x128 .f32 := broadcastInDim S2x128 ![] bcast_S_S2x128 main_cst_18
  fn_part3 (F := F) main_arg2 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg2 : IVec S2x400000 32) (main_arg7 : FVec F S1x3 .f32) (main_arg8 : FVec F S32x128 .f32) (main_arg9 : FVec F S128 .f32) (main_arg10 : FVec F S8x128 .f32) (main_arg11 : FVec F S128 .f32) (main_arg12 : FVec F S2x384x128 .f32) (main_arg13 : FVec F S2x128 .f32) (main_arg14 : FVec F S2x128x128 .f32) (main_arg15 : FVec F S2x128 .f32) (main_arg16 : FVec F S2x384x128 .f32) (main_arg17 : FVec F S2x128 .f32) (main_arg18 : FVec F S2x128x128 .f32) (main_arg19 : FVec F S2x128 .f32) (main_arg20 : FVec F S2x256x64 .f32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) (main_v13 : IVec S_ 1) (main_v16 : IVec S1x100 1) : IVec S_ 1 :=
  let main_c_5 : IVec S_ 1 := constantI S_ 1 1#1
  let main_v17 : IVec S_ 1 := (fun x v => Host.reduce IntOp.andi x v reducesTo_S1x100_S_d0_1 h_S_) main_v16 main_c_5
  let main_v18 : IVec S_ 1 := andi main_v13 main_v17
  let main_v19 : FVec F S1x3 .f32 := Host.absf main_arg7
  let main_cst_6 : FVec F S_ .f32 := constant S_ .f32 0x7F800000#32
  let main_v20 : FVec F S1x3 .f32 := broadcastInDim S1x3 ![] bcast_S_S1x3 main_cst_6
  let main_v21 : IVec S1x3 1 := cmpf .olt main_v19 main_v20
  let main_c_7 : IVec S_ 1 := constantI S_ 1 1#1
  let main_v22 : IVec S_ 1 := (fun x v => Host.reduce IntOp.andi x v reducesTo_S1x3_S_d0_1 h_S_) main_v21 main_c_7
  let main_v23 : IVec S_ 1 := andi main_v18 main_v22
  let main_v24 : FVec F S32x128 .f32 := Host.absf main_arg8
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S50000x32 .f32) (main_arg1 : FVec F S400000x8 .f32) (main_arg2 : IVec S2x400000 32) (main_arg3 : IVec S400000 32) (main_arg4 : IVec S50000 32) (main_arg5 : FVec F S1x64 .f32) (main_arg6 : FVec F S1x100 .f32) (main_arg7 : FVec F S1x3 .f32) (main_arg8 : FVec F S32x128 .f32) (main_arg9 : FVec F S128 .f32) (main_arg10 : FVec F S8x128 .f32) (main_arg11 : FVec F S128 .f32) (main_arg12 : FVec F S2x384x128 .f32) (main_arg13 : FVec F S2x128 .f32) (main_arg14 : FVec F S2x128x128 .f32) (main_arg15 : FVec F S2x128 .f32) (main_arg16 : FVec F S2x384x128 .f32) (main_arg17 : FVec F S2x128 .f32) (main_arg18 : FVec F S2x128x128 .f32) (main_arg19 : FVec F S2x128 .f32) (main_arg20 : FVec F S2x256x64 .f32) (main_arg21 : FVec F S2x64 .f32) (main_arg22 : FVec F S2x64x1 .f32) (main_arg23 : FVec F S2x1 .f32) (main_arg24 : FVec F S2x256x128 .f32) (main_arg25 : FVec F S2x128 .f32) (main_arg26 : FVec F S2x128 .f32) (main_arg27 : FVec F S2x128 .f32) (main_arg28 : FVec F S128x128 .f32) (main_arg29 : FVec F S128 .f32) (main_arg30 : FVec F S128x16 .f32) (main_arg31 : FVec F S16 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S400000x8 .f32 := Host.absf main_arg1
  let main_cst_0 : FVec F S_ .f32 := constant S_ .f32 0x7F800000#32
  let main_v5 : FVec F S400000x8 .f32 := broadcastInDim S400000x8 ![] bcast_S_S400000x8 main_cst_0
  let main_v6 : IVec S400000x8 1 := cmpf .olt main_v4 main_v5
  let main_c_1 : IVec S_ 1 := constantI S_ 1 1#1
  let main_v7 : IVec S_ 1 := (fun x v => Host.reduce IntOp.andi x v reducesTo_S400000x8_S_d0_1 h_S_) main_v6 main_c_1
  let main_v8 : IVec S_ 1 := andi main_v3 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x100 .f32 := Host.absf main_arg6
  let main_cst_4 : FVec F S_ .f32 := constant S_ .f32 0x7F800000#32
  let main_v15 : FVec F S1x100 .f32 := broadcastInDim S1x100 ![] bcast_S_S1x100 main_cst_4
  let main_v16 : IVec S1x100 1 := cmpf .olt main_v14 main_v15
  fn_part1 (F := F) main_arg2 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S50000x32 : Shape := ⟨2, ![50000, 32]⟩
abbrev S400000x8 : Shape := ⟨2, ![400000, 8]⟩
abbrev S2x400000 : Shape := ⟨2, ![2, 400000]⟩
abbrev S400000 : Shape := ⟨1, ![400000]⟩
abbrev S50000 : Shape := ⟨1, ![50000]⟩
abbrev S1x64 : Shape := ⟨2, ![1, 64]⟩
abbrev S1x100 : Shape := ⟨2, ![1, 100]⟩
abbrev S1x3 : Shape := ⟨2, ![1, 3]⟩
abbrev S32x128 : Shape := ⟨2, ![32, 128]⟩
abbrev S128 : Shape := ⟨1, ![128]⟩
abbrev S8x128 : Shape := ⟨2, ![8, 128]⟩
abbrev S2x384x128 : Shape := ⟨3, ![2, 384, 128]⟩
abbrev S2x128 : Shape := ⟨2, ![2, 128]⟩
abbrev S2x128x128 : Shape := ⟨3, ![2, 128, 128]⟩
abbrev S2x256x64 : Shape := ⟨3, ![2, 256, 64]⟩
abbrev S2x64 : Shape := ⟨2, ![2, 64]⟩
abbrev S2x64x1 : Shape := ⟨3, ![2, 64, 1]⟩
abbrev S2x1 : Shape := ⟨2, ![2, 1]⟩
abbrev S2x256x128 : Shape := ⟨3, ![2, 256, 128]⟩
abbrev S128x128 : Shape := ⟨2, ![128, 128]⟩
abbrev S128x16 : Shape := ⟨2, ![128, 16]⟩
abbrev S16 : Shape := ⟨1, ![16]⟩
abbrev S1x128 : Shape := ⟨2, ![1, 128]⟩
abbrev S50000x128 : Shape := ⟨2, ![50000, 128]⟩
abbrev S10000x32 : Shape := ⟨2, ![10000, 32]⟩
abbrev S10000x128 : Shape := ⟨2, ![10000, 128]⟩
abbrev S400000x128 : Shape := ⟨2, ![400000, 128]⟩
abbrev S20000x8 : Shape := ⟨2, ![20000, 8]⟩
abbrev S20000x128 : Shape := ⟨2, ![20000, 128]⟩
abbrev S1x400000 : Shape := ⟨2, ![1, 400000]⟩
abbrev S400000x1 : Shape := ⟨2, ![400000, 1]⟩
abbrev S_ : Shape := ⟨0, ![]⟩
abbrev S1 : Shape := ⟨1, ![1]⟩
abbrev S1x1 : Shape := ⟨2, ![1, 1]⟩
abbrev S1x384x128 : Shape := ⟨3, ![1, 384, 128]⟩
abbrev S384x128 : Shape := ⟨2, ![384, 128]⟩
abbrev S1x128x128 : Shape := ⟨3, ![1, 128, 128]⟩
abbrev S1x256x64 : Shape := ⟨3, ![1, 256, 64]⟩
abbrev S256x64 : Shape := ⟨2, ![256, 64]⟩
abbrev S64 : Shape := ⟨1, ![64]⟩
abbrev S1x64x1 : Shape := ⟨3, ![1, 64, 1]⟩
abbrev S64x1 : Shape := ⟨2, ![64, 1]⟩
abbrev S2000x128 : Shape := ⟨2, ![2000, 128]⟩
abbrev S2000x1 : Shape := ⟨2, ![2000, 1]⟩
abbrev S2000x384 : Shape := ⟨2, ![2000, 384]⟩
abbrev S2000x256 : Shape := ⟨2, ![2000, 256]⟩
abbrev S2000x64 : Shape := ⟨2, ![2000, 64]⟩
abbrev S1x256x128 : Shape := ⟨3, ![1, 256, 128]⟩
abbrev S256x128 : Shape := ⟨2, ![256, 128]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩
abbrev S50000x1 : Shape := ⟨2, ![50000, 1]⟩
abbrev S1x16 : Shape := ⟨2, ![1, 16]⟩

abbrev nBuf : Space → Nat
  | .hbm => 251
  | .vmem => 76
  | .smem => 0
  | _ => 0

abbrev hbmTy0_0 (i : Nat) : BufTy := match i % 128 with
  | 0 => ⟨S50000x32, .f32⟩
  | 1 => ⟨S400000x8, .f32⟩
  | 2 => ⟨S2x400000, .i32⟩
  | 3 => ⟨S400000, .i32⟩
  | 4 => ⟨S50000, .i32⟩
  | 5 => ⟨S1x64, .f32⟩
  | 6 => ⟨S1x100, .f32⟩
  | 7 => ⟨S1x3, .f32⟩
  | 8 => ⟨S32x128, .f32⟩
  | 9 => ⟨S128, .f32⟩
  | 10 => ⟨S8x128, .f32⟩
  | 11 => ⟨S128, .f32⟩
  | 12 => ⟨S2x384x128, .f32⟩
  | 13 => ⟨S2x128, .f32⟩
  | 14 => ⟨S2x128x128, .f32⟩
  | 15 => ⟨S2x128, .f32⟩
  | 16 => ⟨S2x384x128, .f32⟩
  | 17 => ⟨S2x128, .f32⟩
  | 18 => ⟨S2x128x128, .f32⟩
  | 19 => ⟨S2x128, .f32⟩
  | 20 => ⟨S2x256x64, .f32⟩
  | 21 => ⟨S2x64, .f32⟩
  | 22 => ⟨S2x64x1, .f32⟩
  | 23 => ⟨S2x1, .f32⟩
  | 24 => ⟨S2x256x128, .f32⟩
  | 25 => ⟨S2x128, .f32⟩
  | 26 => ⟨S2x128, .f32⟩
  | 27 => ⟨S2x128, .f32⟩
  | 28 => ⟨S128x128, .f32⟩
  | 29 => ⟨S128, .f32⟩
  | 30 => ⟨S128x16, .f32⟩
  | 31 => ⟨S16, .f32⟩
  | 32 => ⟨S1x128, .f32⟩
  | 33 => ⟨S50000x128, .f32⟩
  | 34 => ⟨S1x128, .f32⟩
  | 35 => ⟨S400000x128, .f32⟩
  | 36 => ⟨S1x400000, .i32⟩
  | 37 => ⟨S400000, .i32⟩
  | 38 => ⟨S1x400000, .i32⟩
  | 39 => ⟨S400000, .i32⟩
  | 40 => ⟨S400000, .f32⟩
  | 41 => ⟨S400000x1, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S1, .i32⟩
  | 51 => ⟨S_, .i32⟩
  | 52 => ⟨S400000x1, .i32⟩
  | 53 => ⟨S400000x1, .i1⟩
  | 54 => ⟨S1x1, .i32⟩
  | 55 => ⟨S400000x1, .i32⟩
  | 56 => ⟨S400000x1, .i1⟩
  | 57 => ⟨S400000x1, .i1⟩
  | 58 => ⟨S_, .i1⟩
  | 59 => ⟨S400000, .i1⟩
  | 60 => ⟨S400000x128, .f32⟩
  | 61 => ⟨S400000x128, .i1⟩
  | 62 => ⟨S_, .f32⟩
  | 63 => ⟨S400000x128, .f32⟩
  | 64 => ⟨S400000x128, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S1, .i32⟩
  | 74 => ⟨S_, .i32⟩
  | 75 => ⟨S400000x1, .i32⟩
  | 76 => ⟨S400000x1, .i1⟩
  | 77 => ⟨S1x1, .i32⟩
  | 78 => ⟨S400000x1, .i32⟩
  | 79 => ⟨S400000x1, .i1⟩
  | 80 => ⟨S400000x1, .i1⟩
  | 81 => ⟨S_, .i1⟩
  | 82 => ⟨S400000, .i1⟩
  | 83 => ⟨S400000x128, .f32⟩
  | 84 => ⟨S400000x128, .i1⟩
  | 85 => ⟨S_, .f32⟩
  | 86 => ⟨S400000x128, .f32⟩
  | 87 => ⟨S400000x128, .f32⟩
  | 88 => ⟨S1x384x128, .f32⟩
  | 89 => ⟨S384x128, .f32⟩
  | 90 => ⟨S1x128, .f32⟩
  | 91 => ⟨S128, .f32⟩
  | 92 => ⟨S1x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x384x128, .f32⟩
  | 99 => ⟨S384x128, .f32⟩
  | 100 => ⟨S1x128, .f32⟩
  | 101 => ⟨S128, .f32⟩
  | 102 => ⟨S1x128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x256x64, .f32⟩
  | 109 => ⟨S256x64, .f32⟩
  | 110 => ⟨S1x64, .f32⟩
  | 111 => ⟨S64, .f32⟩
  | 112 => ⟨S1x64, .f32⟩
  | 113 => ⟨S1x64x1, .f32⟩
  | 114 => ⟨S64x1, .f32⟩
  | 115 => ⟨S1x1, .f32⟩
  | 116 => ⟨S1, .f32⟩
  | 117 => ⟨S1x1, .f32⟩
  | 118 => ⟨S400000x128, .f32⟩
  | 119 => ⟨S_, .f32⟩
  | 120 => ⟨S50000x128, .f32⟩
  | 121 => ⟨S400000x1, .i32⟩
  | 122 => ⟨S50000x128, .f32⟩
  | 123 => ⟨S1x256x128, .f32⟩
  | 124 => ⟨S256x128, .f32⟩
  | 125 => ⟨S1x128, .f32⟩
  | 126 => ⟨S128, .f32⟩
  | 127 => ⟨S1x128, .f32⟩
  | _ => ⟨S50000x32, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S50000x128, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S1, .i32⟩
  | 16 => ⟨S_, .i32⟩
  | 17 => ⟨S400000x1, .i32⟩
  | 18 => ⟨S400000x1, .i1⟩
  | 19 => ⟨S1x1, .i32⟩
  | 20 => ⟨S400000x1, .i32⟩
  | 21 => ⟨S400000x1, .i1⟩
  | 22 => ⟨S400000x1, .i1⟩
  | 23 => ⟨S_, .i1⟩
  | 24 => ⟨S400000, .i1⟩
  | 25 => ⟨S400000x128, .f32⟩
  | 26 => ⟨S400000x128, .i1⟩
  | 27 => ⟨S_, .f32⟩
  | 28 => ⟨S400000x128, .f32⟩
  | 29 => ⟨S400000x128, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S1, .i32⟩
  | 39 => ⟨S_, .i32⟩
  | 40 => ⟨S400000x1, .i32⟩
  | 41 => ⟨S400000x1, .i1⟩
  | 42 => ⟨S1x1, .i32⟩
  | 43 => ⟨S400000x1, .i32⟩
  | 44 => ⟨S400000x1, .i1⟩
  | 45 => ⟨S400000x1, .i1⟩
  | 46 => ⟨S_, .i1⟩
  | 47 => ⟨S400000, .i1⟩
  | 48 => ⟨S400000x128, .f32⟩
  | 49 => ⟨S400000x128, .i1⟩
  | 50 => ⟨S_, .f32⟩
  | 51 => ⟨S400000x128, .f32⟩
  | 52 => ⟨S400000x128, .f32⟩
  | 53 => ⟨S1x384x128, .f32⟩
  | 54 => ⟨S384x128, .f32⟩
  | 55 => ⟨S1x128, .f32⟩
  | 56 => ⟨S128, .f32⟩
  | 57 => ⟨S1x128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S1x384x128, .f32⟩
  | 64 => ⟨S384x128, .f32⟩
  | 65 => ⟨S1x128, .f32⟩
  | 66 => ⟨S128, .f32⟩
  | 67 => ⟨S1x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S1x256x64, .f32⟩
  | 74 => ⟨S256x64, .f32⟩
  | 75 => ⟨S1x64, .f32⟩
  | 76 => ⟨S64, .f32⟩
  | 77 => ⟨S1x64, .f32⟩
  | 78 => ⟨S1x64x1, .f32⟩
  | 79 => ⟨S64x1, .f32⟩
  | 80 => ⟨S1x1, .f32⟩
  | 81 => ⟨S1, .f32⟩
  | 82 => ⟨S1x1, .f32⟩
  | 83 => ⟨S400000x128, .f32⟩
  | 84 => ⟨S_, .f32⟩
  | 85 => ⟨S50000x128, .f32⟩
  | 86 => ⟨S400000x1, .i32⟩
  | 87 => ⟨S50000x128, .f32⟩
  | 88 => ⟨S1x256x128, .f32⟩
  | 89 => ⟨S256x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S50000x128, .f32⟩
  | 100 => ⟨S_, .f32⟩
  | 101 => ⟨S1x128, .f32⟩
  | 102 => ⟨S50000x1, .i32⟩
  | 103 => ⟨S1x128, .f32⟩
  | 104 => ⟨S_, .f32⟩
  | 105 => ⟨S50000x1, .f32⟩
  | 106 => ⟨S_, .f32⟩
  | 107 => ⟨S1x1, .f32⟩
  | 108 => ⟨S50000x1, .i32⟩
  | 109 => ⟨S1x1, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x16, .f32⟩
  | 119 => ⟨S1x16, .f32⟩
  | 120 => ⟨S1x16, .f32⟩
  | 121 => ⟨S1x3, .f32⟩
  | 122 => ⟨S1x3, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S20000x8, .f32⟩
  | .local _ .vmem, ⟨7, _⟩ => ⟨S20000x8, .f32⟩
  | .local _ .vmem, ⟨8, _⟩ => ⟨S8x128, .f32⟩
  | .local _ .vmem, ⟨9, _⟩ => ⟨S1x128, .f32⟩
  | .local _ .vmem, ⟨10, _⟩ => ⟨S20000x128, .f32⟩
  | .local _ .vmem, ⟨11, _⟩ => ⟨S20000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S384x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S384x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S256x64, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S2000x128, .f32⟩
  | .local _ .vmem, ⟨33, _⟩ => ⟨S2000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S256x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x1, .f32⟩
  | .local _ .vmem, ⟨51, _⟩ => ⟨S2000x1, .f32⟩
  | .local _ .vmem, ⟨52, _⟩ => ⟨S384x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S384x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S256x64, .f32⟩
  | .local _ .vmem, ⟨61, _⟩ => ⟨S1x64, .f32⟩
  | .local _ .vmem, ⟨62, _⟩ => ⟨S64x1, .f32⟩
  | .local _ .vmem, ⟨63, _⟩ => ⟨S1x1, .f32⟩
  | .local _ .vmem, ⟨64, _⟩ => ⟨S2000x128, .f32⟩
  | .local _ .vmem, ⟨65, _⟩ => ⟨S2000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S256x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v10 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_call2_c : Ref sig .tc := ⟨.hbm, 135, rfl⟩
abbrev main_call2_v0 : Ref sig .tc := ⟨.hbm, 136, rfl⟩
abbrev main_call2_v1 : Ref sig .tc := ⟨.hbm, 137, rfl⟩
abbrev main_call2_c_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_c_1 : Ref sig .tc := ⟨.hbm, 143, rfl⟩
abbrev main_call2_c_2 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_3 : Ref sig .tc := ⟨.hbm, 151, rfl⟩
abbrev main_call2_v12 : Ref sig .tc := ⟨.hbm, 152, rfl⟩
abbrev main_call2_v13 : Ref sig .tc := ⟨.hbm, 153, rfl⟩
abbrev main_call2_v14 : Ref sig .tc := ⟨.hbm, 154, rfl⟩
abbrev main_call2_cst : Ref sig .tc := ⟨.hbm, 155, rfl⟩
abbrev main_call2_v15 : Ref sig .tc := ⟨.hbm, 156, rfl⟩
abbrev main_v58 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_c_1 : Ref sig .tc := ⟨.hbm, 166, rfl⟩
abbrev main_call3_c_2 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_3 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_call3_cst : Ref sig .tc := ⟨.hbm, 178, rfl⟩
abbrev main_call3_v15 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_cst_0 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_cst_1 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_cst_2 : Ref sig .tc := ⟨.hbm, 232, rfl⟩
abbrev main_v109 : Ref sig .tc := ⟨.hbm, 233, rfl⟩
abbrev main_cst_3 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_call4_cst : Ref sig .tc := ⟨.hbm, 243, rfl⟩
abbrev main_call4_v0 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc2_stg15_0 : Ref sig .tc := ⟨.vmem, 31, rfl⟩
abbrev cc2_stg16_0 : Ref sig .tc := ⟨.vmem, 32, rfl⟩
abbrev cc2_stg16_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg12_0 : Ref sig .tc := ⟨.vmem, 60, rfl⟩
abbrev cc4_stg13_0 : Ref sig .tc := ⟨.vmem, 61, rfl⟩
abbrev cc4_stg14_0 : Ref sig .tc := ⟨.vmem, 62, rfl⟩
abbrev cc4_stg15_0 : Ref sig .tc := ⟨.vmem, 63, rfl⟩
abbrev cc4_stg16_0 : Ref sig .tc := ⟨.vmem, 64, rfl⟩
abbrev cc4_stg16_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg3_0 : Ref sig .tc := ⟨.vmem, 71, rfl⟩
abbrev cc5_stg4_0 : Ref sig .tc := ⟨.vmem, 72, rfl⟩
abbrev cc5_stg5_0 : Ref sig .tc := ⟨.vmem, 73, rfl⟩
abbrev cc5_stg6_0 : Ref sig .tc := ⟨.vmem, 74, rfl⟩
abbrev cc5_stg6_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30
abbrev cc2_sem15_0 : DmaSem sig := 31
abbrev cc2_sem16_0 : DmaSem sig := 32
abbrev cc2_sem16_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem11_0 : DmaSem sig := 59
abbrev cc4_sem12_0 : DmaSem sig := 60
abbrev cc4_sem13_0 : DmaSem sig := 61
abbrev cc4_sem14_0 : DmaSem sig := 62
abbrev cc4_sem15_0 : DmaSem sig := 63
abbrev cc4_sem16_0 : DmaSem sig := 64
abbrev cc4_sem16_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem3_0 : DmaSem sig := 71
abbrev cc5_sem4_0 : DmaSem sig := 72
abbrev cc5_sem5_0 : DmaSem sig := 73
abbrev cc5_sem6_0 : DmaSem sig := 74
abbrev cc5_sem6_1 : DmaSem sig := 75

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S384x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S384x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S2000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S384x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S384x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S256x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 2 → Memref sig .tc .vmem S2000x128 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  shapeCasts_S128_S1x128 : S128.ShapeCasts S1x128
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S20000x8_S20000x8_0_0 : ∀ a, (![0, 0] : Fin 2 → Nat) a + S20000x8.size a ≤ S20000x8.size a
  h_S20000x8 : 0 < S20000x8.numel
  inb_S8x128_S8x128_0_0 : ∀ a, (![0, 0] : Fin 2 → Nat) a + S8x128.size a ≤ S8x128.size a
  h_S8x128 : 0 < S8x128.numel
  broadcasts_S1x128_S20000x128 : S1x128.Broadcasts S20000x128
  inb_S20000x128_S20000x128_0_0 : ∀ a, (![0, 0] : Fin 2 → Nat) a + S20000x128.size a ≤ S20000x128.size a
  h_S20000x128 : 0 < S20000x128.numel
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S400000_S400000x1 : S400000.ShapeCasts S400000x1
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S2x384x128_S1x384x128_0_0_0 : S2x384x128.Slices ![0, 0, 0] S1x384x128
  shapeCasts_S1x384x128_S384x128 : S1x384x128.ShapeCasts S384x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  slices_S2x256x64_S1x256x64_0_0_0 : S2x256x64.Slices ![0, 0, 0] S1x256x64
  shapeCasts_S1x256x64_S256x64 : S1x256x64.ShapeCasts S256x64
  slices_S2x64_S1x64_0_0 : S2x64.Slices ![0, 0] S1x64
  shapeCasts_S1x64_S64 : S1x64.ShapeCasts S64
  shapeCasts_S64_S1x64 : S64.ShapeCasts S1x64
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2000x128_S2000x128_S2000x256_d1 : Shape.Concatenates [S2000x128, S2000x128] S2000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  bcast_S_S50000x128 : S_.BroadcastsInDim S50000x128 (![] : Fin 0 → Fin S50000x128.rank)
  slices_S2x256x128_S1x256x128_0_0_0 : S2x256x128.Slices ![0, 0, 0] S1x256x128
  shapeCasts_S1x256x128_S256x128 : S1x256x128.ShapeCasts S256x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  slices_S2x256x64_S1x256x64_1_0_0 : S2x256x64.Slices ![1, 0, 0] S1x256x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x256x128_S1x256x128_1_0_0 : S2x256x128.Slices ![1, 0, 0] S1x256x128
  bcast_S_S1x128 : S_.BroadcastsInDim S1x128 (![] : Fin 0 → Fin S1x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1x1 : S_.BroadcastsInDim S1x1 (![] : Fin 0 → Fin S1x1.rank)
  bcast_S1x1_S1x128_0_1 : S1x1.BroadcastsInDim S1x128 (![0, 1] : Fin 2 → Fin S1x128.rank)
  bcast_S128_S1x128_1 : S128.BroadcastsInDim S1x128 (![1] : Fin 1 → Fin S1x128.rank)
  bcast_S16_S1x16_1 : S16.BroadcastsInDim S1x16 (![1] : Fin 1 → Fin S1x16.rank)
  slices_S1x16_S1x3_0_0 : S1x16.Slices ![0, 0] S1x3
  dot_S10000x32_S32x128_S10000x128_1_0_0_1_n_n_wf : DotDims.WF S10000x32 S32x128 S10000x128 [1] [0] [0] [1] [] []
  dot_S20000x8_S8x128_S20000x128_1_0_0_1_n_n_wf : DotDims.WF S20000x8 S8x128 S20000x128 [1] [0] [0] [1] [] []
  gather_S50000x128_S400000x1_S400000x128_1_0_n_n_0_1_1128_wf : GatherDims.WF S50000x128 S400000x1 S400000x128 [1] [0] [] [0] [] 1 ![1, 128]
  dot_S2000x384_S384x128_S2000x128_1_0_0_1_n_n_wf : DotDims.WF S2000x384 S384x128 S2000x128 [1] [0] [0] [1] [] []
  dot_S2000x128_S128x128_S2000x128_1_0_0_1_n_n_wf : DotDims.WF S2000x128 S128x128 S2000x128 [1] [0] [0] [1] [] []
  dot_S2000x256_S256x64_S2000x64_1_0_0_1_n_n_wf : DotDims.WF S2000x256 S256x64 S2000x64 [1] [0] [0] [1] [] []
  dot_S2000x64_S64x1_S2000x1_1_0_0_1_n_n_wf : DotDims.WF S2000x64 S64x1 S2000x1 [1] [0] [0] [1] [] []
  scatter_S50000x128_S400000x1_S400000x128_1_0_0_1_wf : ScatterDims.WF S50000x128 S400000x1 S400000x128 [1] [0] [0] 1
  dot_S5000x256_S256x128_S5000x128_1_0_0_1_n_n_wf : DotDims.WF S5000x256 S256x128 S5000x128 [1] [0] [0] [1] [] []
  scatter_S1x128_S50000x1_S50000x128_1_0_0_1_wf : ScatterDims.WF S1x128 S50000x1 S50000x128 [1] [0] [0] 1
  scatter_S1x1_S50000x1_S50000x1_1_0_0_1_wf : ScatterDims.WF S1x1 S50000x1 S50000x1 [1] [0] [0] 1
  dot_S1x128_S128x128_S1x128_1_0_0_1_n_n_wf : DotDims.WF S1x128 S128x128 S1x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S50000x32.size a
  hwx0_0 : ∀ i : grid0.Coords, EltTy.bits .f32 = 32 ∨ (Rect.block (s := S50000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x8.size a ≤ S400000x8.size a
  hwx1_0 : ∀ i : grid1.Coords, EltTy.bits .f32 = 32 ∨ (Rect.block (s := S400000x8) S20000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x128.size a ≤ S400000x128.size a
  hwx1_3 : ∀ i : grid1.Coords, EltTy.bits .f32 = 32 ∨ (Rect.block (s := S400000x128) S20000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S400000x128.size a
  hwx2_0 : ∀ i : grid2.Coords, EltTy.bits .f32 = 32 ∨ (Rect.block (s := S400000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S400000x128.size a
  hwx2_1 : ∀ i : grid2.Coords, EltTy.bits .f32 = 32 ∨ (Rect.block (s := S400000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S400000x128.size a
  hwx2_2 : ∀ i : grid2.Coords, EltTy.bits .f32 = 32 ∨ (Rect.block (s := S400000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S400000x1.size a
  hwx2_3 : ∀ i : grid2.Coords, EltTy.bits .f32 = 32 ∨ (Rect.block (s := S400000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x128.size a ≤ S384x128.size a
  hwx2_4 : ∀ i : grid2.Coords, EltTy.bits .f32 = 32 ∨ (Rect.block (s := S384x128) S384x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S384x128.size a ≤ S384x128.size a
  hwx2_8 : ∀ i : grid2.Coords, EltTy.bits .f32 = 32 ∨ (Rect.block (s := S384x128) S384x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256x64.size a ≤ S256x64.size a
  hwx2_12 : ∀ i : grid2.Coords, EltTy.bits .f32 = 32 ∨ (Rect.block (s := S256x64) S256x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x1.size a ≤ S64x1.size a
  hwx2_14 : ∀ i : grid2.Coords, EltTy.bits .f32 = 32 ∨ (Rect.block (s := S64x1) S64x1.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x1.size a ≤ S1x1.size a
  hwx2_15 : ∀ i : grid2.Coords, EltTy.bits .f32 = 32 ∨ (Rect.block (s := S1x1) S1x1.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x128.size a ≤ S400000x128.size a
  hwx2_16 : ∀ i : grid2.Coords, EltTy.bits .f32 = 32 ∨ (Rect.block (s := S400000x128) S2000x128.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S400000x128.size a
  hwx4_0 : ∀ i : grid4.Coords, EltTy.bits .f32 = 32 ∨ (Rect.block (s := S400000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S400000x128.size a
  hwx4_1 : ∀ i : grid4.Coords, EltTy.bits .f32 = 32 ∨ (Rect.block (s := S400000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S400000x128.size a
  hwx4_2 : ∀ i : grid4.Coords, EltTy.bits .f32 = 32 ∨ (Rect.block (s := S400000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S400000x1.size a
  hwx4_3 : ∀ i : grid4.Coords, EltTy.bits .f32 = 32 ∨ (Rect.block (s := S400000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S384x128.size a ≤ S384x128.size a
  hwx4_4 : ∀ i : grid4.Coords, EltTy.bits .f32 = 32 ∨ (Rect.block (s := S384x128) S384x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S384x128.size a ≤ S384x128.size a
  hwx4_8 : ∀ i : grid4.Coords, EltTy.bits .f32 = 32 ∨ (Rect.block (s := S384x128) S384x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128x128.size a ≤ S128x128.size a
  hwx4_10 : ∀ i : grid4.Coords, EltTy.bits .f32 = 32 ∨ (Rect.block (s := S128x128) S128x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S256x64.size a ≤ S256x64.size a
  hwx4_12 : ∀ i : grid4.Coords, EltTy.bits .f32 = 32 ∨ (Rect.block (s := S256x64) S256x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x1.size a ≤ S64x1.size a
  hwx4_14 : ∀ i : grid4.Coords, EltTy.bits .f32 = 32 ∨ (Rect.block (s := S64x1) S64x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1x1.size a ≤ S1x1.size a
  hwx4_15 : ∀ i : grid4.Coords, EltTy.bits .f32 = 32 ∨ (Rect.block (s := S1x1) S1x1.size (cc4_transform_15 i) (hinb4_15 i)).WholeWords (EltTy.packing .f32)
  hstage4_16 : ∀ j, (stage4_16 j).IsWhole
  nbuf4_16 : grid4.bufCount reads4_16 false = 2
  hreads4_16 : ∀ i i' : grid4.Coords, (∀ a, reads4_16 a = true → i a = i' a) → cc4_transform_16 i = cc4_transform_16 i'
  hinb4_16 : ∀ (i : grid4.Coords) a, (cc4_transform_16 i a + 1) * S2000x128.size a ≤ S400000x128.size a
  hwx4_16 : ∀ i : grid4.Coords, EltTy.bits .f32 = 32 ∨ (Rect.block (s := S400000x128) S2000x128.size (cc4_transform_16 i) (hinb4_16 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S20000x8_S8x128_S20000x128_1_0_0_1_n_n : DotDims S20000x8 S8x128 S20000x128 where
  lhsContracting := [1]
  rhsContracting := [0]
  lhsNonContracting := [0]
  rhsNonContracting := [1]
  lhsBatch := []
  rhsBatch := []
  wf := dot_S20000x8_S8x128_S20000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S1x128_S50000x1_S50000x128_1_0_0_1 : ScatterDims S1x128 S50000x1 S50000x128 where
  updateWindowDims := [1]
  insertedWindowDims := [0]
  scatterDimsToOperandDims := [0]
  indexVectorDim := 1
  wf := scatter_S1x128_S50000x1_S50000x128_1_0_0_1_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S20000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S20000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S384x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S384x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v26) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v28) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v31) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v33) S256x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v36) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v38) S64x1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v41) S1x1.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v42) S2000x128.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v61) S384x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v69) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v71) S384x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v74) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v76) S128x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v79) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v81) S256x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v84) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v86) S64x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v89) S1x1.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v90) S2000x128.size cc4_transform_16 reads4_16 true false 2 stage4_16 sem4_16
    hrank4 hreads4_16 hinb4_16 nbuf4_16 (Memref.isWhole_whole _) hwx4_16 hstage4_16

abbrev win4 : Fin 17 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | ⟨_ + 17, h⟩ => absurd h (Nat.not_lt.2 (Nat.le_add_left _ _))
abbrev spec4 : Fin 17 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v105) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x32 : Shape := ⟨2, ![50000, 32]⟩
abbrev S400000x8 : Shape := ⟨2, ![400000, 8]⟩
abbrev S2x400000 : Shape := ⟨2, ![2, 400000]⟩
abbrev S400000 : Shape := ⟨1, ![400000]⟩
abbrev S50000 : Shape := ⟨1, ![50000]⟩
abbrev S1x64 : Shape := ⟨2, ![1, 64]⟩
abbrev S1x100 : Shape := ⟨2, ![1, 100]⟩
abbrev S1x3 : Shape := ⟨2, ![1, 3]⟩
abbrev S32x128 : Shape := ⟨2, ![32, 128]⟩
abbrev S128 : Shape := ⟨1, ![128]⟩
abbrev S8x128 : Shape := ⟨2, ![8, 128]⟩
abbrev S2x384x128 : Shape := ⟨3, ![2, 384, 128]⟩
abbrev S2x128 : Shape := ⟨2, ![2, 128]⟩
abbrev S2x128x128 : Shape := ⟨3, ![2, 128, 128]⟩
abbrev S2x256x64 : Shape := ⟨3, ![2, 256, 64]⟩
abbrev S2x64 : Shape := ⟨2, ![2, 64]⟩
abbrev S2x64x1 : Shape := ⟨3, ![2, 64, 1]⟩
abbrev S2x1 : Shape := ⟨2, ![2, 1]⟩
abbrev S2x256x128 : Shape := ⟨3, ![2, 256, 128]⟩
abbrev S128x128 : Shape := ⟨2, ![128, 128]⟩
abbrev S128x16 : Shape := ⟨2, ![128, 16]⟩
abbrev S16 : Shape := ⟨1, ![16]⟩
abbrev S50000x128 : Shape := ⟨2, ![50000, 128]⟩
abbrev S1x128 : Shape := ⟨2, ![1, 128]⟩
abbrev S400000x128 : Shape := ⟨2, ![400000, 128]⟩
abbrev S1x400000 : Shape := ⟨2, ![1, 400000]⟩
abbrev S400000x1 : Shape := ⟨2, ![400000, 1]⟩
abbrev S_ : Shape := ⟨0, ![]⟩
abbrev S400000x384 : Shape := ⟨2, ![400000, 384]⟩
abbrev S1x384x128 : Shape := ⟨3, ![1, 384, 128]⟩
abbrev S384x128 : Shape := ⟨2, ![384, 128]⟩
abbrev S1x128x128 : Shape := ⟨3, ![1, 128, 128]⟩
abbrev S400000x256 : Shape := ⟨2, ![400000, 256]⟩
abbrev S1x256x64 : Shape := ⟨3, ![1, 256, 64]⟩
abbrev S256x64 : Shape := ⟨2, ![256, 64]⟩
abbrev S400000x64 : Shape := ⟨2, ![400000, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S50000x256 : Shape := ⟨2, ![50000, 256]⟩
abbrev S1x256x128 : Shape := ⟨3, ![1, 256, 128]⟩
abbrev S256x128 : Shape := ⟨2, ![256, 128]⟩
abbrev S50000x1 : Shape := ⟨2, ![50000, 1]⟩
abbrev S1x16 : Shape := ⟨2, ![1, 16]⟩

abbrev nBuf : Space → Nat
  | .hbm => 365
  | .vmem => 0
  | .smem => 0
  | _ => 0

abbrev hbmTy0_0 (i : Nat) : BufTy := match i % 128 with
  | 0 => ⟨S50000x32, .f32⟩
  | 1 => ⟨S400000x8, .f32⟩
  | 2 => ⟨S2x400000, .i32⟩
  | 3 => ⟨S400000, .i32⟩
  | 4 => ⟨S50000, .i32⟩
  | 5 => ⟨S1x64, .f32⟩
  | 6 => ⟨S1x100, .f32⟩
  | 7 => ⟨S1x3, .f32⟩
  | 8 => ⟨S32x128, .f32⟩
  | 9 => ⟨S128, .f32⟩
  | 10 => ⟨S8x128, .f32⟩
  | 11 => ⟨S128, .f32⟩
  | 12 => ⟨S2x384x128, .f32⟩
  | 13 => ⟨S2x128, .f32⟩
  | 14 => ⟨S2x128x128, .f32⟩
  | 15 => ⟨S2x128, .f32⟩
  | 16 => ⟨S2x384x128, .f32⟩
  | 17 => ⟨S2x128, .f32⟩
  | 18 => ⟨S2x128x128, .f32⟩
  | 19 => ⟨S2x128, .f32⟩
  | 20 => ⟨S2x256x64, .f32⟩
  | 21 => ⟨S2x64, .f32⟩
  | 22 => ⟨S2x64x1, .f32⟩
  | 23 => ⟨S2x1, .f32⟩
  | 24 => ⟨S2x256x128, .f32⟩
  | 25 => ⟨S2x128, .f32⟩
  | 26 => ⟨S2x128, .f32⟩
  | 27 => ⟨S2x128, .f32⟩
  | 28 => ⟨S128x128, .f32⟩
  | 29 => ⟨S128, .f32⟩
  | 30 => ⟨S128x16, .f32⟩
  | 31 => ⟨S16, .f32⟩
  | 32 => ⟨S50000x128, .f32⟩
  | 33 => ⟨S1x128, .f32⟩
  | 34 => ⟨S50000x128, .f32⟩
  | 35 => ⟨S50000x128, .f32⟩
  | 36 => ⟨S400000x128, .f32⟩
  | 37 => ⟨S1x128, .f32⟩
  | 38 => ⟨S400000x128, .f32⟩
  | 39 => ⟨S400000x128, .f32⟩
  | 40 => ⟨S1x400000, .i32⟩
  | 41 => ⟨S400000, .i32⟩
  | 42 => ⟨S1x400000, .i32⟩
  | 43 => ⟨S400000, .i32⟩
  | 44 => ⟨S400000, .f32⟩
  | 45 => ⟨S400000x1, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x128, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S400000x384, .f32⟩
  | 65 => ⟨S1x384x128, .f32⟩
  | 66 => ⟨S384x128, .f32⟩
  | 67 => ⟨S400000x128, .f32⟩
  | 68 => ⟨S1x128, .f32⟩
  | 69 => ⟨S128, .f32⟩
  | 70 => ⟨S1x128, .f32⟩
  | 71 => ⟨S400000x128, .f32⟩
  | 72 => ⟨S400000x128, .f32⟩
  | 73 => ⟨S_, .f32⟩
  | 74 => ⟨S400000x128, .f32⟩
  | 75 => ⟨S400000x128, .f32⟩
  | 76 => ⟨S1x128x128, .f32⟩
  | 77 => ⟨S128x128, .f32⟩
  | 78 => ⟨S400000x128, .f32⟩
  | 79 => ⟨S1x128, .f32⟩
  | 80 => ⟨S128, .f32⟩
  | 81 => ⟨S1x128, .f32⟩
  | 82 => ⟨S400000x128, .f32⟩
  | 83 => ⟨S400000x128, .f32⟩
  | 84 => ⟨S1x384x128, .f32⟩
  | 85 => ⟨S384x128, .f32⟩
  | 86 => ⟨S400000x128, .f32⟩
  | 87 => ⟨S1x128, .f32⟩
  | 88 => ⟨S128, .f32⟩
  | 89 => ⟨S1x128, .f32⟩
  | 90 => ⟨S400000x128, .f32⟩
  | 91 => ⟨S400000x128, .f32⟩
  | 92 => ⟨S_, .f32⟩
  | 93 => ⟨S400000x128, .f32⟩
  | 94 => ⟨S400000x128, .f32⟩
  | 95 => ⟨S1x128x128, .f32⟩
  | 96 => ⟨S128x128, .f32⟩
  | 97 => ⟨S400000x128, .f32⟩
  | 98 => ⟨S1x128, .f32⟩
  | 99 => ⟨S128, .f32⟩
  | 100 => ⟨S1x128, .f32⟩
  | 101 => ⟨S400000x128, .f32⟩
  | 102 => ⟨S400000x128, .f32⟩
  | 103 => ⟨S400000x256, .f32⟩
  | 104 => ⟨S1x256x64, .f32⟩
  | 105 => ⟨S256x64, .f32⟩
  | 106 => ⟨S400000x64, .f32⟩
  | 107 => ⟨S1x64, .f32⟩
  | 108 => ⟨S64, .f32⟩
  | 109 => ⟨S1x64, .f32⟩
  | 110 => ⟨S400000x64, .f32⟩
  | 111 => ⟨S400000x64, .f32⟩
  | 112 => ⟨S_, .f32⟩
  | 113 => ⟨S400000x64, .f32⟩
  | 114 => ⟨S400000x64, .f32⟩
  | 115 => ⟨S1x64x1, .f32⟩
  | 116 => ⟨S64x1, .f32⟩
  | 117 => ⟨S400000x1, .f32⟩
  | 118 => ⟨S1x1, .f32⟩
  | 119 => ⟨S1, .f32⟩
  | 120 => ⟨S1x1, .f32⟩
  | 121 => ⟨S400000x1, .f32⟩
  | 122 => ⟨S400000x1, .f32⟩
  | 123 => ⟨S400000x1, .f32⟩
  | 124 => ⟨S400000x1, .f32⟩
  | 125 => ⟨S_, .f32⟩
  | 126 => ⟨S400000x1, .f32⟩
  | 127 => ⟨S400000x1, .f32⟩
  | _ => ⟨S50000x32, .f32⟩

abbrev hbmTy0_1 (i : Nat) : BufTy := match i % 128 with
  | 0 => ⟨S_, .f32⟩
  | 1 => ⟨S400000x1, .f32⟩
  | 2 => ⟨S400000x1, .f32⟩
  | 3 => ⟨S_, .f32⟩
  | 4 => ⟨S400000x1, .f32⟩
  | 5 => ⟨S400000x1, .f32⟩
  | 6 => ⟨S400000x128, .f32⟩
  | 7 => ⟨S400000x128, .f32⟩
  | 8 => ⟨S400000x128, .f32⟩
  | 9 => ⟨S400000x128, .f32⟩
  | 10 => ⟨S400000x128, .f32⟩
  | 11 => ⟨S400000x128, .f32⟩
  | 12 => ⟨S400000x128, .f32⟩
  | 13 => ⟨S_, .f32⟩
  | 14 => ⟨S50000x128, .f32⟩
  | 15 => ⟨S400000x1, .i32⟩
  | 16 => ⟨S50000x128, .f32⟩
  | 17 => ⟨S50000x256, .f32⟩
  | 18 => ⟨S1x256x128, .f32⟩
  | 19 => ⟨S256x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S_, .f32⟩
  | 44 => ⟨S50000x1, .f32⟩
  | 45 => ⟨S50000x1, .f32⟩
  | 46 => ⟨S50000x1, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S400000x384, .f32⟩
  | 85 => ⟨S1x384x128, .f32⟩
  | 86 => ⟨S384x128, .f32⟩
  | 87 => ⟨S400000x128, .f32⟩
  | 88 => ⟨S1x128, .f32⟩
  | 89 => ⟨S128, .f32⟩
  | 90 => ⟨S1x128, .f32⟩
  | 91 => ⟨S400000x128, .f32⟩
  | 92 => ⟨S400000x128, .f32⟩
  | 93 => ⟨S_, .f32⟩
  | 94 => ⟨S400000x128, .f32⟩
  | 95 => ⟨S400000x128, .f32⟩
  | 96 => ⟨S1x128x128, .f32⟩
  | 97 => ⟨S128x128, .f32⟩
  | 98 => ⟨S400000x128, .f32⟩
  | 99 => ⟨S1x128, .f32⟩
  | 100 => ⟨S128, .f32⟩
  | 101 => ⟨S1x128, .f32⟩
  | 102 => ⟨S400000x128, .f32⟩
  | 103 => ⟨S400000x128, .f32⟩
  | 104 => ⟨S1x384x128, .f32⟩
  | 105 => ⟨S384x128, .f32⟩
  | 106 => ⟨S400000x128, .f32⟩
  | 107 => ⟨S1x128, .f32⟩
  | 108 => ⟨S128, .f32⟩
  | 109 => ⟨S1x128, .f32⟩
  | 110 => ⟨S400000x128, .f32⟩
  | 111 => ⟨S400000x128, .f32⟩
  | 112 => ⟨S_, .f32⟩
  | 113 => ⟨S400000x128, .f32⟩
  | 114 => ⟨S400000x128, .f32⟩
  | 115 => ⟨S1x128x128, .f32⟩
  | 116 => ⟨S128x128, .f32⟩
  | 117 => ⟨S400000x128, .f32⟩
  | 118 => ⟨S1x128, .f32⟩
  | 119 => ⟨S128, .f32⟩
  | 120 => ⟨S1x128, .f32⟩
  | 121 => ⟨S400000x128, .f32⟩
  | 122 => ⟨S400000x128, .f32⟩
  | 123 => ⟨S400000x256, .f32⟩
  | 124 => ⟨S1x256x64, .f32⟩
  | 125 => ⟨S256x64, .f32⟩
  | 126 => ⟨S400000x64, .f32⟩
  | 127 => ⟨S1x64, .f32⟩
  | _ => ⟨S50000x32, .f32⟩

abbrev hbmTy0_2 (i : Nat) : BufTy := match i % 128 with
  | 0 => ⟨S64, .f32⟩
  | 1 => ⟨S1x64, .f32⟩
  | 2 => ⟨S400000x64, .f32⟩
  | 3 => ⟨S400000x64, .f32⟩
  | 4 => ⟨S_, .f32⟩
  | 5 => ⟨S400000x64, .f32⟩
  | 6 => ⟨S400000x64, .f32⟩
  | 7 => ⟨S1x64x1, .f32⟩
  | 8 => ⟨S64x1, .f32⟩
  | 9 => ⟨S400000x1, .f32⟩
  | 10 => ⟨S1x1, .f32⟩
  | 11 => ⟨S1, .f32⟩
  | 12 => ⟨S1x1, .f32⟩
  | 13 => ⟨S400000x1, .f32⟩
  | 14 => ⟨S400000x1, .f32⟩
  | 15 => ⟨S400000x1, .f32⟩
  | 16 => ⟨S400000x1, .f32⟩
  | 17 => ⟨S_, .f32⟩
  | 18 => ⟨S400000x1, .f32⟩
  | 19 => ⟨S400000x1, .f32⟩
  | 20 => ⟨S_, .f32⟩
  | 21 => ⟨S400000x1, .f32⟩
  | 22 => ⟨S400000x1, .f32⟩
  | 23 => ⟨S_, .f32⟩
  | 24 => ⟨S400000x1, .f32⟩
  | 25 => ⟨S400000x1, .f32⟩
  | 26 => ⟨S400000x128, .f32⟩
  | 27 => ⟨S400000x128, .f32⟩
  | 28 => ⟨S400000x128, .f32⟩
  | 29 => ⟨S400000x128, .f32⟩
  | 30 => ⟨S400000x128, .f32⟩
  | 31 => ⟨S400000x128, .f32⟩
  | 32 => ⟨S400000x128, .f32⟩
  | 33 => ⟨S_, .f32⟩
  | 34 => ⟨S50000x128, .f32⟩
  | 35 => ⟨S400000x1, .i32⟩
  | 36 => ⟨S50000x128, .f32⟩
  | 37 => ⟨S50000x256, .f32⟩
  | 38 => ⟨S1x256x128, .f32⟩
  | 39 => ⟨S256x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x1, .f32⟩
  | 65 => ⟨S50000x1, .f32⟩
  | 66 => ⟨S50000x1, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S1x128, .f32⟩
  | 88 => ⟨S50000x1, .i32⟩
  | 89 => ⟨S1x128, .f32⟩
  | 90 => ⟨S_, .f32⟩
  | 91 => ⟨S50000x1, .f32⟩
  | 92 => ⟨S_, .f32⟩
  | 93 => ⟨S1x1, .f32⟩
  | 94 => ⟨S50000x1, .i32⟩
  | 95 => ⟨S1x1, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x16, .f32⟩
  | 105 => ⟨S1x16, .f32⟩
  | 106 => ⟨S1x16, .f32⟩
  | 107 => ⟨S1x3, .f32⟩
  | 108 => ⟨S1x3, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_c_0 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_1 : Ref sig .tc := ⟨.hbm, 55, rfl⟩
abbrev main_v21 : Ref sig .tc := ⟨.hbm, 56, rfl⟩
abbrev main_v22 : Ref sig .tc := ⟨.hbm, 57, rfl⟩
abbrev main_c_2 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call0_cst : Ref sig .tc := ⟨.hbm, 73, rfl⟩
abbrev main_call0_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_call1_cst : Ref sig .tc := ⟨.hbm, 92, rfl⟩
abbrev main_call1_v0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call2_cst : Ref sig .tc := ⟨.hbm, 112, rfl⟩
abbrev main_call2_v0 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst : Ref sig .tc := ⟨.hbm, 125, rfl⟩
abbrev main_v83 : Ref sig .tc := ⟨.hbm, 126, rfl⟩
abbrev main_v84 : Ref sig .tc := ⟨.hbm, 127, rfl⟩
abbrev main_cst_3 : Ref sig .tc := ⟨.hbm, 128, rfl⟩
abbrev main_v85 : Ref sig .tc := ⟨.hbm, 129, rfl⟩
abbrev main_v86 : Ref sig .tc := ⟨.hbm, 130, rfl⟩
abbrev main_cst_4 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_5 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_6 : Ref sig .tc := ⟨.hbm, 154, rfl⟩
abbrev main_v108 : Ref sig .tc := ⟨.hbm, 155, rfl⟩
abbrev main_v109 : Ref sig .tc := ⟨.hbm, 156, rfl⟩
abbrev main_cst_7 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_8 : Ref sig .tc := ⟨.hbm, 163, rfl⟩
abbrev main_v115 : Ref sig .tc := ⟨.hbm, 164, rfl⟩
abbrev main_v116 : Ref sig .tc := ⟨.hbm, 165, rfl⟩
abbrev main_cst_9 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_10 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_call3_cst : Ref sig .tc := ⟨.hbm, 187, rfl⟩
abbrev main_call3_v0 : Ref sig .tc := ⟨.hbm, 188, rfl⟩
abbrev main_v136 : Ref sig .tc := ⟨.hbm, 189, rfl⟩
abbrev main_v137 : Ref sig .tc := ⟨.hbm, 190, rfl⟩
abbrev main_call4_cst : Ref sig .tc := ⟨.hbm, 191, rfl⟩
abbrev main_call4_v0 : Ref sig .tc := ⟨.hbm, 192, rfl⟩
abbrev main_v138 : Ref sig .tc := ⟨.hbm, 193, rfl⟩
abbrev main_c_11 : Ref sig .tc := ⟨.hbm, 194, rfl⟩
abbrev main_v139 : Ref sig .tc := ⟨.hbm, 195, rfl⟩
abbrev main_v140 : Ref sig .tc := ⟨.hbm, 196, rfl⟩
abbrev main_c_12 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_c_13 : Ref sig .tc := ⟨.hbm, 203, rfl⟩
abbrev main_v146 : Ref sig .tc := ⟨.hbm, 204, rfl⟩
abbrev main_v147 : Ref sig .tc := ⟨.hbm, 205, rfl⟩
abbrev main_c_14 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_call5_cst : Ref sig .tc := ⟨.hbm, 221, rfl⟩
abbrev main_call5_v0 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_call6_cst : Ref sig .tc := ⟨.hbm, 240, rfl⟩
abbrev main_call6_v0 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_call7_cst : Ref sig .tc := ⟨.hbm, 260, rfl⟩
abbrev main_call7_v0 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_cst_15 : Ref sig .tc := ⟨.hbm, 273, rfl⟩
abbrev main_v208 : Ref sig .tc := ⟨.hbm, 274, rfl⟩
abbrev main_v209 : Ref sig .tc := ⟨.hbm, 275, rfl⟩
abbrev main_cst_16 : Ref sig .tc := ⟨.hbm, 276, rfl⟩
abbrev main_v210 : Ref sig .tc := ⟨.hbm, 277, rfl⟩
abbrev main_v211 : Ref sig .tc := ⟨.hbm, 278, rfl⟩
abbrev main_cst_17 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_cst_18 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_cst_19 : Ref sig .tc := ⟨.hbm, 302, rfl⟩
abbrev main_v233 : Ref sig .tc := ⟨.hbm, 303, rfl⟩
abbrev main_v234 : Ref sig .tc := ⟨.hbm, 304, rfl⟩
abbrev main_cst_20 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_cst_21 : Ref sig .tc := ⟨.hbm, 311, rfl⟩
abbrev main_v240 : Ref sig .tc := ⟨.hbm, 312, rfl⟩
abbrev main_v241 : Ref sig .tc := ⟨.hbm, 313, rfl⟩
abbrev main_cst_22 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_23 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_call8_cst : Ref sig .tc := ⟨.hbm, 335, rfl⟩
abbrev main_call8_v0 : Ref sig .tc := ⟨.hbm, 336, rfl⟩
abbrev main_v261 : Ref sig .tc := ⟨.hbm, 337, rfl⟩
abbrev main_v262 : Ref sig .tc := ⟨.hbm, 338, rfl⟩
abbrev main_call9_cst : Ref sig .tc := ⟨.hbm, 339, rfl⟩
abbrev main_call9_v0 : Ref sig .tc := ⟨.hbm, 340, rfl⟩
abbrev main_v263 : Ref sig .tc := ⟨.hbm, 341, rfl⟩
abbrev main_cst_24 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_cst_25 : Ref sig .tc := ⟨.hbm, 346, rfl⟩
abbrev main_v267 : Ref sig .tc := ⟨.hbm, 347, rfl⟩
abbrev main_cst_26 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_call10_cst : Ref sig .tc := ⟨.hbm, 357, rfl⟩
abbrev main_call10_v0 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S400000x128_0_1 : S1x128.BroadcastsInDim S400000x128 (![0, 1] : Fin 2 → Fin S400000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S400000_S400000x1_0 : S400000.BroadcastsInDim S400000x1 (![0] : Fin 1 → Fin S400000x1.rank)
  bcast_S_S400000 : S_.BroadcastsInDim S400000 (![] : Fin 0 → Fin S400000.rank)
  concatenates_S400000x128_S400000x128_S400000x128_S400000x384_d1 : Shape.Concatenates [S400000x128, S400000x128, S400000x128] S400000x384 1
  slices_S2x384x128_S1x384x128_0_0_0 : S2x384x128.Slices ![0, 0, 0] S1x384x128
  shapeCasts_S1x384x128_S384x128 : S1x384x128.ShapeCasts S384x128
  slices_S2x128_S1x128_0_0 : S2x128.Slices ![0, 0] S1x128
  shapeCasts_S1x128_S128 : S1x128.ShapeCasts S128
  bcast_S_S400000x128 : S_.BroadcastsInDim S400000x128 (![] : Fin 0 → Fin S400000x128.rank)
  slices_S2x128x128_S1x128x128_0_0_0 : S2x128x128.Slices ![0, 0, 0] S1x128x128
  shapeCasts_S1x128x128_S128x128 : S1x128x128.ShapeCasts S128x128
  concatenates_S400000x128_S400000x128_S400000x256_d1 : Shape.Concatenates [S400000x128, S400000x128] S400000x256 1
  slices_S2x256x64_S1x256x64_0_0_0 : S2x256x64.Slices ![0, 0, 0] S1x256x64
  shapeCasts_S1x256x64_S256x64 : S1x256x64.ShapeCasts S256x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  concatenates_S50000x128_S50000x128_S50000x256_d1 : Shape.Concatenates [S50000x128, S50000x128] S50000x256 1
  slices_S2x256x128_S1x256x128_0_0_0 : S2x256x128.Slices ![0, 0, 0] S1x256x128
  shapeCasts_S1x256x128_S256x128 : S1x256x128.ShapeCasts S256x128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  slices_S2x256x64_S1x256x64_1_0_0 : S2x256x64.Slices ![1, 0, 0] S1x256x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x256x128_S1x256x128_1_0_0 : S2x256x128.Slices ![1, 0, 0] S1x256x128
  bcast_S_S1x128 : S_.BroadcastsInDim S1x128 (![] : Fin 0 → Fin S1x128.rank)
  bcast_S_S1x1 : S_.BroadcastsInDim S1x1 (![] : Fin 0 → Fin S1x1.rank)
  bcast_S1x1_S1x128_0_1 : S1x1.BroadcastsInDim S1x128 (![0, 1] : Fin 2 → Fin S1x128.rank)
  bcast_S16_S1x16_1 : S16.BroadcastsInDim S1x16 (![1] : Fin 1 → Fin S1x16.rank)
  slices_S1x16_S1x3_0_0 : S1x16.Slices ![0, 0] S1x3
  dot_S50000x32_S32x128_S50000x128_1_0_0_1_n_n_wf : DotDims.WF S50000x32 S32x128 S50000x128 [1] [0] [0] [1] [] []
  dot_S400000x8_S8x128_S400000x128_1_0_0_1_n_n_wf : DotDims.WF S400000x8 S8x128 S400000x128 [1] [0] [0] [1] [] []
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  dot_S400000x256_S256x64_S400000x64_1_0_0_1_n_n_wf : DotDims.WF S400000x256 S256x64 S400000x64 [1] [0] [0] [1] [] []
  dot_S400000x64_S64x1_S400000x1_1_0_0_1_n_n_wf : DotDims.WF S400000x64 S64x1 S400000x1 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  scatter_S1x128_S50000x1_S50000x128_1_0_0_1_wf : ScatterDims.WF S1x128 S50000x1 S50000x128 [1] [0] [0] 1
  scatter_S1x1_S50000x1_S50000x1_1_0_0_1_wf : ScatterDims.WF S1x1 S50000x1 S50000x1 [1] [0] [0] 1
  dot_S1x128_S128x128_S1x128_1_0_0_1_n_n_wf : DotDims.WF S1x128 S128x128 S1x128 [1] [0] [0] [1] [] []
  dot_S1x128_S128x16_S1x16_1_0_0_1_n_n_wf : DotDims.WF S1x128 S128x16 S1x16 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def dot_S400000x8_S8x128_S400000x128_1_0_0_1_n_n : DotDims S400000x8 S8x128 S400000x128 where
  lhsContracting := [1]
  rhsContracting := [0]
  lhsNonContracting := [0]
  rhsNonContracting := [1]
  lhsBatch := []
  rhsBatch := []
  wf := dot_S400000x8_S8x128_S400000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x256_S256x64_S400000x64_1_0_0_1_n_n : DotDims S400000x256 S256x64 S400000x64 where
  lhsContracting := [1]
  rhsContracting := [0]
  lhsNonContracting := [0]
  rhsNonContracting := [1]
  lhsBatch := []
  rhsBatch := []
  wf := dot_S400000x256_S256x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S1x128_S50000x1_S50000x128_1_0_0_1 : ScatterDims S1x128 S50000x1 S50000x128 where
  updateWindowDims := [1]
  insertedWindowDims := [0]
  scatterDimsToOperandDims := [0]
  indexVectorDim := 1
  wf := scatter_S1x128_S50000x1_S50000x128_1_0_0_1_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.LibPlain.lean ====
import Idealize.ShloMosaic.Lib.Pipeline.Value
import Idealize.ShloMosaic.Lib.ValueIdx
import Idealize.ShloMosaic.PureOps.Ideal.Laws

set_option maxRecDepth 16384

noncomputable section

open scoped BigOperators

namespace Cert.Plain

open Idealize.ShloMosaic Idealize.ShloMosaic.TcCoe Idealize.ShloMosaic.ValueIdx

variable (M K N : Nat)

theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil), dif_pos (show (0 : Fin (⟨2, ![M, K]⟩ : Shape).rank) ∈ (DotDims.plain M K N).lhsNonContracting from List.mem_singleton.2 rfl)]
  rfl
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil), dif_pos (show (1 : Fin (⟨2, ![K, N]⟩ : Shape).rank) ∈ (DotDims.plain M K N).rhsNonContracting from List.mem_singleton.2 rfl)]
  rfl

/-- A plain matrix product into a zero accumulator, read at row `p` and column `q`, is the sum over the contracted coordinate. -/
theorem mm {φ₁ φ₂ : FTy} (a : FVec Ideal ⟨2, ![M, K]⟩ φ₁) (w : FVec Ideal ⟨2, ![K, N]⟩ φ₂) (p : Fin M) (q : Fin N) :
    matmul (DotDims.plain M K N) none a w (constant (F := Ideal) ⟨2, ![M, N]⟩ .f32 0x00000000#32) (ix2 p q)
      = ∑ k : Fin K, a (ix2 p k) * w (ix2 k q) := by
  refine (Ideal.matmul_constant_zero_apply (DotDims.plain M K N) none a w (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k := funext fun a => Fin.ext (by
    match a with
    | ⟨0, _⟩ => exact lhs_0 M K N _ _
    | ⟨1, _⟩ => exact (lhs_1 M K N _ _).trans hk)
  have er : (DotDims.plain M K N).rhsIdx (ix2 p q) ((contrEquiv1 (DotDims.plain M K N) K rfl rfl).symm k) = ix2 k q := funext fun a => Fin.ext (by
    match a with
    | ⟨0, _⟩ => exact (rhs_0 M K N _ _).trans hk
    | ⟨1, _⟩ => exact rhs_1 M K N _ _)
  rw [el, er]

end Cert.Plain

end
-- ==== Proof.Spec.lean ====
-- The row-wise functions both programs compute, over the extended reals.
import Idealize.ShloMosaic.PureOps.Ideal
import Idealize.ShloMosaic.Lib.ValueIdx

noncomputable section

open scoped BigOperators

namespace Cert.Spec

open Idealize.ShloMosaic Idealize.ShloMosaic.ValueIdx

abbrev Arr (n m : Nat) := (⟨2, ![n, m]⟩ : Shape).Idx → EReal

abbrev zeroF : EReal := Ideal.ofBits .f32 0x00000000#32
abbrev oneF : EReal := Ideal.ofBits .f32 0x3F800000#32
abbrev c128 : EReal := Ideal.ofBits .f32 0x43000000#32
abbrev epsF : EReal := Ideal.ofBits .f32 0x3727C5AC#32

def row {n m : Nat} (A : Arr n m) (e : Fin n) : Fin m → EReal := fun k => A (ix2 e k)

def lin {K J : Nat} (a : Fin K → EReal) (W : Arr K J) (b : Arr 1 J) (j : Fin J) : EReal :=
  (∑ k : Fin K, a k * W (ix2 k j)) + b (ix2 0 j)

def cat2 (a b : Fin 128 → EReal) : Fin 256 → EReal :=
  fun k => if h : k.val < 128 then a ⟨k.val, h⟩ else b ⟨k.val - 128, by omega⟩

def cat3 (a b c : Fin 128 → EReal) : Fin 384 → EReal :=
  fun k => if h : k.val < 128 then a ⟨k.val, h⟩ else if h2 : k.val < 256 then b ⟨k.val - 128, by omega⟩ else c ⟨k.val - 256, by omega⟩

def msgRow (xi xj ea : Fin 128 → EReal) (et : EReal)
    (W1 : Arr 384 128) (b1 : Arr 1 128) (W2 : Arr 128 128) (b2 : Arr 1 128)
    (W3 : Arr 384 128) (b3 : Arr 1 128) (W4 : Arr 128 128) (b4 : Arr 1 128)
    (W5 : Arr 256 64) (b5 : Arr 1 64) (W6 : Arr 64 1) (b6 : Arr 1 1) (j : Fin 128) : EReal :=
  (oneF - et) * lin (fun k => max (lin (cat3 xi xj ea) W1 b1 k) zeroF) W2 b2 j
    + et * (lin (fun k => max (lin (cat3 xi xj ea) W3 b3 k) zeroF) W4 b4 j
            * Ideal.logistic (lin (fun k => max (lin (cat2 xi xj) W5 b5 k) zeroF) W6 b6 0))

def updLin (x aggr : Fin 128 → EReal) (Wu : Arr 256 128) (bu : Arr 1 128) : Fin 128 → EReal :=
  fun k => lin (cat2 x aggr) Wu bu k

def mean128 (h : Fin 128 → EReal) : EReal := Ideal.div (∑ k : Fin 128, h k) c128

def updRow (x aggr : Fin 128 → EReal) (Wu : Arr 256 128) (bu g bb : Arr 1 128) (j : Fin 128) : EReal :=
  max (max (((updLin x aggr Wu bu j - mean128 (updLin x aggr Wu bu))
              * Ideal.rsqrt (mean128 (fun k => (updLin x aggr Wu bu k - mean128 (updLin x aggr Wu bu))
                                              * (updLin x aggr Wu bu k - mean128 (updLin x aggr Wu bu))) + epsF))
             * g (ix2 0 j) + bb (ix2 0 j)) zeroF + x j) zeroF

def embedSpec {n K : Nat} (a : Arr n K) (W : Arr K 128) (b : Arr 1 128) : Arr n 128 :=
  fun i => lin (row a (i 0)) W b (i 1)

def msgSpec {n : Nat} (xi xj ea : Arr n 128) (et : Arr n 1)
    (W1 : Arr 384 128) (b1 : Arr 1 128) (W2 : Arr 128 128) (b2 : Arr 1 128)
    (W3 : Arr 384 128) (b3 : Arr 1 128) (W4 : Arr 128 128) (b4 : Arr 1 128)
    (W5 : Arr 256 64) (b5 : Arr 1 64) (W6 : Arr 64 1) (b6 : Arr 1 1) : Arr n 128 :=
  fun i => msgRow (row xi (i 0)) (row xj (i 0)) (row ea (i 0)) (et (ix2 (i 0) 0)) W1 b1 W2 b2 W3 b3 W4 b4 W5 b5 W6 b6 (i 1)

def updSpec {n : Nat} (x aggr : Arr n 128) (Wu : Arr 256 128) (bu g bb : Arr 1 128) : Arr n 128 :=
  fun i => updRow (row x (i 0)) (row aggr (i 0)) Wu bu g bb (i 1)

theorem msgSpec_congr_row {n : Nat} {xi xi' xj xj' ea : Arr n 128} {et : Arr n 1}
    {W1 : Arr 384 128} {b1 : Arr 1 128} {W2 : Arr 128 128} {b2 : Arr 1 128}
    {W3 : Arr 384 128} {b3 : Arr 1 128} {W4 : Arr 128 128} {b4 : Arr 1 128}
    {W5 : Arr 256 64} {b5 : Arr 1 64} {W6 : Arr 64 1} {b6 : Arr 1 1} (e : Fin n) (j : Fin 128)
    (hi : ∀ k : Fin 128, xi (ix2 e k) = xi' (ix2 e k)) (hj : ∀ k : Fin 128, xj (ix2 e k) = xj' (ix2 e k)) :
    msgSpec xi xj ea et W1 b1 W2 b2 W3 b3 W4 b4 W5 b5 W6 b6 (ix2 e j)
      = msgSpec xi' xj' ea et W1 b1 W2 b2 W3 b3 W4 b4 W5 b5 W6 b6 (ix2 e j) := by
  have h1 : row xi e = row xi' e := funext hi
  have h2 : row xj e = row xj' e := funext hj
  show msgRow (row xi e) (row xj e) (row ea e) (et (ix2 e 0)) W1 b1 W2 b2 W3 b3 W4 b4 W5 b5 W6 b6 j
     = msgRow (row xi' e) (row xj' e) (row ea e) (et (ix2 e 0)) W1 b1 W2 b2 W3 b3 W4 b4 W5 b5 W6 b6 j
  rw [h1, h2]

end Cert.Spec

end
-- ==== Proof.KEmbed.lean ====
-- Each embedding region writes a dense layer of its input array's rows.
import proofs.«416830_j43473658970339_2_alg».proof.Proof.Gen.KernelIdeal.Frame
import proofs.«416830_j43473658970339_2_alg».proof.Proof.LibPlain
import proofs.«416830_j43473658970339_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem hz : (![0, 0] : Fin 2 → Nat) = fun _ => 0 := funext fun a => by fin_cases a <;> rfl

theorem matmul0_apply (a : FVec Ideal S10000x32 .bf16) (w : FVec Ideal S32x128 .bf16) (p : Fin 10000) (q : Fin 128) :
    matmul dot_S10000x32_S32x128_S10000x128_1_0_0_1_n_n none a w (constant (F := Ideal) S10000x128 .f32 0x00000000#32) (ix2 p q)
      = ∑ k : Fin 32, a (ix2 p k) * w (ix2 k q) :=
  Cert.Plain.mm _ _ _ a w p q

theorem pay0_apply (x0 : Vec Ideal S10000x32 .f32) (x1 : Vec Ideal S32x128 .f32) (x2 : Vec Ideal S1x128 .f32)
    (p : Fin 10000) (q : Fin 128) :
    k0_pay1 (F := Ideal) x0 x1 x2 (ix2 p q) = Cert.Spec.lin (Cert.Spec.row x0 p) x1 x2 q := by
  unfold k0_pay1
  rw [addf_apply]
  refine congrArg₂ (· + ·) ?_ ?_
  · exact matmul0_apply _ _ p q
  · rw [shapeCast_self]
    exact broadcastTo_1b_ab_apply x2 broadcasts_S1x128_S10000x128 p q

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blockval0 (x0 : Vec Ideal S10000x32 .f32) (x1 : Vec Ideal S32x128 .f32) (x2 : Vec Ideal S1x128 .f32)
    (A : Cert.Spec.Arr 50000 32) (W : Cert.Spec.Arr 32 128) (b : Cert.Spec.Arr 1 128)
    (p : Fin 10000) (q : Fin 128) (r : Fin 50000)
    (h0 : ∀ k : Fin 32, x0 (ix2 p k) = A (ix2 r k)) (h1 : x1 = W) (h2 : x2 = b) :
    k0_pay1 (F := Ideal) x0 x1 x2 (ix2 p q) = Cert.Spec.embedSpec A W b (ix2 r q) := by
  rw [pay0_apply, h1, h2]
  show Cert.Spec.lin (Cert.Spec.row x0 p) W b q = Cert.Spec.lin (Cert.Spec.row A r) W b q
  exact congrArg (fun a => Cert.Spec.lin a W b q) (funext h0)

theorem flushed0_eq (c : Dev nD) (t : Fin cfg0.N) :
    (dat0 (F := Ideal) V c).flushed 3 t
      = ((cfg0.win 3).blk t).view.read (Elt Ideal) (Cert.Spec.embedSpec (V c main_arg0) (V c main_arg8) (V c main_v0)) := by
  show (cfg0.win 3).cut (grid0.coords t) ((dat0 V c).after 3 t) = _
  rw [after0_3]
  unfold out0_3
  rw [View.canon_unit_zero hz]
  simp only [View.ld_unit_zero (S := S10000x32) hz, View.ld_unit_zero (S := S32x128) hz, View.ld_unit_zero (S := S1x128) hz]
  obtain ⟨e00, e01, e10, e11, e20, e21, e30, e31⟩ := idx_facts0 t
  have ht : t.val < 5 := t.isLt
  funext j
  have hj0 : (j 0).val < 10000 := (j 0).isLt
  have hj1 : (j 1).val < 128 := (j 1).isLt
  have hx : (cfg0.win 3).xinj (grid0.coords t) j = ix2 (⟨(j 0).val, hj0⟩ : Fin 10000) (⟨(j 1).val, hj1⟩ : Fin 128) :=
    funext fun a => match a with | ⟨0, _⟩ => rfl | ⟨1, _⟩ => rfl
  have hemb : ((cfg0.win 3).blk t).view.emb j = ix2 (⟨t.val * 10000 + (j 0).val, by omega⟩ : Fin 50000) (⟨(j 1).val, hj1⟩ : Fin 128) := by
    funext a; apply Fin.ext
    match a with
    | ⟨0, _⟩ => show win0_3.index t (0 : Fin 2) * 10000 + 1 * (j 0).val = t.val * 10000 + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) ((cfg0.win 3).xinj (grid0.coords t) j)
    = Cert.Spec.embedSpec (V c main_arg0) (V c main_arg8) (V c main_v0) (((cfg0.win 3).blk t).view.emb j)
  rw [hx, hemb]
  refine blockval0 (iblk0 V c 0 t) (iblk0 V c 1 t) (iblk0 V c 2 t) (V c main_arg0) (V c main_arg8) (V c main_v0) _ _ _ (fun k => ?_) ?_ ?_
  · show V c main_arg0 (((cfg0.win 0).blk t).view.emb (ix2 (⟨(j 0).val, hj0⟩ : Fin 10000) k)) = _
    refine congrArg (V c main_arg0) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 32 + 1 * k.val = k.val; omega
  · funext i
    show V c main_arg8 (((cfg0.win 1).blk t).view.emb i) = V c main_arg8 i
    refine congrArg (V c main_arg8) (funext fun a => Fin.ext ?_)
    match a with
    | ⟨0, _⟩ => show win0_1.index t (0 : Fin 2) * 32 + 1 * (i 0).val = (i 0).val; omega
    | ⟨1, _⟩ => show win0_1.index t (1 : Fin 2) * 128 + 1 * (i 1).val = (i 1).val; omega
  · funext i
    show V c main_v0 (((cfg0.win 2).blk t).view.emb i) = V c main_v0 i
    refine congrArg (V c main_v0) (funext fun a => Fin.ext ?_)
    match a with
    | ⟨0, _⟩ => show win0_2.index t (0 : Fin 2) * 1 + 1 * (i 0).val = (i 0).val; omega
    | ⟨1, _⟩ => show win0_2.index t (1 : Fin 2) * 128 + 1 * (i 1).val = (i 1).val; omega

theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 5 := N_0
  let t : Fin cfg0.N := ⟨(i 0).val / 10000, by show (i 0).val / 10000 < grid0.N; omega⟩
  have htv : t.val = (i 0).val / 10000 := rfl
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem final0 (c : Dev nD) :
    (dat0 (F := Ideal) V c).arrAt 3 cfg0.N = Cert.Spec.embedSpec (V c main_arg0) (V c main_arg8) (V c main_v0) :=
  (dat0 (F := Ideal) V c).arrAt_eq_of_cover 3 (Cert.Spec.embedSpec (V c main_arg0) (V c main_arg8) (V c main_v0))
    (fun t _ => flushed0_eq V c t) cover0

theorem matmul1_apply (a : FVec Ideal S20000x8 .bf16) (w : FVec Ideal S8x128 .bf16) (p : Fin 20000) (q : Fin 128) :
    matmul dot_S20000x8_S8x128_S20000x128_1_0_0_1_n_n none a w (constant (F := Ideal) S20000x128 .f32 0x00000000#32) (ix2 p q)
      = ∑ k : Fin 8, a (ix2 p k) * w (ix2 k q) :=
  Cert.Plain.mm _ _ _ a w p q

theorem pay1_apply (x0 : Vec Ideal S20000x8 .f32) (x1 : Vec Ideal S8x128 .f32) (x2 : Vec Ideal S1x128 .f32)
    (p : Fin 20000) (q : Fin 128) :
    k1_pay1 (F := Ideal) x0 x1 x2 (ix2 p q) = Cert.Spec.lin (Cert.Spec.row x0 p) x1 x2 q := by
  unfold k1_pay1
  rw [addf_apply]
  refine congrArg₂ (· + ·) ?_ ?_
  · exact matmul1_apply _ _ p q
  · rw [shapeCast_self]
    exact broadcastTo_1b_ab_apply x2 broadcasts_S1x128_S20000x128 p q

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blockval1 (x0 : Vec Ideal S20000x8 .f32) (x1 : Vec Ideal S8x128 .f32) (x2 : Vec Ideal S1x128 .f32)
    (A : Cert.Spec.Arr 400000 8) (W : Cert.Spec.Arr 8 128) (b : Cert.Spec.Arr 1 128)
    (p : Fin 20000) (q : Fin 128) (r : Fin 400000)
    (h0 : ∀ k : Fin 8, x0 (ix2 p k) = A (ix2 r k)) (h1 : x1 = W) (h2 : x2 = b) :
    k1_pay1 (F := Ideal) x0 x1 x2 (ix2 p q) = Cert.Spec.embedSpec A W b (ix2 r q) := by
  rw [pay1_apply, h1, h2]
  show Cert.Spec.lin (Cert.Spec.row x0 p) W b q = Cert.Spec.lin (Cert.Spec.row A r) W b q
  exact congrArg (fun a => Cert.Spec.lin a W b q) (funext h0)

theorem flushed1_eq (c : Dev nD) (t : Fin cfg1.N) :
    (dat1 (F := Ideal) V c).flushed 3 t
      = ((cfg1.win 3).blk t).view.read (Elt Ideal) (Cert.Spec.embedSpec (V c main_arg1) (V c main_arg10) (V c main_v2)) := by
  show (cfg1.win 3).cut (grid1.coords t) ((dat1 V c).after 3 t) = _
  rw [after1_3]
  unfold out1_3
  rw [View.canon_unit_zero hz]
  simp only [View.ld_unit_zero (S := S20000x8) hz, View.ld_unit_zero (S := S8x128) hz, View.ld_unit_zero (S := S1x128) hz]
  obtain ⟨e00, e01, e10, e11, e20, e21, e30, e31⟩ := idx_facts1 t
  have ht : t.val < 20 := t.isLt
  funext j
  have hj0 : (j 0).val < 20000 := (j 0).isLt
  have hj1 : (j 1).val < 128 := (j 1).isLt
  have hx : (cfg1.win 3).xinj (grid1.coords t) j = ix2 (⟨(j 0).val, hj0⟩ : Fin 20000) (⟨(j 1).val, hj1⟩ : Fin 128) :=
    funext fun a => match a with | ⟨0, _⟩ => rfl | ⟨1, _⟩ => rfl
  have hemb : ((cfg1.win 3).blk t).view.emb j = ix2 (⟨t.val * 20000 + (j 0).val, by omega⟩ : Fin 400000) (⟨(j 1).val, hj1⟩ : Fin 128) := by
    funext a; apply Fin.ext
    match a with
    | ⟨0, _⟩ => show win1_3.index t (0 : Fin 2) * 20000 + 1 * (j 0).val = t.val * 20000 + (j 0).val; omega
    | ⟨1, _⟩ => show win1_3.index t (1 : Fin 2) * 128 + 1 * (j 1).val = (j 1).val; omega
  show k1_pay1 (F := Ideal) (iblk1 V c 0 t) (iblk1 V c 1 t) (iblk1 V c 2 t) ((cfg1.win 3).xinj (grid1.coords t) j)
    = Cert.Spec.embedSpec (V c main_arg1) (V c main_arg10) (V c main_v2) (((cfg1.win 3).blk t).view.emb j)
  rw [hx, hemb]
  refine blockval1 (iblk1 V c 0 t) (iblk1 V c 1 t) (iblk1 V c 2 t) (V c main_arg1) (V c main_arg10) (V c main_v2) _ _ _ (fun k => ?_) ?_ ?_
  · show V c main_arg1 (((cfg1.win 0).blk t).view.emb (ix2 (⟨(j 0).val, hj0⟩ : Fin 20000) k)) = _
    refine congrArg (V c main_arg1) (funext fun a => Fin.ext ?_)
    match a with
    | ⟨0, _⟩ => show win1_0.index t (0 : Fin 2) * 20000 + 1 * (j 0).val = t.val * 20000 + (j 0).val; omega
    | ⟨1, _⟩ => show win1_0.index t (1 : Fin 2) * 8 + 1 * k.val = k.val; omega
  · funext i
    show V c main_arg10 (((cfg1.win 1).blk t).view.emb i) = V c main_arg10 i
    refine congrArg (V c main_arg10) (funext fun a => Fin.ext ?_)
    match a with
    | ⟨0, _⟩ => show win1_1.index t (0 : Fin 2) * 8 + 1 * (i 0).val = (i 0).val; omega
    | ⟨1, _⟩ => show win1_1.index t (1 : Fin 2) * 128 + 1 * (i 1).val = (i 1).val; omega
  · funext i
    show V c main_v2 (((cfg1.win 2).blk t).view.emb i) = V c main_v2 i
    refine congrArg (V c main_v2) (funext fun a => Fin.ext ?_)
    match a with
    | ⟨0, _⟩ => show win1_2.index t (0 : Fin 2) * 1 + 1 * (i 0).val = (i 0).val; omega
    | ⟨1, _⟩ => show win1_2.index t (1 : Fin 2) * 128 + 1 * (i 1).val = (i 1).val; omega

theorem mem_blk1 (t : Fin cfg1.N) (i : S400000x128.Idx) :
    i ∈ ((cfg1.win 3).blk t).view.set ↔ ∀ a : Fin 2, win1_3.index t a * S20000x128.size a ≤ (i a).val ∧ (i a).val < win1_3.index t a * S20000x128.size a + S20000x128.size a := by
  show i ∈ ((View.whole main_v3).slice (win1_3.rect t)).set ↔ _
  rw [View.set_slice_whole, Rect.mem_set_unit]
  exact Iff.rfl

theorem cover1 (i : S400000x128.Idx) :
    ∃ t : Fin cfg1.N, (cfg1.win 3).flush t = true ∧ i ∈ ((cfg1.win 3).blk t).view.set := by
  have hi0 : (i 0).val < 400000 := (i 0).isLt
  have hi1 : (i 1).val < 128 := (i 1).isLt
  have hN : grid1.N = 20 := N_1
  let t : Fin cfg1.N := ⟨(i 0).val / 20000, by show (i 0).val / 20000 < grid1.N; omega⟩
  have htv : t.val = (i 0).val / 20000 := rfl
  obtain ⟨e00, e01, e10, e11, e20, e21, e30, e31⟩ := idx_facts1 t
  refine ⟨t, flush1_3 t, ?_⟩
  rw [mem_blk1]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 128 ≤ (i 1).val ∧ (i 1).val < win1_3.index t (1 : Fin 2) * 128 + 128; omega

theorem final1 (c : Dev nD) :
    (dat1 (F := Ideal) V c).arrAt 3 cfg1.N = Cert.Spec.embedSpec (V c main_arg1) (V c main_arg10) (V c main_v2) :=
  (dat1 (F := Ideal) V c).arrAt_eq_of_cover 3 (Cert.Spec.embedSpec (V c main_arg1) (V c main_arg10) (V c main_v2))
    (fun t _ => flushed1_eq V c t) cover1

end Cert.KernelIdeal.Val

end
-- ==== Proof.KMsg.lean ====
-- Each message region writes the message row function of an edge's three rows and its edge-type entry.
import proofs.«416830_j43473658970339_2_alg».proof.Proof.Gen.KernelIdeal.Frame
import proofs.«416830_j43473658970339_2_alg».proof.Proof.LibPlain
import proofs.«416830_j43473658970339_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem mm_384 (a : FVec Ideal S2000x384 .bf16) (w : FVec Ideal S384x128 .bf16) (p : Fin 2000) (q : Fin 128) :
    matmul dot_S2000x384_S384x128_S2000x128_1_0_0_1_n_n none a w (constant (F := Ideal) S2000x128 .f32 0x00000000#32) (ix2 p q)
      = ∑ k : Fin 384, a (ix2 p k) * w (ix2 k q) :=
  Cert.Plain.mm _ _ _ a w p q

theorem mm_128 (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) :=
  Cert.Plain.mm _ _ _ a w p q

theorem mm_256 (a : FVec Ideal S2000x256 .bf16) (w : FVec Ideal S256x64 .bf16) (p : Fin 2000) (q : Fin 64) :
    matmul dot_S2000x256_S256x64_S2000x64_1_0_0_1_n_n none a w (constant (F := Ideal) S2000x64 .f32 0x00000000#32) (ix2 p q)
      = ∑ k : Fin 256, a (ix2 p k) * w (ix2 k q) :=
  Cert.Plain.mm _ _ _ a w p q

theorem mm_64 (a : FVec Ideal S2000x64 .bf16) (w : FVec Ideal S64x1 .bf16) (p : Fin 2000) (q : Fin 1) :
    matmul dot_S2000x64_S64x1_S2000x1_1_0_0_1_n_n none a w (constant (F := Ideal) S2000x1 .f32 0x00000000#32) (ix2 p q)
      = ∑ k : Fin 64, a (ix2 p k) * w (ix2 k q) :=
  Cert.Plain.mm _ _ _ a w p q

theorem bias_128 (b : Vec Ideal S1x128 .f32) (p : Fin 2000) (q : Fin 128) :
    broadcastTo S2000x128 (shapeCast S1x128 b shapeCasts_S1x128_S1x128) broadcasts_S1x128_S2000x128 (ix2 p q) = b (ix2 0 q) := by
  rw [shapeCast_self]
  exact broadcastTo_apply b broadcasts_S1x128_S2000x128 (ix2 p q) (ix2 0 q) (fun a => by
    match a with
    | ⟨0, _⟩ => rfl
    | ⟨1, _⟩ => rfl)

theorem bias_64 (b : Vec Ideal S1x64 .f32) (p : Fin 2000) (q : Fin 64) :
    broadcastTo S2000x64 (shapeCast S1x64 b shapeCasts_S1x64_S1x64) broadcasts_S1x64_S2000x64 (ix2 p q) = b (ix2 0 q) := by
  rw [shapeCast_self]
  exact broadcastTo_apply b broadcasts_S1x64_S2000x64 (ix2 p q) (ix2 0 q) (fun a => by
    match a with
    | ⟨0, _⟩ => rfl
    | ⟨1, _⟩ => rfl)

theorem bias_1 (b : Vec Ideal S1x1 .f32) (p : Fin 2000) (q : Fin 1) :
    broadcastTo S2000x1 (shapeCast S1x1 b shapeCasts_S1x1_S1x1) broadcasts_S1x1_S2000x1 (ix2 p q) = b (ix2 0 0) := by
  rw [shapeCast_self]
  exact broadcastTo_apply b broadcasts_S1x1_S2000x1 (ix2 p q) (ix2 0 0) (fun a => by
    match a with
    | ⟨0, _⟩ => rfl
    | ⟨1, _⟩ => rfl)

theorem col_128 (v : FVec Ideal S2000x1 .f32) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => by
    match a with
    | ⟨0, _⟩ => rfl
    | ⟨1, _⟩ => rfl)

theorem cat3_at (x0 x1 x2 : FVec Ideal S2000x128 .bf16) (p : Fin 2000) (k : Fin 384) :
    concatenate S2000x384 1 [⟨S2000x128, x0⟩, ⟨S2000x128, x1⟩, ⟨S2000x128, x2⟩] concatenates_S2000x128_S2000x128_S2000x128_S2000x384_d1 (ix2 p k)
      = Cert.Spec.cat3 (fun c => x0 (ix2 p c)) (fun c => x1 (ix2 p c)) (fun c => x2 (ix2 p c)) k := by
  unfold Cert.Spec.cat3
  by_cases h1 : k.val < 128
  · rw [dif_pos h1]
    exact concatenate_apply_piece 1 ([⟨S2000x128, x0⟩, ⟨S2000x128, x1⟩, ⟨S2000x128, x2⟩] : List ((s : Shape) × (s.Idx → Ideal .bf16))) concatenates_S2000x128_S2000x128_S2000x128_S2000x384_d1 (ix2 p k) 0 (by show (0 : Nat) < 3; omega) S2000x128 x0 rfl rfl 0 rfl (ix2 p ⟨k.val, h1⟩) (fun b => by match b with | ⟨0, _⟩ => exact fun _ => rfl | ⟨1, _⟩ => exact fun hne => absurd rfl hne) (by show 0 + k.val = k.val; omega)
  · rw [dif_neg h1]
    by_cases h2 : k.val < 256
    · rw [dif_pos h2]
      exact concatenate_apply_piece 1 ([⟨S2000x128, x0⟩, ⟨S2000x128, x1⟩, ⟨S2000x128, x2⟩] : List ((s : Shape) × (s.Idx → Ideal .bf16))) concatenates_S2000x128_S2000x128_S2000x128_S2000x384_d1 (ix2 p k) 1 (by show (1 : Nat) < 3; omega) S2000x128 x1 rfl rfl 128 rfl (ix2 p ⟨k.val - 128, by omega⟩) (fun b => by match b with | ⟨0, _⟩ => exact fun _ => rfl | ⟨1, _⟩ => exact fun hne => absurd rfl hne) (by show 128 + (k.val - 128) = k.val; omega)
    · rw [dif_neg h2]
      exact concatenate_apply_piece 1 ([⟨S2000x128, x0⟩, ⟨S2000x128, x1⟩, ⟨S2000x128, x2⟩] : List ((s : Shape) × (s.Idx → Ideal .bf16))) concatenates_S2000x128_S2000x128_S2000x128_S2000x384_d1 (ix2 p k) 2 (by show (2 : Nat) < 3; omega) S2000x128 x2 rfl rfl 256 rfl (ix2 p ⟨k.val - 256, by have := k.isLt; omega⟩) (fun b => by match b with | ⟨0, _⟩ => exact fun _ => rfl | ⟨1, _⟩ => exact fun hne => absurd rfl hne) (by show 256 + (k.val - 256) = k.val; omega)

theorem cat2_at (x0 x1 : FVec Ideal S2000x128 .bf16) (p : Fin 2000) (k : Fin 256) :
    concatenate S2000x256 1 [⟨S2000x128, x0⟩, ⟨S2000x128, x1⟩] concatenates_S2000x128_S2000x128_S2000x256_d1 (ix2 p k)
      = Cert.Spec.cat2 (fun c => x0 (ix2 p c)) (fun c => x1 (ix2 p c)) k := by
  unfold Cert.Spec.cat2
  by_cases h1 : k.val < 128
  · rw [dif_pos h1]
    exact concatenate_apply_piece 1 ([⟨S2000x128, x0⟩, ⟨S2000x128, x1⟩] : List ((s : Shape) × (s.Idx → Ideal .bf16))) concatenates_S2000x128_S2000x128_S2000x256_d1 (ix2 p k) 0 (by show (0 : Nat) < 2; omega) S2000x128 x0 rfl rfl 0 rfl (ix2 p ⟨k.val, h1⟩) (fun b => by match b with | ⟨0, _⟩ => exact fun _ => rfl | ⟨1, _⟩ => exact fun hne => absurd rfl hne) (by show 0 + k.val = k.val; omega)
  · rw [dif_neg h1]
    exact concatenate_apply_piece 1 ([⟨S2000x128, x0⟩, ⟨S2000x128, x1⟩] : List ((s : Shape) × (s.Idx → Ideal .bf16))) concatenates_S2000x128_S2000x128_S2000x256_d1 (ix2 p k) 1 (by show (1 : Nat) < 2; omega) S2000x128 x1 rfl rfl 128 rfl (ix2 p ⟨k.val - 128, by have := k.isLt; omega⟩) (fun b => by match b with | ⟨0, _⟩ => exact fun _ => rfl | ⟨1, _⟩ => exact fun hne => absurd rfl hne) (by show 128 + (k.val - 128) = k.val; omega)

theorem dense_384 (a : FVec Ideal S2000x384 .bf16) (W : Vec Ideal S384x128 .f32) (b : Vec Ideal S1x128 .f32) (p : Fin 2000) (q : Fin 128) :
    addf (matmul dot_S2000x384_S384x128_S2000x128_1_0_0_1_n_n none a (truncf .bf16 (shapeCast S384x128 W shapeCasts_S384x128_S384x128) bitsLt_bf16_f32) (constant (F := Ideal) S2000x128 .f32 0x00000000#32))
         (broadcastTo S2000x128 (shapeCast S1x128 b shapeCasts_S1x128_S1x128) broadcasts_S1x128_S2000x128) (ix2 p q)
      = Cert.Spec.lin (fun k => a (ix2 p k)) W b q := by
  refine (addf_apply _ _ _).trans ?_
  rw [mm_384, bias_128, shapeCast_self]
  rfl

theorem dense_128 (a : FVec Ideal S2000x128 .bf16) (W : Vec Ideal S128x128 .f32) (b : Vec Ideal S1x128 .f32) (p : Fin 2000) (q : Fin 128) :
    addf (matmul dot_S2000x128_S128x128_S2000x128_1_0_0_1_n_n none a (truncf .bf16 (shapeCast S128x128 W shapeCasts_S128x128_S128x128) bitsLt_bf16_f32) (constant (F := Ideal) S2000x128 .f32 0x00000000#32))
         (broadcastTo S2000x128 (shapeCast S1x128 b shapeCasts_S1x128_S1x128) broadcasts_S1x128_S2000x128) (ix2 p q)
      = Cert.Spec.lin (fun k => a (ix2 p k)) W b q := by
  refine (addf_apply _ _ _).trans ?_
  rw [mm_128, bias_128, shapeCast_self]
  rfl

theorem dense_256 (a : FVec Ideal S2000x256 .bf16) (W : Vec Ideal S256x64 .f32) (b : Vec Ideal S1x64 .f32) (p : Fin 2000) (q : Fin 64) :
    addf (matmul dot_S2000x256_S256x64_S2000x64_1_0_0_1_n_n none a (truncf .bf16 (shapeCast S256x64 W shapeCasts_S256x64_S256x64) bitsLt_bf16_f32) (constant (F := Ideal) S2000x64 .f32 0x00000000#32))
         (broadcastTo S2000x64 (shapeCast S1x64 b shapeCasts_S1x64_S1x64) broadcasts_S1x64_S2000x64) (ix2 p q)
      = Cert.Spec.lin (fun k => a (ix2 p k)) W b q := by
  refine (addf_apply _ _ _).trans ?_
  rw [mm_256, bias_64, shapeCast_self]
  rfl

theorem dense_64 (a : FVec Ideal S2000x64 .bf16) (W : Vec Ideal S64x1 .f32) (b : Vec Ideal S1x1 .f32) (p : Fin 2000) (q : Fin 1) :
    addf (matmul dot_S2000x64_S64x1_S2000x1_1_0_0_1_n_n none a (truncf .bf16 (shapeCast S64x1 W shapeCasts_S64x1_S64x1) bitsLt_bf16_f32) (constant (F := Ideal) S2000x1 .f32 0x00000000#32))
         (broadcastTo S2000x1 (shapeCast S1x1 b shapeCasts_S1x1_S1x1) broadcasts_S1x1_S2000x1) (ix2 p q)
      = Cert.Spec.lin (fun k => a (ix2 p k)) W b 0 := by
  refine (addf_apply _ _ _).trans ?_
  rw [mm_64, bias_1, shapeCast_self]
  have hq : q = 0 := Subsingleton.elim _ _
  subst hq
  rfl

theorem relu_128 (v : FVec Ideal S2000x128 .f32) (p : Fin 2000) (k : Fin 128) :
    truncf .bf16 (maximumf v (broadcast S2000x128 (Scalar.ofBits (F := Ideal) .f32 0x00000000#32))) bitsLt_bf16_f32 (ix2 p k)
      = max (v (ix2 p k)) Cert.Spec.zeroF := rfl
theorem relu_64 (v : FVec Ideal S2000x64 .f32) (p : Fin 2000) (k : Fin 64) :
    truncf .bf16 (maximumf v (broadcast S2000x64 (Scalar.ofBits (F := Ideal) .f32 0x00000000#32))) bitsLt_bf16_f32 (ix2 p k)
      = max (v (ix2 p k)) Cert.Spec.zeroF := rfl

theorem conv_at {S : Shape} (W : Vec Ideal S .f32) (h : S.ShapeCasts S) (i : S.Idx) :
    ((truncf (F := Ideal) .bf16 (shapeCast S W h) bitsLt_bf16_f32 : FVec Ideal S .bf16) i : EReal) = (W i : EReal) := by
  rw [shapeCast_self]
  rfl

theorem pay3_at (x : Vec Ideal S2000x128 .f32) (i : S2000x128.Idx) : k2_pay3 x i = x i := by
  unfold k2_pay3
  rw [shapeCast_self]
  rfl
theorem pay4_at (x : Vec Ideal S2000x128 .f32) (i : S2000x128.Idx) : k2_pay4 x i = x i := by
  unfold k2_pay4
  rw [shapeCast_self]
  rfl
theorem pay2_at (x : Vec Ideal S2000x1 .f32) : k2_pay2 x = x := by
  unfold k2_pay2
  rw [shapeCast_self]

theorem pay5_at (x0 x1 x2 : Vec Ideal S2000x128 .f32) (p : Fin 2000) (k : Fin 384) :
    k2_pay5 x0 x1 x2 (ix2 p k) = Cert.Spec.cat3 (Cert.Spec.row x0 p) (Cert.Spec.row x1 p) (Cert.Spec.row x2 p) k := by
  unfold k2_pay5
  refine (cat3_at _ _ _ p k).trans ?_
  have e0 : (fun c : Fin 128 => (k2_pay3 x0 (ix2 p c) : EReal)) = Cert.Spec.row x0 p := funext fun c => pay3_at x0 _
  have e1 : (fun c : Fin 128 => (k2_pay4 x1 (ix2 p c) : EReal)) = Cert.Spec.row x1 p := funext fun c => pay4_at x1 _
  have e2 : (fun c : Fin 128 => ((truncf (F := Ideal) .bf16 (shapeCast S2000x128 x2 shapeCasts_S2000x128_S2000x128) bitsLt_bf16_f32 : FVec Ideal S2000x128 .bf16) (ix2 p c) : EReal)) = Cert.Spec.row x2 p :=
    funext fun c => conv_at x2 _ _
  rw [e0, e1, e2]

theorem pay6_at (x0 x1 x2 : Vec Ideal S2000x128 .f32) (W1 : Vec Ideal S384x128 .f32) (b1 : Vec Ideal S1x128 .f32)
    (W2 : Vec Ideal S128x128 .f32) (b2 : Vec Ideal S1x128 .f32) (p : Fin 2000) (q : Fin 128) :
    k2_pay6 x0 x1 x2 W1 b1 W2 b2 (ix2 p q)
      = Cert.Spec.lin (fun k => max (Cert.Spec.lin (Cert.Spec.cat3 (Cert.Spec.row x0 p) (Cert.Spec.row x1 p) (Cert.Spec.row x2 p)) W1 b1 k) Cert.Spec.zeroF) W2 b2 q := by
  unfold k2_pay6
  refine (dense_128 _ W2 b2 p q).trans ?_
  refine congrArg (fun a => Cert.Spec.lin a W2 b2 q) (funext fun k => ?_)
  refine (relu_128 _ p k).trans ?_
  refine congrArg (fun t => max t Cert.Spec.zeroF) ?_
  refine (dense_384 _ W1 b1 p k).trans ?_
  exact congrArg (fun a => Cert.Spec.lin a W1 b1 k) (funext fun c => pay5_at x0 x1 x2 p c)

theorem pay7_at (x0 x1 x2 : Vec Ideal S2000x128 .f32) (W3 : Vec Ideal S384x128 .f32) (p : Fin 2000) (q : Fin 128) :
    k2_pay7 x0 x1 x2 W3 (ix2 p q)
      = ∑ k : Fin 384, Cert.Spec.cat3 (Cert.Spec.row x0 p) (Cert.Spec.row x1 p) (Cert.Spec.row x2 p) k * W3 (ix2 k q) := by
  unfold k2_pay7
  refine (mm_384 _ _ p q).trans ?_
  refine Finset.sum_congr rfl fun k _ => ?_
  refine congrArg₂ (· * ·) (pay5_at x0 x1 x2 p k) ?_
  exact conv_at W3 _ _

theorem pay8_at (v7 : FVec Ideal S2000x1 .f32) (v30 : FVec Ideal S2000x128 .f32) (p : Fin 2000) (q : Fin 128) :
    k2_pay8 v7 v30 (ix2 p q) = (Cert.Spec.oneF - v7 (ix2 p 0)) * v30 (ix2 p q) := by
  unfold k2_pay8
  refine (mulf_apply _ _ _).trans ?_
  exact congrArg (· * v30 (ix2 p q)) (col_128 _ p q)

theorem pay9_at (v8 v9 : FVec Ideal S2000x128 .bf16) (v34 : FVec Ideal S2000x128 .f32) (b3 : Vec Ideal S1x128 .f32)
    (W4 : Vec Ideal S128x128 .f32) (b4 : Vec Ideal S1x128 .f32) (W5 : Vec Ideal S256x64 .f32) (b5 : Vec Ideal S1x64 .f32)
    (W6 : Vec Ideal S64x1 .f32) (b6 : Vec Ideal S1x1 .f32) (p : Fin 2000) (q : Fin 128) :
    k2_pay9 v8 v9 v34 b3 W4 b4 W5 b5 W6 b6 (ix2 p q)
      = Cert.Spec.lin (fun k => max (v34 (ix2 p k) + b3 (ix2 0 k)) Cert.Spec.zeroF) W4 b4 q
        * Ideal.logistic (Cert.Spec.lin (fun k => max (Cert.Spec.lin (Cert.Spec.cat2 (fun c => v8 (ix2 p c)) (fun c => v9 (ix2 p c))) W5 b5 k) Cert.Spec.zeroF) W6 b6 0) := by
  unfold k2_pay9
  refine (mulf_apply _ _ _).trans ?_
  refine congrArg₂ (· * ·) ?_ ?_
  · refine (dense_128 _ W4 b4 p q).trans ?_
    refine congrArg (fun a => Cert.Spec.lin a W4 b4 q) (funext fun k => ?_)
    refine (relu_128 _ p k).trans ?_
    refine congrArg (fun t => max t Cert.Spec.zeroF) ?_
    refine (addf_apply _ _ _).trans ?_
    exact congrArg (v34 (ix2 p k) + ·) (bias_128 b3 p k)
  · refine (col_128 _ p q).trans ?_
    show Ideal.logistic _ = _
    refine congrArg Ideal.logistic ?_
    refine (dense_64 _ W6 b6 p 0).trans ?_
    refine congrArg (fun a => Cert.Spec.lin a W6 b6 0) (funext fun k => ?_)
    refine (relu_64 _ p k).trans ?_
    refine congrArg (fun t => max t Cert.Spec.zeroF) ?_
    refine (dense_256 _ W5 b5 p k).trans ?_
    exact congrArg (fun a => Cert.Spec.lin a W5 b5 k) (funext fun c => cat2_at v8 v9 p c)

theorem pay1_at (v7 : FVec Ideal S2000x1 .f32) (v74 v76 : FVec Ideal S2000x128 .f32) (p : Fin 2000) (q : Fin 128) :
    k2_pay1 v7 v74 v76 (ix2 p q) = v74 (ix2 p q) + v7 (ix2 p 0) * v76 (ix2 p q) := by
  unfold k2_pay1
  refine (addf_apply _ _ _).trans ?_
  refine congrArg (v74 (ix2 p q) + ·) ?_
  refine (mulf_apply _ _ _).trans ?_
  exact congrArg (· * v76 (ix2 p q)) (col_128 v7 p q)

theorem stored_at (x0 x1 x2 : Vec Ideal S2000x128 .f32) (x3 : Vec Ideal S2000x1 .f32)
    (W1 : Vec Ideal S384x128 .f32) (b1 : Vec Ideal S1x128 .f32) (W2 : Vec Ideal S128x128 .f32) (b2 : Vec Ideal S1x128 .f32)
    (W3 : Vec Ideal S384x128 .f32) (b3 : Vec Ideal S1x128 .f32) (W4 : Vec Ideal S128x128 .f32) (b4 : Vec Ideal S1x128 .f32)
    (W5 : Vec Ideal S256x64 .f32) (b5 : Vec Ideal S1x64 .f32) (W6 : Vec Ideal S64x1 .f32) (b6 : Vec Ideal S1x1 .f32)
    (p : Fin 2000) (q : Fin 128) :
    k2_pay1 (k2_pay2 x3) (k2_pay8 (k2_pay2 x3) (k2_pay6 x0 x1 x2 W1 b1 W2 b2))
        (k2_pay9 (k2_pay3 x0) (k2_pay4 x1) (k2_pay7 x0 x1 x2 W3) b3 W4 b4 W5 b5 W6 b6) (ix2 p q)
      = Cert.Spec.msgRow (Cert.Spec.row x0 p) (Cert.Spec.row x1 p) (Cert.Spec.row x2 p) (x3 (ix2 p 0))
          W1 b1 W2 b2 W3 b3 W4 b4 W5 b5 W6 b6 q := by
  have e3 : (fun k : Fin 128 => max (k2_pay7 x0 x1 x2 W3 (ix2 p k) + b3 (ix2 0 k)) Cert.Spec.zeroF)
      = fun k => max (Cert.Spec.lin (Cert.Spec.cat3 (Cert.Spec.row x0 p) (Cert.Spec.row x1 p) (Cert.Spec.row x2 p)) W3 b3 k) Cert.Spec.zeroF :=
    funext fun k => congrArg (fun t => max (t + b3 (ix2 0 k)) Cert.Spec.zeroF) (pay7_at x0 x1 x2 W3 p k)
  have e50 : (fun c : Fin 128 => (k2_pay3 x0 (ix2 p c) : EReal)) = Cert.Spec.row x0 p := funext fun c => pay3_at x0 _
  have e51 : (fun c : Fin 128 => (k2_pay4 x1 (ix2 p c) : EReal)) = Cert.Spec.row x1 p := funext fun c => pay4_at x1 _
  rw [pay1_at, pay8_at, pay6_at, pay9_at, pay2_at, e3, e50, e51]
  rfl

theorem msgRow_congr {xi xi' xj xj' ea ea' : Fin 128 → EReal} {et et' : EReal}
    {W1 W1' : Cert.Spec.Arr 384 128} {b1 b1' : Cert.Spec.Arr 1 128} {W2 W2' : Cert.Spec.Arr 128 128} {b2 b2' : Cert.Spec.Arr 1 128}
    {W3 W3' : Cert.Spec.Arr 384 128} {b3 b3' : Cert.Spec.Arr 1 128} {W4 W4' : Cert.Spec.Arr 128 128} {b4 b4' : Cert.Spec.Arr 1 128}
    {W5 W5' : Cert.Spec.Arr 256 64} {b5 b5' : Cert.Spec.Arr 1 64} {W6 W6' : Cert.Spec.Arr 64 1} {b6 b6' : Cert.Spec.Arr 1 1}
    (h0 : xi = xi') (h1 : xj = xj') (h2 : ea = ea') (h3 : et = et')
    (h4 : W1 = W1') (h5 : b1 = b1') (h6 : W2 = W2') (h7 : b2 = b2') (h8 : W3 = W3') (h9 : b3 = b3')
    (h10 : W4 = W4') (h11 : b4 = b4') (h12 : W5 = W5') (h13 : b5 = b5') (h14 : W6 = W6') (h15 : b6 = b6') (q : Fin 128) :
    Cert.Spec.msgRow xi xj ea et W1 b1 W2 b2 W3 b3 W4 b4 W5 b5 W6 b6 q
      = Cert.Spec.msgRow xi' xj' ea' et' W1' b1' W2' b2' W3' b3' W4' b4' W5' b5' W6' b6' q := by
  subst h0 h1 h2 h3 h4 h5 h6 h7 h8 h9 h10 h11 h12 h13 h14 h15
  rfl

theorem hz2 : (![0, 0] : Fin 2 → Nat) = fun _ => 0 := funext fun a => by
  match a with
  | ⟨0, _⟩ => rfl
  | ⟨1, _⟩ => rfl

variable (V : (c : Dev nD) → (b : Ref sig .tc) → Buf (Elt Ideal) ((c : Thread nD τ).loc b))

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_16 : ∀ t : Fin cfg2.N, win2_16.index t (0 : Fin 2) = t.val ∧ win2_16.index t (1 : Fin 2) = 0 :=
  (by decide +kernel : ∀ t : Fin grid2.N, _)
theorem blk2_0 (c : Dev nD) (t : Fin cfg2.N) (p : Fin 2000) (q : Fin 128) (e : Fin 400000) (he : e.val = t.val * 2000 + p.val) :
    ((iblk2 (F := Ideal) V c 0 t : Vec Ideal S2000x128 .f32) (ix2 p q) : EReal) = (V c main_v10 : S400000x128.Idx → EReal) (ix2 e q) := by
  obtain ⟨h0, h1⟩ := idx2_0 t
  show V c main_v10 (((cfg2.win 0).blk t).view.emb (ix2 p q)) = V c main_v10 (ix2 e q)
  refine congrArg (V c main_v10) (funext fun a => Fin.ext ?_)
  match a with
  | ⟨0, _⟩ => show win2_0.index t (0 : Fin 2) * 2000 + 1 * p.val = e.val; rw [h0, he]; omega
  | ⟨1, _⟩ => show win2_0.index t (1 : Fin 2) * 128 + 1 * q.val = q.val; rw [h1]; omega
theorem blk2_1 (c : Dev nD) (t : Fin cfg2.N) (p : Fin 2000) (q : Fin 128) (e : Fin 400000) (he : e.val = t.val * 2000 + p.val) :
    ((iblk2 (F := Ideal) V c 1 t : Vec Ideal S2000x128 .f32) (ix2 p q) : EReal) = (V c main_v11 : S400000x128.Idx → EReal) (ix2 e q) := by
  obtain ⟨h0, h1⟩ := idx2_1 t
  show V c main_v11 (((cfg2.win 1).blk t).view.emb (ix2 p q)) = V c main_v11 (ix2 e q)
  refine congrArg (V c main_v11) (funext fun a => Fin.ext ?_)
  match a with
  | ⟨0, _⟩ => show win2_1.index t (0 : Fin 2) * 2000 + 1 * p.val = e.val; rw [h0, he]; omega
  | ⟨1, _⟩ => show win2_1.index t (1 : Fin 2) * 128 + 1 * q.val = q.val; rw [h1]; omega
theorem blk2_2 (c : Dev nD) (t : Fin cfg2.N) (p : Fin 2000) (q : Fin 128) (e : Fin 400000) (he : e.val = t.val * 2000 + p.val) :
    ((iblk2 (F := Ideal) V c 2 t : Vec Ideal S2000x128 .f32) (ix2 p q) : EReal) = (V c main_v3 : S400000x128.Idx → EReal) (ix2 e q) := by
  obtain ⟨h0, h1⟩ := idx2_2 t
  show V c main_v3 (((cfg2.win 2).blk t).view.emb (ix2 p q)) = V c main_v3 (ix2 e q)
  refine congrArg (V c main_v3) (funext fun a => Fin.ext ?_)
  match a with
  | ⟨0, _⟩ => show win2_2.index t (0 : Fin 2) * 2000 + 1 * p.val = e.val; rw [h0, he]; omega
  | ⟨1, _⟩ => show win2_2.index t (1 : Fin 2) * 128 + 1 * q.val = q.val; rw [h1]; omega
theorem blk2_3 (c : Dev nD) (t : Fin cfg2.N) (p : Fin 2000) (e : Fin 400000) (he : e.val = t.val * 2000 + p.val) :
    ((iblk2 (F := Ideal) V c 3 t : Vec Ideal S2000x1 .f32) (ix2 p 0) : EReal) = (V c main_v9 : S400000x1.Idx → EReal) (ix2 e 0) := by
  obtain ⟨h0, h1⟩ := idx2_3 t
  show V c main_v9 (((cfg2.win 3).blk t).view.emb (ix2 p 0)) = V c main_v9 (ix2 e 0)
  refine congrArg (V c main_v9) (funext fun a => Fin.ext ?_)
  match a with
  | ⟨0, _⟩ => show win2_3.index t (0 : Fin 2) * 2000 + 1 * p.val = e.val; rw [h0, he]; omega
  | ⟨1, _⟩ => show win2_3.index t (1 : Fin 2) * 1 + 1 * 0 = 0; rw [h1]

theorem whole2_4 (c : Dev nD) (t : Fin cfg2.N) :
    (iblk2 (F := Ideal) V c 4 t : Vec Ideal S384x128 .f32) = (V c main_v13 : S384x128.Idx → EReal) :=
  funext fun j => congrArg (V c main_v13) (funext fun a => Fin.ext (Window.rect_emb_val_of_index_zero win2_4 t a
    ((by decide +kernel : ∀ t : Fin grid2.N, ∀ a : Fin 2, win2_4.index t a = 0) t a) j))

theorem whole2_5 (c : Dev nD) (t : Fin cfg2.N) :
    (iblk2 (F := Ideal) V c 5 t : Vec Ideal S1x128 .f32) = (V c main_v16 : S1x128.Idx → EReal) :=
  funext fun j => congrArg (V c main_v16) (funext fun a => Fin.ext (Window.rect_emb_val_of_index_zero win2_5 t a
    ((by decide +kernel : ∀ t : Fin grid2.N, ∀ a : Fin 2, win2_5.index t a = 0) t a) j))

theorem whole2_6 (c : Dev nD) (t : Fin cfg2.N) :
    (iblk2 (F := Ideal) V c 6 t : Vec Ideal S128x128 .f32) = (V c main_v18 : S128x128.Idx → EReal) :=
  funext fun j => congrArg (V c main_v18) (funext fun a => Fin.ext (Window.rect_emb_val_of_index_zero win2_6 t a
    ((by decide +kernel : ∀ t : Fin grid2.N, ∀ a : Fin 2, win2_6.index t a = 0) t a) j))

theorem whole2_7 (c : Dev nD) (t : Fin cfg2.N) :
    (iblk2 (F := Ideal) V c 7 t : Vec Ideal S1x128 .f32) = (V c main_v21 : S1x128.Idx → EReal) :=
  funext fun j => congrArg (V c main_v21) (funext fun a => Fin.ext (Window.rect_emb_val_of_index_zero win2_7 t a
    ((by decide +kernel : ∀ t : Fin grid2.N, ∀ a : Fin 2, win2_7.index t a = 0) t a) j))

theorem whole2_8 (c : Dev nD) (t : Fin cfg2.N) :
    (iblk2 (F := Ideal) V c 8 t : Vec Ideal S384x128 .f32) = (V c main_v23 : S384x128.Idx → EReal) :=
  funext fun j => congrArg (V c main_v23) (funext fun a => Fin.ext (Window.rect_emb_val_of_index_zero win2_8 t a
    ((by decide +kernel : ∀ t : Fin grid2.N, ∀ a : Fin 2, win2_8.index t a = 0) t a) j))

theorem whole2_9 (c : Dev nD) (t : Fin cfg2.N) :
    (iblk2 (F := Ideal) V c 9 t : Vec Ideal S1x128 .f32) = (V c main_v26 : S1x128.Idx → EReal) :=
  funext fun j => congrArg (V c main_v26) (funext fun a => Fin.ext (Window.rect_emb_val_of_index_zero win2_9 t a
    ((by decide +kernel : ∀ t : Fin grid2.N, ∀ a : Fin 2, win2_9.index t a = 0) t a) j))

theorem whole2_10 (c : Dev nD) (t : Fin cfg2.N) :
    (iblk2 (F := Ideal) V c 10 t : Vec Ideal S128x128 .f32) = (V c main_v28 : S128x128.Idx → EReal) :=
  funext fun j => congrArg (V c main_v28) (funext fun a => Fin.ext (Window.rect_emb_val_of_index_zero win2_10 t a
    ((by decide +kernel : ∀ t : Fin grid2.N, ∀ a : Fin 2, win2_10.index t a = 0) t a) j))

theorem whole2_11 (c : Dev nD) (t : Fin cfg2.N) :
    (iblk2 (F := Ideal) V c 11 t : Vec Ideal S1x128 .f32) = (V c main_v31 : S1x128.Idx → EReal) :=
  funext fun j => congrArg (V c main_v31) (funext fun a => Fin.ext (Window.rect_emb_val_of_index_zero win2_11 t a
    ((by decide +kernel : ∀ t : Fin grid2.N, ∀ a : Fin 2, win2_11.index t a = 0) t a) j))

theorem whole2_12 (c : Dev nD) (t : Fin cfg2.N) :
    (iblk2 (F := Ideal) V c 12 t : Vec Ideal S256x64 .f32) = (V c main_v33 : S256x64.Idx → EReal) :=
  funext fun j => congrArg (V c main_v33) (funext fun a => Fin.ext (Window.rect_emb_val_of_index_zero win2_12 t a
    ((by decide +kernel : ∀ t : Fin grid2.N, ∀ a : Fin 2, win2_12.index t a = 0) t a) j))

theorem whole2_13 (c : Dev nD) (t : Fin cfg2.N) :
    (iblk2 (F := Ideal) V c 13 t : Vec Ideal S1x64 .f32) = (V c main_v36 : S1x64.Idx → EReal) :=
  funext fun j => congrArg (V c main_v36) (funext fun a => Fin.ext (Window.rect_emb_val_of_index_zero win2_13 t a
    ((by decide +kernel : ∀ t : Fin grid2.N, ∀ a : Fin 2, win2_13.index t a = 0) t a) j))

theorem whole2_14 (c : Dev nD) (t : Fin cfg2.N) :
    (iblk2 (F := Ideal) V c 14 t : Vec Ideal S64x1 .f32) = (V c main_v38 : S64x1.Idx → EReal) :=
  funext fun j => congrArg (V c main_v38) (funext fun a => Fin.ext (Window.rect_emb_val_of_index_zero win2_14 t a
    ((by decide +kernel : ∀ t : Fin grid2.N, ∀ a : Fin 2, win2_14.index t a = 0) t a) j))

theorem whole2_15 (c : Dev nD) (t : Fin cfg2.N) :
    (iblk2 (F := Ideal) V c 15 t : Vec Ideal S1x1 .f32) = (V c main_v41 : S1x1.Idx → EReal) :=
  funext fun j => congrArg (V c main_v41) (funext fun a => Fin.ext (Window.rect_emb_val_of_index_zero win2_15 t a
    ((by decide +kernel : ∀ t : Fin grid2.N, ∀ a : Fin 2, win2_15.index t a = 0) t a) j))

theorem flushed2_eq (c : Dev nD) (t : Fin cfg2.N) :
    (dat2 (F := Ideal) V c).flushed 16 t = ((cfg2.win 16).blk t).view.read (Elt Ideal) (Cert.Spec.msgSpec (V c main_v10) (V c main_v11) (V c main_v3) (V c main_v9) (V c main_v13) (V c main_v16) (V c main_v18) (V c main_v21) (V c main_v23) (V c main_v26) (V c main_v28) (V c main_v31) (V c main_v33) (V c main_v36) (V c main_v38) (V c main_v41)) := by
  show (cfg2.win 16).cut (grid2.coords t) ((dat2 V c).after 16 t) = _
  rw [after2_16]
  unfold out2_16
  rw [View.canon_unit_zero hz2]
  simp only [View.ld_unit_zero (S := S2000x128) hz2, View.ld_unit_zero (S := S2000x1) hz2, View.ld_unit_zero (S := S384x128) hz2, View.ld_unit_zero (S := S1x128) hz2, View.ld_unit_zero (S := S128x128) hz2, View.ld_unit_zero (S := S256x64) hz2, View.ld_unit_zero (S := S1x64) hz2, View.ld_unit_zero (S := S64x1) hz2, View.ld_unit_zero (S := S1x1) hz2]
  funext j
  obtain ⟨p, q, rfl⟩ : ∃ (p : Fin 2000) (q : Fin 128), j = ix2 p q := ⟨j 0, j 1, @eq_ix2 2000 128 j⟩
  refine (stored_at _ _ _ _ _ _ _ _ _ _ _ _ _ _ _ _ p q).trans ?_
  have hN : cfg2.N = 200 := N_2
  have htl : t.val < cfg2.N := t.isLt
  obtain ⟨e, he⟩ : ∃ e : Fin 400000, e.val = t.val * 2000 + p.val := ⟨⟨t.val * 2000 + p.val, by omega⟩, rfl⟩
  obtain ⟨h0, h1⟩ := idx2_16 t
  have hemb : ((cfg2.win 16).blk t).view.emb (ix2 p q) = (ix2 e q : S400000x128.Idx) := funext fun a => Fin.ext (by
    match a with
    | ⟨0, _⟩ => show win2_16.index t (0 : Fin 2) * 2000 + 1 * p.val = e.val; rw [h0, he]; omega
    | ⟨1, _⟩ => show win2_16.index t (1 : Fin 2) * 128 + 1 * q.val = q.val; rw [h1]; omega)
  show _ = (Cert.Spec.msgSpec (V c main_v10) (V c main_v11) (V c main_v3) (V c main_v9) (V c main_v13) (V c main_v16) (V c main_v18) (V c main_v21) (V c main_v23) (V c main_v26) (V c main_v28) (V c main_v31) (V c main_v33) (V c main_v36) (V c main_v38) (V c main_v41)) (((cfg2.win 16).blk t).view.emb (ix2 p q))
  rw [hemb]
  show _ = Cert.Spec.msgRow (Cert.Spec.row (V c main_v10) e) (Cert.Spec.row (V c main_v11) e) (Cert.Spec.row (V c main_v3) e) (V c main_v9 (ix2 e 0)) (V c main_v13) (V c main_v16) (V c main_v18) (V c main_v21) (V c main_v23) (V c main_v26) (V c main_v28) (V c main_v31) (V c main_v33) (V c main_v36) (V c main_v38) (V c main_v41) q
  have r0 : Cert.Spec.row (n := 2000) (m := 128) (iblk2 V c 0 t) p = Cert.Spec.row (V c main_v10) e := funext fun k => blk2_0 V c t p k e he
  have r1 : Cert.Spec.row (n := 2000) (m := 128) (iblk2 V c 1 t) p = Cert.Spec.row (V c main_v11) e := funext fun k => blk2_1 V c t p k e he
  have r2 : Cert.Spec.row (n := 2000) (m := 128) (iblk2 V c 2 t) p = Cert.Spec.row (V c main_v3) e := funext fun k => blk2_2 V c t p k e he
  exact msgRow_congr r0 r1 r2 (blk2_3 V c t p e he) (whole2_4 V c t) (whole2_5 V c t) (whole2_6 V c t) (whole2_7 V c t) (whole2_8 V c t) (whole2_9 V c t) (whole2_10 V c t) (whole2_11 V c t) (whole2_12 V c t) (whole2_13 V c t) (whole2_14 V c t) (whole2_15 V c t) q

theorem mem_blk2 (t : Fin cfg2.N) (i : S400000x128.Idx) :
    i ∈ ((cfg2.win 16).blk t).view.set ↔ ∀ a : Fin 2, win2_16.index t a * S2000x128.size a ≤ (i a).val ∧ (i a).val < win2_16.index t a * S2000x128.size a + S2000x128.size a := by
  show i ∈ ((View.whole main_v42).slice (win2_16.rect t)).set ↔ _
  rw [View.set_slice_whole, Rect.mem_set_unit]
  exact Iff.rfl

theorem cover2 (i : S400000x128.Idx) :
    ∃ t : Fin cfg2.N, (cfg2.win 16).flush t = true ∧ i ∈ ((cfg2.win 16).blk t).view.set := by
  have hi0 : (i 0).val < 400000 := (i 0).isLt
  have hi1 : (i 1).val < 128 := (i 1).isLt
  have hN : cfg2.N = 200 := N_2
  obtain ⟨t, ht⟩ : ∃ t : Fin cfg2.N, t.val = (i 0).val / 2000 := ⟨⟨(i 0).val / 2000, by omega⟩, rfl⟩
  obtain ⟨h0, h1⟩ := idx2_16 t
  refine ⟨t, flush2_16 t, ?_⟩
  rw [mem_blk2]
  intro a
  match a with
  | ⟨0, _⟩ => show win2_16.index t (0 : Fin 2) * 2000 ≤ (i 0).val ∧ (i 0).val < win2_16.index t (0 : Fin 2) * 2000 + 2000; rw [h0, ht]; omega
  | ⟨1, _⟩ => show win2_16.index t (1 : Fin 2) * 128 ≤ (i 1).val ∧ (i 1).val < win2_16.index t (1 : Fin 2) * 128 + 128; rw [h1]; omega

theorem final2 (c : Dev nD) :
    (dat2 (F := Ideal) V c).arrAt 16 cfg2.N
      = Cert.Spec.msgSpec (V c main_v10) (V c main_v11) (V c main_v3) (V c main_v9) (V c main_v13) (V c main_v16) (V c main_v18) (V c main_v21) (V c main_v23) (V c main_v26) (V c main_v28) (V c main_v31) (V c main_v33) (V c main_v36) (V c main_v38) (V c main_v41) := by
  exact (dat2 (F := Ideal) V c).arrAt_eq_of_cover 16 (Cert.Spec.msgSpec (V c main_v10) (V c main_v11) (V c main_v3) (V c main_v9) (V c main_v13) (V c main_v16) (V c main_v18) (V c main_v21) (V c main_v23) (V c main_v26) (V c main_v28) (V c main_v31) (V c main_v33) (V c main_v36) (V c main_v38) (V c main_v41)) (fun t _ => flushed2_eq V c t) (cover2)

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)
theorem idx4_16 : ∀ t : Fin cfg4.N, win4_16.index t (0 : Fin 2) = t.val ∧ win4_16.index t (1 : Fin 2) = 0 :=
  (by decide +kernel : ∀ t : Fin grid4.N, _)
theorem blk4_0 (c : Dev nD) (t : Fin cfg4.N) (p : Fin 2000) (q : Fin 128) (e : Fin 400000) (he : e.val = t.val * 2000 + p.val) :
    ((iblk4 (F := Ideal) V c 0 t : Vec Ideal S2000x128 .f32) (ix2 p q) : EReal) = (V c main_v58 : S400000x128.Idx → EReal) (ix2 e q) := by
  obtain ⟨h0, h1⟩ := idx4_0 t
  show V c main_v58 (((cfg4.win 0).blk t).view.emb (ix2 p q)) = V c main_v58 (ix2 e q)
  refine congrArg (V c main_v58) (funext fun a => Fin.ext ?_)
  match a with
  | ⟨0, _⟩ => show win4_0.index t (0 : Fin 2) * 2000 + 1 * p.val = e.val; rw [h0, he]; omega
  | ⟨1, _⟩ => show win4_0.index t (1 : Fin 2) * 128 + 1 * q.val = q.val; rw [h1]; omega
theorem blk4_1 (c : Dev nD) (t : Fin cfg4.N) (p : Fin 2000) (q : Fin 128) (e : Fin 400000) (he : e.val = t.val * 2000 + p.val) :
    ((iblk4 (F := Ideal) V c 1 t : Vec Ideal S2000x128 .f32) (ix2 p q) : EReal) = (V c main_v59 : S400000x128.Idx → EReal) (ix2 e q) := by
  obtain ⟨h0, h1⟩ := idx4_1 t
  show V c main_v59 (((cfg4.win 1).blk t).view.emb (ix2 p q)) = V c main_v59 (ix2 e q)
  refine congrArg (V c main_v59) (funext fun a => Fin.ext ?_)
  match a with
  | ⟨0, _⟩ => show win4_1.index t (0 : Fin 2) * 2000 + 1 * p.val = e.val; rw [h0, he]; omega
  | ⟨1, _⟩ => show win4_1.index t (1 : Fin 2) * 128 + 1 * q.val = q.val; rw [h1]; omega
theorem blk4_2 (c : Dev nD) (t : Fin cfg4.N) (p : Fin 2000) (q : Fin 128) (e : Fin 400000) (he : e.val = t.val * 2000 + p.val) :
    ((iblk4 (F := Ideal) V c 2 t : Vec Ideal S2000x128 .f32) (ix2 p q) : EReal) = (V c main_v3 : S400000x128.Idx → EReal) (ix2 e q) := by
  obtain ⟨h0, h1⟩ := idx4_2 t
  show V c main_v3 (((cfg4.win 2).blk t).view.emb (ix2 p q)) = V c main_v3 (ix2 e q)
  refine congrArg (V c main_v3) (funext fun a => Fin.ext ?_)
  match a with
  | ⟨0, _⟩ => show win4_2.index t (0 : Fin 2) * 2000 + 1 * p.val = e.val; rw [h0, he]; omega
  | ⟨1, _⟩ => show win4_2.index t (1 : Fin 2) * 128 + 1 * q.val = q.val; rw [h1]; omega
theorem blk4_3 (c : Dev nD) (t : Fin cfg4.N) (p : Fin 2000) (e : Fin 400000) (he : e.val = t.val * 2000 + p.val) :
    ((iblk4 (F := Ideal) V c 3 t : Vec Ideal S2000x1 .f32) (ix2 p 0) : EReal) = (V c main_v9 : S400000x1.Idx → EReal) (ix2 e 0) := by
  obtain ⟨h0, h1⟩ := idx4_3 t
  show V c main_v9 (((cfg4.win 3).blk t).view.emb (ix2 p 0)) = V c main_v9 (ix2 e 0)
  refine congrArg (V c main_v9) (funext fun a => Fin.ext ?_)
  match a with
  | ⟨0, _⟩ => show win4_3.index t (0 : Fin 2) * 2000 + 1 * p.val = e.val; rw [h0, he]; omega
  | ⟨1, _⟩ => show win4_3.index t (1 : Fin 2) * 1 + 1 * 0 = 0; rw [h1]

theorem whole4_4 (c : Dev nD) (t : Fin cfg4.N) :
    (iblk4 (F := Ideal) V c 4 t : Vec Ideal S384x128 .f32) = (V c main_v61 : S384x128.Idx → EReal) :=
  funext fun j => congrArg (V c main_v61) (funext fun a => Fin.ext (Window.rect_emb_val_of_index_zero win4_4 t a
    ((by decide +kernel : ∀ t : Fin grid4.N, ∀ a : Fin 2, win4_4.index t a = 0) t a) j))

theorem whole4_5 (c : Dev nD) (t : Fin cfg4.N) :
    (iblk4 (F := Ideal) V c 5 t : Vec Ideal S1x128 .f32) = (V c main_v64 : S1x128.Idx → EReal) :=
  funext fun j => congrArg (V c main_v64) (funext fun a => Fin.ext (Window.rect_emb_val_of_index_zero win4_5 t a
    ((by decide +kernel : ∀ t : Fin grid4.N, ∀ a : Fin 2, win4_5.index t a = 0) t a) j))

theorem whole4_6 (c : Dev nD) (t : Fin cfg4.N) :
    (iblk4 (F := Ideal) V c 6 t : Vec Ideal S128x128 .f32) = (V c main_v66 : S128x128.Idx → EReal) :=
  funext fun j => congrArg (V c main_v66) (funext fun a => Fin.ext (Window.rect_emb_val_of_index_zero win4_6 t a
    ((by decide +kernel : ∀ t : Fin grid4.N, ∀ a : Fin 2, win4_6.index t a = 0) t a) j))

theorem whole4_7 (c : Dev nD) (t : Fin cfg4.N) :
    (iblk4 (F := Ideal) V c 7 t : Vec Ideal S1x128 .f32) = (V c main_v69 : S1x128.Idx → EReal) :=
  funext fun j => congrArg (V c main_v69) (funext fun a => Fin.ext (Window.rect_emb_val_of_index_zero win4_7 t a
    ((by decide +kernel : ∀ t : Fin grid4.N, ∀ a : Fin 2, win4_7.index t a = 0) t a) j))

theorem whole4_8 (c : Dev nD) (t : Fin cfg4.N) :
    (iblk4 (F := Ideal) V c 8 t : Vec Ideal S384x128 .f32) = (V c main_v71 : S384x128.Idx → EReal) :=
  funext fun j => congrArg (V c main_v71) (funext fun a => Fin.ext (Window.rect_emb_val_of_index_zero win4_8 t a
    ((by decide +kernel : ∀ t : Fin grid4.N, ∀ a : Fin 2, win4_8.index t a = 0) t a) j))

theorem whole4_9 (c : Dev nD) (t : Fin cfg4.N) :
    (iblk4 (F := Ideal) V c 9 t : Vec Ideal S1x128 .f32) = (V c main_v74 : S1x128.Idx → EReal) :=
  funext fun j => congrArg (V c main_v74) (funext fun a => Fin.ext (Window.rect_emb_val_of_index_zero win4_9 t a
    ((by decide +kernel : ∀ t : Fin grid4.N, ∀ a : Fin 2, win4_9.index t a = 0) t a) j))

theorem whole4_10 (c : Dev nD) (t : Fin cfg4.N) :
    (iblk4 (F := Ideal) V c 10 t : Vec Ideal S128x128 .f32) = (V c main_v76 : S128x128.Idx → EReal) :=
  funext fun j => congrArg (V c main_v76) (funext fun a => Fin.ext (Window.rect_emb_val_of_index_zero win4_10 t a
    ((by decide +kernel : ∀ t : Fin grid4.N, ∀ a : Fin 2, win4_10.index t a = 0) t a) j))

theorem whole4_11 (c : Dev nD) (t : Fin cfg4.N) :
    (iblk4 (F := Ideal) V c 11 t : Vec Ideal S1x128 .f32) = (V c main_v79 : S1x128.Idx → EReal) :=
  funext fun j => congrArg (V c main_v79) (funext fun a => Fin.ext (Window.rect_emb_val_of_index_zero win4_11 t a
    ((by decide +kernel : ∀ t : Fin grid4.N, ∀ a : Fin 2, win4_11.index t a = 0) t a) j))

theorem whole4_12 (c : Dev nD) (t : Fin cfg4.N) :
    (iblk4 (F := Ideal) V c 12 t : Vec Ideal S256x64 .f32) = (V c main_v81 : S256x64.Idx → EReal) :=
  funext fun j => congrArg (V c main_v81) (funext fun a => Fin.ext (Window.rect_emb_val_of_index_zero win4_12 t a
    ((by decide +kernel : ∀ t : Fin grid4.N, ∀ a : Fin 2, win4_12.index t a = 0) t a) j))

theorem whole4_13 (c : Dev nD) (t : Fin cfg4.N) :
    (iblk4 (F := Ideal) V c 13 t : Vec Ideal S1x64 .f32) = (V c main_v84 : S1x64.Idx → EReal) :=
  funext fun j => congrArg (V c main_v84) (funext fun a => Fin.ext (Window.rect_emb_val_of_index_zero win4_13 t a
    ((by decide +kernel : ∀ t : Fin grid4.N, ∀ a : Fin 2, win4_13.index t a = 0) t a) j))

theorem whole4_14 (c : Dev nD) (t : Fin cfg4.N) :
    (iblk4 (F := Ideal) V c 14 t : Vec Ideal S64x1 .f32) = (V c main_v86 : S64x1.Idx → EReal) :=
  funext fun j => congrArg (V c main_v86) (funext fun a => Fin.ext (Window.rect_emb_val_of_index_zero win4_14 t a
    ((by decide +kernel : ∀ t : Fin grid4.N, ∀ a : Fin 2, win4_14.index t a = 0) t a) j))

theorem whole4_15 (c : Dev nD) (t : Fin cfg4.N) :
    (iblk4 (F := Ideal) V c 15 t : Vec Ideal S1x1 .f32) = (V c main_v89 : S1x1.Idx → EReal) :=
  funext fun j => congrArg (V c main_v89) (funext fun a => Fin.ext (Window.rect_emb_val_of_index_zero win4_15 t a
    ((by decide +kernel : ∀ t : Fin grid4.N, ∀ a : Fin 2, win4_15.index t a = 0) t a) j))

theorem flushed4_eq (c : Dev nD) (t : Fin cfg4.N) :
    (dat4 (F := Ideal) V c).flushed 16 t = ((cfg4.win 16).blk t).view.read (Elt Ideal) (Cert.Spec.msgSpec (V c main_v58) (V c main_v59) (V c main_v3) (V c main_v9) (V c main_v61) (V c main_v64) (V c main_v66) (V c main_v69) (V c main_v71) (V c main_v74) (V c main_v76) (V c main_v79) (V c main_v81) (V c main_v84) (V c main_v86) (V c main_v89)) := by
  show (cfg4.win 16).cut (grid4.coords t) ((dat4 V c).after 16 t) = _
  rw [after4_16]
  rw [show @out4_16 = @out2_16 from rfl]
  unfold out2_16
  rw [View.canon_unit_zero hz2]
  simp only [View.ld_unit_zero (S := S2000x128) hz2, View.ld_unit_zero (S := S2000x1) hz2, View.ld_unit_zero (S := S384x128) hz2, View.ld_unit_zero (S := S1x128) hz2, View.ld_unit_zero (S := S128x128) hz2, View.ld_unit_zero (S := S256x64) hz2, View.ld_unit_zero (S := S1x64) hz2, View.ld_unit_zero (S := S64x1) hz2, View.ld_unit_zero (S := S1x1) hz2]
  funext j
  obtain ⟨p, q, rfl⟩ : ∃ (p : Fin 2000) (q : Fin 128), j = ix2 p q := ⟨j 0, j 1, @eq_ix2 2000 128 j⟩
  refine (stored_at _ _ _ _ _ _ _ _ _ _ _ _ _ _ _ _ p q).trans ?_
  have hN : cfg4.N = 200 := N_4
  have htl : t.val < cfg4.N := t.isLt
  obtain ⟨e, he⟩ : ∃ e : Fin 400000, e.val = t.val * 2000 + p.val := ⟨⟨t.val * 2000 + p.val, by omega⟩, rfl⟩
  obtain ⟨h0, h1⟩ := idx4_16 t
  have hemb : ((cfg4.win 16).blk t).view.emb (ix2 p q) = (ix2 e q : S400000x128.Idx) := funext fun a => Fin.ext (by
    match a with
    | ⟨0, _⟩ => show win4_16.index t (0 : Fin 2) * 2000 + 1 * p.val = e.val; rw [h0, he]; omega
    | ⟨1, _⟩ => show win4_16.index t (1 : Fin 2) * 128 + 1 * q.val = q.val; rw [h1]; omega)
  show _ = (Cert.Spec.msgSpec (V c main_v58) (V c main_v59) (V c main_v3) (V c main_v9) (V c main_v61) (V c main_v64) (V c main_v66) (V c main_v69) (V c main_v71) (V c main_v74) (V c main_v76) (V c main_v79) (V c main_v81) (V c main_v84) (V c main_v86) (V c main_v89)) (((cfg4.win 16).blk t).view.emb (ix2 p q))
  rw [hemb]
  show _ = Cert.Spec.msgRow (Cert.Spec.row (V c main_v58) e) (Cert.Spec.row (V c main_v59) e) (Cert.Spec.row (V c main_v3) e) (V c main_v9 (ix2 e 0)) (V c main_v61) (V c main_v64) (V c main_v66) (V c main_v69) (V c main_v71) (V c main_v74) (V c main_v76) (V c main_v79) (V c main_v81) (V c main_v84) (V c main_v86) (V c main_v89) q
  have r0 : Cert.Spec.row (n := 2000) (m := 128) (iblk4 V c 0 t) p = Cert.Spec.row (V c main_v58) e := funext fun k => blk4_0 V c t p k e he
  have r1 : Cert.Spec.row (n := 2000) (m := 128) (iblk4 V c 1 t) p = Cert.Spec.row (V c main_v59) e := funext fun k => blk4_1 V c t p k e he
  have r2 : Cert.Spec.row (n := 2000) (m := 128) (iblk4 V c 2 t) p = Cert.Spec.row (V c main_v3) e := funext fun k => blk4_2 V c t p k e he
  exact msgRow_congr r0 r1 r2 (blk4_3 V c t p e he) (whole4_4 V c t) (whole4_5 V c t) (whole4_6 V c t) (whole4_7 V c t) (whole4_8 V c t) (whole4_9 V c t) (whole4_10 V c t) (whole4_11 V c t) (whole4_12 V c t) (whole4_13 V c t) (whole4_14 V c t) (whole4_15 V c t) q

theorem mem_blk4 (t : Fin cfg4.N) (i : S400000x128.Idx) :
    i ∈ ((cfg4.win 16).blk t).view.set ↔ ∀ a : Fin 2, win4_16.index t a * S2000x128.size a ≤ (i a).val ∧ (i a).val < win4_16.index t a * S2000x128.size a + S2000x128.size a := by
  show i ∈ ((View.whole main_v90).slice (win4_16.rect t)).set ↔ _
  rw [View.set_slice_whole, Rect.mem_set_unit]
  exact Iff.rfl

theorem cover4 (i : S400000x128.Idx) :
    ∃ t : Fin cfg4.N, (cfg4.win 16).flush t = true ∧ i ∈ ((cfg4.win 16).blk t).view.set := by
  have hi0 : (i 0).val < 400000 := (i 0).isLt
  have hi1 : (i 1).val < 128 := (i 1).isLt
  have hN : cfg4.N = 200 := N_4
  obtain ⟨t, ht⟩ : ∃ t : Fin cfg4.N, t.val = (i 0).val / 2000 := ⟨⟨(i 0).val / 2000, by omega⟩, rfl⟩
  obtain ⟨h0, h1⟩ := idx4_16 t
  refine ⟨t, flush4_16 t, ?_⟩
  rw [mem_blk4]
  intro a
  match a with
  | ⟨0, _⟩ => show win4_16.index t (0 : Fin 2) * 2000 ≤ (i 0).val ∧ (i 0).val < win4_16.index t (0 : Fin 2) * 2000 + 2000; rw [h0, ht]; omega
  | ⟨1, _⟩ => show win4_16.index t (1 : Fin 2) * 128 ≤ (i 1).val ∧ (i 1).val < win4_16.index t (1 : Fin 2) * 128 + 128; rw [h1]; omega

theorem final4 (c : Dev nD) :
    (dat4 (F := Ideal) V c).arrAt 16 cfg4.N
      = Cert.Spec.msgSpec (V c main_v58) (V c main_v59) (V c main_v3) (V c main_v9) (V c main_v61) (V c main_v64) (V c main_v66) (V c main_v69) (V c main_v71) (V c main_v74) (V c main_v76) (V c main_v79) (V c main_v81) (V c main_v84) (V c main_v86) (V c main_v89) := by
  exact (dat4 (F := Ideal) V c).arrAt_eq_of_cover 16 (Cert.Spec.msgSpec (V c main_v58) (V c main_v59) (V c main_v3) (V c main_v9) (V c main_v61) (V c main_v64) (V c main_v66) (V c main_v69) (V c main_v71) (V c main_v74) (V c main_v76) (V c main_v79) (V c main_v81) (V c main_v84) (V c main_v86) (V c main_v89)) (fun t _ => flushed4_eq V c t) (cover4)

end Cert.KernelIdeal.Val

end
-- ==== Proof.KUpd.lean ====
-- Each update region writes the update row function of a node's feature row and aggregate row.
import proofs.«416830_j43473658970339_2_alg».proof.Proof.Gen.KernelIdeal.Frame
import proofs.«416830_j43473658970339_2_alg».proof.Proof.LibPlain
import proofs.«416830_j43473658970339_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

namespace Upd

theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowsum_apply (src : FVec Ideal S5000x128 .f32) (h : S5000x128.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = ∑ k : Fin 128, src (ix2 p k)
  refine Finset.sum_congr rfl fun k _ => congrArg src ?_
  funext c
  apply Fin.ext
  match c with
  | ⟨0, _⟩ => rfl
  | ⟨1, _⟩ => rfl

theorem cat_apply (a b : S5000x128.Idx → EReal) (h : Shape.Concatenates [S5000x128, S5000x128] S5000x256 1) (p : Fin 5000) (k : Fin 256) :
    concatenate S5000x256 1 [⟨S5000x128, a⟩, ⟨S5000x128, b⟩] h (ix2 p k) = Cert.Spec.cat2 (Cert.Spec.row a p) (Cert.Spec.row b p) k := by
  unfold Cert.Spec.cat2 Cert.Spec.row
  by_cases hk : k.val < 128
  · rw [dif_pos hk]
    exact concatenate_pair_apply_left 1 a b h (ix2 p k) rfl (ix2 p ⟨k.val, hk⟩)
      (fun c => match c with | ⟨0, _⟩ => rfl | ⟨1, _⟩ => rfl)
  · rw [dif_neg hk]
    exact concatenate_pair_apply_right 1 a b h (ix2 p k) rfl rfl (ix2 p ⟨k.val - 128, by omega⟩)
      (fun c hc => match c with | ⟨0, _⟩ => rfl | ⟨1, _⟩ => absurd rfl hc)
      (by show (k.val - 128) + 128 = k.val; omega)

theorem rowsum_col_apply (src : FVec Ideal S5000x128 .f32) (h : S5000x128.Reduces [1] S5000) (hφ : FKind.Formats .f32)
    (hacc : (0x00000000#32 : BitVec 32) = 0x00000000#32) (hc : S5000.ShapeCasts S5000x1) (p : Fin 5000) (u : Fin 1) :
    shapeCast S5000x1 (multiReduction (F := Ideal) .add [1] S5000 src 0x00000000#32 h hφ hacc) hc (ix2 p u) = ∑ k : Fin 128, src (ix2 p k) :=
  (shapeCast_a_a1_apply _ hc p u).trans (rowsum_apply src h hφ hacc p)

theorem matmul_upd_apply {φ₁ φ₂ : FTy} (lhs : FVec Ideal S5000x256 φ₁) (rhs : FVec Ideal S256x128 φ₂) (p : Fin 5000) (q : Fin 128) :
    matmul dot_S5000x256_S256x128_S5000x128_1_0_0_1_n_n none lhs rhs (constant (F := Ideal) S5000x128 .f32 0x00000000#32) (ix2 p q)
      = ∑ k : Fin 256, lhs (ix2 p k) * rhs (ix2 k q) :=
  Cert.Plain.mm _ _ _ lhs rhs p q

theorem rsqrt_apply {s : Shape} {φ : FTy} (a : FVec Ideal s φ) (i : s.Idx) : rsqrt a i = Ideal.rsqrt (a i) := rfl

theorem pay3_apply (v0 v2 : Vec Ideal S5000x128 .f32) (v6 : Vec Ideal S256x128 .f32) (v10 v32 v36 : Vec Ideal S1x128 .f32)
    (p : Fin 5000) (q : Fin 128) :
    k3_pay3 v0 v2 v6 v10 v32 v36 (ix2 p q)
      = ((Cert.Spec.updLin (Cert.Spec.row v0 p) (Cert.Spec.row v2 p) v6 v10 q
            - Cert.Spec.mean128 (Cert.Spec.updLin (Cert.Spec.row v0 p) (Cert.Spec.row v2 p) v6 v10))
          * Ideal.rsqrt (Cert.Spec.mean128 (fun k =>
                (Cert.Spec.updLin (Cert.Spec.row v0 p) (Cert.Spec.row v2 p) v6 v10 k
                  - Cert.Spec.mean128 (Cert.Spec.updLin (Cert.Spec.row v0 p) (Cert.Spec.row v2 p) v6 v10))
                * (Cert.Spec.updLin (Cert.Spec.row v0 p) (Cert.Spec.row v2 p) v6 v10 k
                  - Cert.Spec.mean128 (Cert.Spec.updLin (Cert.Spec.row v0 p) (Cert.Spec.row v2 p) v6 v10))) + Cert.Spec.epsF))
        * v32 (ix2 0 q) + v36 (ix2 0 q) := by
  unfold k3_pay3 k3_pay2
  simp only [shapeCast_self]
  simp only [addf_apply, mulf_apply, subf_apply, divf_apply, broadcast_apply, broadcastTo_1b_ab_apply, broadcastTo_a1_ab_apply,
    rsqrt_apply, matmul_upd_apply, truncf_apply, cat_apply, shapeCast_self, Ideal.ofBits_def]
  rw [rowsum_col_apply, rowsum_col_apply]
  simp only [addf_apply, mulf_apply, subf_apply, divf_apply, broadcast_apply, broadcastTo_1b_ab_apply, broadcastTo_a1_ab_apply,
    matmul_upd_apply, truncf_apply, cat_apply, shapeCast_self, Ideal.ofBits_def]
  rw [rowsum_col_apply]
  simp only [addf_apply, broadcastTo_1b_ab_apply, matmul_upd_apply, truncf_apply, cat_apply, shapeCast_self]
  rfl

theorem out_apply (x0 x1 : Vec Ideal S5000x128 .f32) (x2 : Vec Ideal S256x128 .f32) (x3 x4 x5 : Vec Ideal S1x128 .f32)
    (p : Fin 5000) (q : Fin 128) :
    k3_pay1 (k3_pay2 x0) (k3_pay3 x0 x1 x2 x3 x4 x5) (Scalar.ofBits .f32 0x00000000#32) (ix2 p q)
      = Cert.Spec.updRow (Cert.Spec.row x0 p) (Cert.Spec.row x1 p) x2 x3 x4 x5 q := by
  unfold k3_pay1 k3_pay2
  simp only [shapeCast_self, maximumf_apply, addf_apply, broadcast_apply]
  rw [pay3_apply]
  rfl

theorem out5_apply (x0 x1 : Vec Ideal S5000x128 .f32) (x2 : Vec Ideal S256x128 .f32) (x3 x4 x5 : Vec Ideal S1x128 .f32)
    (p : Fin 5000) (q : Fin 128) :
    k5_pay1 (k5_pay2 x0) (k5_pay3 x0 x1 x2 x3 x4 x5) (Scalar.ofBits .f32 0x00000000#32) (ix2 p q)
      = Cert.Spec.updRow (Cert.Spec.row x0 p) (Cert.Spec.row x1 p) x2 x3 x4 x5 q :=
  out_apply x0 x1 x2 x3 x4 x5 p q

theorem hz2 : (![0, 0] : Fin 2 → Nat) = fun _ => 0 := funext fun a => by fin_cases a <;> rfl

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem lt10_3 (t : Fin cfg3.N) : t.val < 10 := Nat.lt_of_lt_of_eq t.isLt (show cfg3.N = 10 from N_3)

abbrev nodeRow3 (t : Fin cfg3.N) (p : Fin 5000) : Fin 50000 := ⟨t.val * 5000 + p.val, by have := lt10_3 t; have := p.isLt; omega⟩

theorem iblk3_0_row (c : Dev nD) (t : Fin cfg3.N) (p : Fin 5000) :
    Cert.Spec.row (iblk3 (F := Ideal) V c 0 t : Vec Ideal S5000x128 .f32) p = Cert.Spec.row (V c main_v1 : Cert.Spec.Arr 50000 128) (nodeRow3 t p) := by
  obtain ⟨e0, e1, -⟩ := idx_facts3 t
  funext k
  unfold Cert.Spec.row iblk3
  rw [View.read_apply]
  show V c main_v1 _ = V c main_v1 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

theorem iblk3_1_row (c : Dev nD) (t : Fin cfg3.N) (p : Fin 5000) :
    Cert.Spec.row (iblk3 (F := Ideal) V c 1 t : Vec Ideal S5000x128 .f32) p = Cert.Spec.row (V c main_v45 : Cert.Spec.Arr 50000 128) (nodeRow3 t p) := by
  obtain ⟨-, -, e0, e1, -⟩ := idx_facts3 t
  funext k
  unfold Cert.Spec.row iblk3
  rw [View.read_apply]
  show V c main_v45 _ = V c main_v45 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

theorem iblk3_2_eq (c : Dev nD) (t : Fin cfg3.N) :
    (iblk3 (F := Ideal) V c 2 t : Vec Ideal S256x128 .f32) = (V c main_v47 : Cert.Spec.Arr 256 128) :=
  funext fun j => congrArg (V c main_v47) (funext fun a => Fin.ext (Window.rect_emb_val_of_index_zero win3_2 t a
    ((by decide +kernel : ∀ t : Fin grid3.N, ∀ a : Fin 2, win3_2.index t a = 0) t a) j))

theorem iblk3_3_eq (c : Dev nD) (t : Fin cfg3.N) :
    (iblk3 (F := Ideal) V c 3 t : Vec Ideal S1x128 .f32) = (V c main_v50 : Cert.Spec.Arr 1 128) :=
  funext fun j => congrArg (V c main_v50) (funext fun a => Fin.ext (Window.rect_emb_val_of_index_zero win3_3 t a
    ((by decide +kernel : ∀ t : Fin grid3.N, ∀ a : Fin 2, win3_3.index t a = 0) t a) j))

theorem iblk3_4_eq (c : Dev nD) (t : Fin cfg3.N) :
    (iblk3 (F := Ideal) V c 4 t : Vec Ideal S1x128 .f32) = (V c main_v53 : Cert.Spec.Arr 1 128) :=
  funext fun j => congrArg (V c main_v53) (funext fun a => Fin.ext (Window.rect_emb_val_of_index_zero win3_4 t a
    ((by decide +kernel : ∀ t : Fin grid3.N, ∀ a : Fin 2, win3_4.index t a = 0) t a) j))

theorem iblk3_5_eq (c : Dev nD) (t : Fin cfg3.N) :
    (iblk3 (F := Ideal) V c 5 t : Vec Ideal S1x128 .f32) = (V c main_v56 : Cert.Spec.Arr 1 128) :=
  funext fun j => congrArg (V c main_v56) (funext fun a => Fin.ext (Window.rect_emb_val_of_index_zero win3_5 t a
    ((by decide +kernel : ∀ t : Fin grid3.N, ∀ a : Fin 2, win3_5.index t a = 0) t a) j))

theorem emb3_6 (t : Fin cfg3.N) (p : Fin 5000) (q : Fin 128) :
    ((cfg3.win 6).blk t).view.emb (ix2 p q) = (ix2 (nodeRow3 t p) q : S50000x128.Idx) := by
  obtain ⟨-, -, -, -, -, -, -, -, -, -, -, -, e0, e1⟩ := idx_facts3 t
  funext a
  apply Fin.ext
  match a with
  | ⟨0, _⟩ => show win3_6.index t (0 : Fin 2) * 5000 + 1 * p.val = t.val * 5000 + p.val; rw [e0]; omega
  | ⟨1, _⟩ => show win3_6.index t (1 : Fin 2) * 128 + 1 * q.val = q.val; rw [e1]; omega

theorem flushed3_eq (c : Dev nD) (t : Fin cfg3.N) :
    (dat3 (F := Ideal) V c).flushed 6 t
      = ((cfg3.win 6).blk t).view.read (Elt Ideal)
          (Cert.Spec.updSpec (V c main_v1) (V c main_v45) (V c main_v47) (V c main_v50) (V c main_v53) (V c main_v56) : Cert.Spec.Arr 50000 128) := by
  show (cfg3.win 6).cut (grid3.coords t) ((dat3 (F := Ideal) V c).after 6 t) = _
  rw [after3_6]
  unfold out3_6
  rw [View.canon_unit_zero hz2]
  simp only [View.ld_unit_zero (S := S5000x128) hz2, View.ld_unit_zero (S := S256x128) hz2, View.ld_unit_zero (S := S1x128) hz2]
  funext j
  obtain ⟨p, q, rfl⟩ : ∃ (p : Fin 5000) (q : Fin 128), j = ix2 p q := ⟨j 0, j 1, eq_ix2 j⟩
  refine (out_apply (iblk3 (F := Ideal) V c 0 t) (iblk3 (F := Ideal) V c 1 t) (iblk3 (F := Ideal) V c 2 t)
    (iblk3 (F := Ideal) V c 3 t) (iblk3 (F := Ideal) V c 4 t) (iblk3 (F := Ideal) V c 5 t) p q).trans ?_
  rw [View.read_apply, emb3_6 t p q]
  show _ = Cert.Spec.updRow (Cert.Spec.row (V c main_v1 : Cert.Spec.Arr 50000 128) (nodeRow3 t p))
      (Cert.Spec.row (V c main_v45 : Cert.Spec.Arr 50000 128) (nodeRow3 t p)) (V c main_v47) (V c main_v50) (V c main_v53) (V c main_v56) q
  rw [iblk3_0_row V c t p, iblk3_1_row V c t p, iblk3_2_eq V c t, iblk3_3_eq V c t, iblk3_4_eq V c t, iblk3_5_eq V c t]

theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v57).slice (win3_6.rect t)).set ↔ _
  rw [View.set_slice_whole, Rect.mem_set_unit]
  exact Iff.rfl

theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, -, -, e0, e1⟩ := idx_facts3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem lt10_5 (t : Fin cfg5.N) : t.val < 10 := Nat.lt_of_lt_of_eq t.isLt (show cfg5.N = 10 from N_5)

abbrev nodeRow5 (t : Fin cfg5.N) (p : Fin 5000) : Fin 50000 := ⟨t.val * 5000 + p.val, by have := lt10_5 t; have := p.isLt; omega⟩

theorem iblk5_0_row (c : Dev nD) (t : Fin cfg5.N) (p : Fin 5000) :
    Cert.Spec.row (iblk5 (F := Ideal) V c 0 t : Vec Ideal S5000x128 .f32) p = Cert.Spec.row (V c main_v57 : Cert.Spec.Arr 50000 128) (nodeRow5 t p) := by
  obtain ⟨e0, e1, -⟩ := idx_facts5 t
  funext k
  unfold Cert.Spec.row iblk5
  rw [View.read_apply]
  show V c main_v57 _ = V c main_v57 _
  congr 1
  funext a
  apply Fin.ext
  match a with
  | ⟨0, _⟩ => show win5_0.index t (0 : Fin 2) * 5000 + 1 * p.val = t.val * 5000 + p.val; rw [e0]; omega
  | ⟨1, _⟩ => show win5_0.index t (1 : Fin 2) * 128 + 1 * k.val = k.val; rw [e1]; omega

theorem iblk5_1_row (c : Dev nD) (t : Fin cfg5.N) (p : Fin 5000) :
    Cert.Spec.row (iblk5 (F := Ideal) V c 1 t : Vec Ideal S5000x128 .f32) p = Cert.Spec.row (V c main_v93 : Cert.Spec.Arr 50000 128) (nodeRow5 t p) := by
  obtain ⟨-, -, e0, e1, -⟩ := idx_facts5 t
  funext k
  unfold Cert.Spec.row iblk5
  rw [View.read_apply]
  show V c main_v93 _ = V c main_v93 _
  congr 1
  funext a
  apply Fin.ext
  match a with
  | ⟨0, _⟩ => show win5_1.index t (0 : Fin 2) * 5000 + 1 * p.val = t.val * 5000 + p.val; rw [e0]; omega
  | ⟨1, _⟩ => show win5_1.index t (1 : Fin 2) * 128 + 1 * k.val = k.val; rw [e1]; omega

theorem iblk5_2_eq (c : Dev nD) (t : Fin cfg5.N) :
    (iblk5 (F := Ideal) V c 2 t : Vec Ideal S256x128 .f32) = (V c main_v95 : Cert.Spec.Arr 256 128) :=
  funext fun j => congrArg (V c main_v95) (funext fun a => Fin.ext (Window.rect_emb_val_of_index_zero win5_2 t a
    ((by decide +kernel : ∀ t : Fin grid5.N, ∀ a : Fin 2, win5_2.index t a = 0) t a) j))

theorem iblk5_3_eq (c : Dev nD) (t : Fin cfg5.N) :
    (iblk5 (F := Ideal) V c 3 t : Vec Ideal S1x128 .f32) = (V c main_v98 : Cert.Spec.Arr 1 128) :=
  funext fun j => congrArg (V c main_v98) (funext fun a => Fin.ext (Window.rect_emb_val_of_index_zero win5_3 t a
    ((by decide +kernel : ∀ t : Fin grid5.N, ∀ a : Fin 2, win5_3.index t a = 0) t a) j))

theorem iblk5_4_eq (c : Dev nD) (t : Fin cfg5.N) :
    (iblk5 (F := Ideal) V c 4 t : Vec Ideal S1x128 .f32) = (V c main_v101 : Cert.Spec.Arr 1 128) :=
  funext fun j => congrArg (V c main_v101) (funext fun a => Fin.ext (Window.rect_emb_val_of_index_zero win5_4 t a
    ((by decide +kernel : ∀ t : Fin grid5.N, ∀ a : Fin 2, win5_4.index t a = 0) t a) j))

theorem iblk5_5_eq (c : Dev nD) (t : Fin cfg5.N) :
    (iblk5 (F := Ideal) V c 5 t : Vec Ideal S1x128 .f32) = (V c main_v104 : Cert.Spec.Arr 1 128) :=
  funext fun j => congrArg (V c main_v104) (funext fun a => Fin.ext (Window.rect_emb_val_of_index_zero win5_5 t a
    ((by decide +kernel : ∀ t : Fin grid5.N, ∀ a : Fin 2, win5_5.index t a = 0) t a) j))

theorem emb5_6 (t : Fin cfg5.N) (p : Fin 5000) (q : Fin 128) :
    ((cfg5.win 6).blk t).view.emb (ix2 p q) = (ix2 (nodeRow5 t p) q : S50000x128.Idx) := by
  obtain ⟨-, -, -, -, -, -, -, -, -, -, -, -, e0, e1⟩ := idx_facts5 t
  funext a
  apply Fin.ext
  match a with
  | ⟨0, _⟩ => show win5_6.index t (0 : Fin 2) * 5000 + 1 * p.val = t.val * 5000 + p.val; rw [e0]; omega
  | ⟨1, _⟩ => show win5_6.index t (1 : Fin 2) * 128 + 1 * q.val = q.val; rw [e1]; omega

theorem flushed5_eq (c : Dev nD) (t : Fin cfg5.N) :
    (dat5 (F := Ideal) V c).flushed 6 t
      = ((cfg5.win 6).blk t).view.read (Elt Ideal)
          (Cert.Spec.updSpec (V c main_v57) (V c main_v93) (V c main_v95) (V c main_v98) (V c main_v101) (V c main_v104) : Cert.Spec.Arr 50000 128) := by
  show (cfg5.win 6).cut (grid5.coords t) ((dat5 (F := Ideal) V c).after 6 t) = _
  rw [after5_6]
  unfold out5_6
  rw [View.canon_unit_zero hz2]
  simp only [View.ld_unit_zero (S := S5000x128) hz2, View.ld_unit_zero (S := S256x128) hz2, View.ld_unit_zero (S := S1x128) hz2]
  funext j
  obtain ⟨p, q, rfl⟩ : ∃ (p : Fin 5000) (q : Fin 128), j = ix2 p q := ⟨j 0, j 1, eq_ix2 j⟩
  refine (out5_apply (iblk5 (F := Ideal) V c 0 t) (iblk5 (F := Ideal) V c 1 t) (iblk5 (F := Ideal) V c 2 t)
    (iblk5 (F := Ideal) V c 3 t) (iblk5 (F := Ideal) V c 4 t) (iblk5 (F := Ideal) V c 5 t) p q).trans ?_
  rw [View.read_apply, emb5_6 t p q]
  show _ = Cert.Spec.updRow (Cert.Spec.row (V c main_v57 : Cert.Spec.Arr 50000 128) (nodeRow5 t p))
      (Cert.Spec.row (V c main_v93 : Cert.Spec.Arr 50000 128) (nodeRow5 t p)) (V c main_v95) (V c main_v98) (V c main_v101) (V c main_v104) q
  rw [iblk5_0_row V c t p, iblk5_1_row V c t p, iblk5_2_eq V c t, iblk5_3_eq V c t, iblk5_4_eq V c t, iblk5_5_eq V c t]

theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v105).slice (win5_6.rect t)).set ↔ _
  rw [View.set_slice_whole, Rect.mem_set_unit]
  exact Iff.rfl

theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, -, -, -, -, e0, e1⟩ := idx_facts5 t
  have ht : t.val = (i 0).val / 5000 := rfl
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; rw [e0, ht]; omega
  | ⟨1, _⟩ => show win5_6.index t (1 : Fin 2) * 128 ≤ (i 1).val ∧ (i 1).val < win5_6.index t (1 : Fin 2) * 128 + 128; rw [e1]; omega

end Upd

open Upd

theorem final3 (c : Dev nD) :
    (dat3 (F := Ideal) V c).arrAt 6 cfg3.N = Cert.Spec.updSpec (V c main_v1) (V c main_v45) (V c main_v47) (V c main_v50) (V c main_v53) (V c main_v56) :=
  (dat3 (F := Ideal) V c).arrAt_eq_of_cover 6 _ (fun t _ => flushed3_eq V c t) cover3

theorem final5 (c : Dev nD) :
    (dat5 (F := Ideal) V c).arrAt 6 cfg5.N = Cert.Spec.updSpec (V c main_v57) (V c main_v93) (V c main_v95) (V c main_v98) (V c main_v101) (V c main_v104) :=
  (dat5 (F := Ideal) V c).arrAt_eq_of_cover 6 _ (fun t _ => flushed5_eq V c t) cover5

end Cert.KernelIdeal.Val

end
-- ==== Proof.RMsg.lean ====
-- The reference's message stage, read row by row, is the message row function.
import proofs.«416830_j43473658970339_2_alg».proof.Proof.RefRead
import proofs.«416830_j43473658970339_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Idealize.ShloMosaic Idealize.ShloMosaic.TcCoe Idealize.ShloMosaic.ValueIdx
open Cert.ReferenceIdeal Cert.ReferenceIdeal.ReadP

open scoped BigOperators

variable (x0 : (⟨S50000x32, .f32⟩ : BufTy).Contents (Elt Ideal)) (x1 : (⟨S400000x8, .f32⟩ : BufTy).Contents (Elt Ideal)) (x2 : (⟨S2x400000, .i32⟩ : BufTy).Contents (Elt Ideal)) (x3 : (⟨S400000, .i32⟩ : BufTy).Contents (Elt Ideal)) (x8 : (⟨S32x128, .f32⟩ : BufTy).Contents (Elt Ideal)) (x9 : (⟨S128, .f32⟩ : BufTy).Contents (Elt Ideal)) (x10 : (⟨S8x128, .f32⟩ : BufTy).Contents (Elt Ideal)) (x11 : (⟨S128, .f32⟩ : BufTy).Contents (Elt Ideal)) (x12 : (⟨S2x384x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x384x128, .f32⟩ : BufTy).Contents (Elt Ideal)) (x17 : (⟨S2x128, .f32⟩ : BufTy).Contents (Elt Ideal)) (x18 : (⟨S2x128x128, .f32⟩ : BufTy).Contents (Elt Ideal)) (x19 : (⟨S2x128, .f32⟩ : BufTy).Contents (Elt Ideal)) (x20 : (⟨S2x256x64, .f32⟩ : BufTy).Contents (Elt Ideal)) (x21 : (⟨S2x64, .f32⟩ : BufTy).Contents (Elt Ideal)) (x22 : (⟨S2x64x1, .f32⟩ : BufTy).Contents (Elt Ideal)) (x23 : (⟨S2x1, .f32⟩ : BufTy).Contents (Elt Ideal)) (x24 : (⟨S2x256x128, .f32⟩ : BufTy).Contents (Elt Ideal)) (x25 : (⟨S2x128, .f32⟩ : BufTy).Contents (Elt Ideal)) (x26 : (⟨S2x128, .f32⟩ : BufTy).Contents (Elt Ideal)) (x27 : (⟨S2x128, .f32⟩ : BufTy).Contents (Elt Ideal))

private theorem cat3_read {n : Nat} (a b c : Cert.Spec.Arr n 128)
    (h : Shape.Concatenates [(⟨2, ![n, 128]⟩ : Shape), ⟨2, ![n, 128]⟩, ⟨2, ![n, 128]⟩] (⟨2, ![n, 384]⟩ : Shape) 1)
    (e : Fin n) (k : Fin 384) :
    concatenate (⟨2, ![n, 384]⟩ : Shape) 1 [⟨⟨2, ![n, 128]⟩, a⟩, ⟨⟨2, ![n, 128]⟩, b⟩, ⟨⟨2, ![n, 128]⟩, c⟩] h (ix2 e k)
      = Cert.Spec.cat3 (Cert.Spec.row a e) (Cert.Spec.row b e) (Cert.Spec.row c e) k := by
  unfold Cert.Spec.cat3 Cert.Spec.row
  by_cases h1 : k.val < 128
  · rw [dif_pos h1]
    refine concatenate_apply_piece 1 [(⟨⟨2, ![n, 128]⟩, a⟩ : (s : Shape) × (s.Idx → EReal)), ⟨⟨2, ![n, 128]⟩, b⟩, ⟨⟨2, ![n, 128]⟩, c⟩] h (ix2 e k) 0 (by simp) _ a rfl rfl 0 rfl (ix2 e ⟨k.val, h1⟩) ?_ ?_
    · intro d hd
      match d with
      | ⟨0, _⟩ => rfl
      | ⟨1, _⟩ => exact absurd rfl hd
    · show 0 + k.val = k.val
      omega
  · rw [dif_neg h1]
    by_cases h2 : k.val < 256
    · rw [dif_pos h2]
      refine concatenate_apply_piece 1 [(⟨⟨2, ![n, 128]⟩, a⟩ : (s : Shape) × (s.Idx → EReal)), ⟨⟨2, ![n, 128]⟩, b⟩, ⟨⟨2, ![n, 128]⟩, c⟩] h (ix2 e k) 1 (by simp) _ b rfl rfl 128 rfl (ix2 e ⟨k.val - 128, by omega⟩) ?_ ?_
      · intro d hd
        match d with
        | ⟨0, _⟩ => rfl
        | ⟨1, _⟩ => exact absurd rfl hd
      · show 128 + (k.val - 128) = k.val
        omega
    · rw [dif_neg h2]
      refine concatenate_apply_piece 1 [(⟨⟨2, ![n, 128]⟩, a⟩ : (s : Shape) × (s.Idx → EReal)), ⟨⟨2, ![n, 128]⟩, b⟩, ⟨⟨2, ![n, 128]⟩, c⟩] h (ix2 e k) 2 (by simp) _ c rfl rfl 256 rfl (ix2 e ⟨k.val - 256, by omega⟩) ?_ ?_
      · intro d hd
        match d with
        | ⟨0, _⟩ => rfl
        | ⟨1, _⟩ => exact absurd rfl hd
      · show 256 + (k.val - 256) = k.val
        omega

private theorem cat2_read {n : Nat} (a b : Cert.Spec.Arr n 128)
    (h : Shape.Concatenates [(⟨2, ![n, 128]⟩ : Shape), ⟨2, ![n, 128]⟩] (⟨2, ![n, 256]⟩ : Shape) 1)
    (e : Fin n) (k : Fin 256) :
    concatenate (⟨2, ![n, 256]⟩ : Shape) 1 [⟨⟨2, ![n, 128]⟩, a⟩, ⟨⟨2, ![n, 128]⟩, b⟩] h (ix2 e k)
      = Cert.Spec.cat2 (Cert.Spec.row a e) (Cert.Spec.row b e) k := by
  unfold Cert.Spec.cat2 Cert.Spec.row
  by_cases h1 : k.val < 128
  · rw [dif_pos h1]
    refine concatenate_apply_piece 1 [(⟨⟨2, ![n, 128]⟩, a⟩ : (s : Shape) × (s.Idx → EReal)), ⟨⟨2, ![n, 128]⟩, b⟩] h (ix2 e k) 0 (by simp) _ a rfl rfl 0 rfl (ix2 e ⟨k.val, h1⟩) ?_ ?_
    · intro d hd
      match d with
      | ⟨0, _⟩ => rfl
      | ⟨1, _⟩ => exact absurd rfl hd
    · show 0 + k.val = k.val
      omega
  · rw [dif_neg h1]
    refine concatenate_apply_piece 1 [(⟨⟨2, ![n, 128]⟩, a⟩ : (s : Shape) × (s.Idx → EReal)), ⟨⟨2, ![n, 128]⟩, b⟩] h (ix2 e k) 1 (by simp) _ b rfl rfl 128 rfl (ix2 e ⟨k.val - 128, by omega⟩) ?_ ?_
    · intro d hd
      match d with
      | ⟨0, _⟩ => rfl
      | ⟨1, _⟩ => exact absurd rfl hd
    · show 128 + (k.val - 128) = k.val
      omega

local macro "idx2" : tactic =>
  `(tactic| exact funext fun a => Fin.ext (by match a with | ⟨0, _⟩ => rfl | ⟨1, _⟩ => rfl))

private theorem lin_eq {K J : Nat} (a : Fin K → EReal) (W : Cert.Spec.Arr K J) (b : Cert.Spec.Arr 1 J) (j : Fin J)
    (f g : Fin K → EReal) (c : EReal)
    (hf : ∀ k, f k = a k) (hg : ∀ k, g k = W (ix2 k j)) (hc : c = b (ix2 0 j)) :
    (∑ k : Fin K, f k * g k) + c = Cert.Spec.lin a W b j := by
  unfold Cert.Spec.lin
  rw [hc]
  exact congrArg (fun t => t + b (ix2 0 j)) (Finset.sum_congr rfl fun k _ => by rw [hf k, hg k])

private theorem join3_a (e : Fin 400000) (k : Fin 384) :
    val_main_v28 (F := Ideal) x0 x1 x2 x8 x9 x10 x11 (ix2 e k) = (Cert.Spec.cat3 (Cert.Spec.row (val_main_v20 (F := Ideal) x0 x2 x8 x9) e) (Cert.Spec.row (val_main_v27 (F := Ideal) x0 x2 x8 x9) e) (Cert.Spec.row (val_main_v7 (F := Ideal) x1 x10 x11) e)) k := by
  unfold val_main_v28
  exact cat3_read _ _ _ _ e k

private theorem join2_a (e : Fin 400000) (k : Fin 256) :
    val_main_v63 (F := Ideal) x0 x2 x8 x9 (ix2 e k) = (Cert.Spec.cat2 (Cert.Spec.row (val_main_v20 (F := Ideal) x0 x2 x8 x9) e) (Cert.Spec.row (val_main_v27 (F := Ideal) x0 x2 x8 x9) e)) k := by
  unfold val_main_v63
  exact cat2_read _ _ _ e k

private theorem legHid_a (e : Fin 400000) (k : Fin 128) :
    val_main_v37 (F := Ideal) x0 x1 x2 x8 x9 x10 x11 x12 x13 (ix2 e k) = max (Cert.Spec.lin (Cert.Spec.cat3 (Cert.Spec.row (val_main_v20 (F := Ideal) x0 x2 x8 x9) e) (Cert.Spec.row (val_main_v27 (F := Ideal) x0 x2 x8 x9) e) (Cert.Spec.row (val_main_v7 (F := Ideal) x1 x10 x11) e)) (val_main_v30 (F := Ideal) x12) (val_main_v34 (F := Ideal) x13) k) Cert.Spec.zeroF := by
  rw [val_main_v37_apply, val_main_v36_apply, val_main_v31_apply, val_main_v35_apply, val_main_call0_v0_apply, val_main_call0_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v31 (ix2 e k) k' = ix2 e k' by idx2]
    exact join3_a x0 x1 x2 x8 x9 x10 x11 e k'
  · rw [show ridx_main_v31 (ix2 e k) k' = ix2 k' k by idx2]
  · rw [show idx_main_v35 (ix2 e k) = ix2 0 k by idx2]

private theorem legOut_a (e : Fin 400000) (j : Fin 128) :
    val_main_v45 (F := Ideal) x0 x1 x2 x8 x9 x10 x11 x12 x13 x14 x15 (ix2 e j) = Cert.Spec.lin (fun k => max (Cert.Spec.lin (Cert.Spec.cat3 (Cert.Spec.row (val_main_v20 (F := Ideal) x0 x2 x8 x9) e) (Cert.Spec.row (val_main_v27 (F := Ideal) x0 x2 x8 x9) e) (Cert.Spec.row (val_main_v7 (F := Ideal) x1 x10 x11) e)) (val_main_v30 (F := Ideal) x12) (val_main_v34 (F := Ideal) x13) k) Cert.Spec.zeroF) (val_main_v39 (F := Ideal) x14) (val_main_v43 (F := Ideal) x15) j := by
  rw [val_main_v45_apply, val_main_v40_apply, val_main_v44_apply, Ideal.addf_def]
  refine lin_eq _ _ _ _ _ _ _ (fun k' => ?_) (fun k' => ?_) ?_
  · rw [show lidx_main_v40 (ix2 e j) k' = ix2 e k' by idx2]
    exact legHid_a x0 x1 x2 x8 x9 x10 x11 x12 x13 e k'
  · rw [show ridx_main_v40 (ix2 e j) k' = ix2 k' j by idx2]
  · rw [show idx_main_v44 (ix2 e j) = ix2 0 j by idx2]

private theorem eavHid_a (e : Fin 400000) (k : Fin 128) :
    val_main_v54 (F := Ideal) x0 x1 x2 x8 x9 x10 x11 x16 x17 (ix2 e k) = max (Cert.Spec.lin (Cert.Spec.cat3 (Cert.Spec.row (val_main_v20 (F := Ideal) x0 x2 x8 x9) e) (Cert.Spec.row (val_main_v27 (F := Ideal) x0 x2 x8 x9) e) (Cert.Spec.row (val_main_v7 (F := Ideal) x1 x10 x11) e)) (val_main_v47 (F := Ideal) x16) (val_main_v51 (F := Ideal) x17) k) Cert.Spec.zeroF := by
  rw [val_main_v54_apply, val_main_v53_apply, val_main_v48_apply, val_main_v52_apply, val_main_call1_v0_apply, val_main_call1_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v48 (ix2 e k) k' = ix2 e k' by idx2]
    exact join3_a x0 x1 x2 x8 x9 x10 x11 e k'
  · rw [show ridx_main_v48 (ix2 e k) k' = ix2 k' k by idx2]
  · rw [show idx_main_v52 (ix2 e k) = ix2 0 k by idx2]

private theorem eavOut_a (e : Fin 400000) (j : Fin 128) :
    val_main_v62 (F := Ideal) x0 x1 x2 x8 x9 x10 x11 x16 x17 x18 x19 (ix2 e j) = Cert.Spec.lin (fun k => max (Cert.Spec.lin (Cert.Spec.cat3 (Cert.Spec.row (val_main_v20 (F := Ideal) x0 x2 x8 x9) e) (Cert.Spec.row (val_main_v27 (F := Ideal) x0 x2 x8 x9) e) (Cert.Spec.row (val_main_v7 (F := Ideal) x1 x10 x11) e)) (val_main_v47 (F := Ideal) x16) (val_main_v51 (F := Ideal) x17) k) Cert.Spec.zeroF) (val_main_v56 (F := Ideal) x18) (val_main_v60 (F := Ideal) x19) j := by
  rw [val_main_v62_apply, val_main_v57_apply, val_main_v61_apply, Ideal.addf_def]
  refine lin_eq _ _ _ _ _ _ _ (fun k' => ?_) (fun k' => ?_) ?_
  · rw [show lidx_main_v57 (ix2 e j) k' = ix2 e k' by idx2]
    exact eavHid_a x0 x1 x2 x8 x9 x10 x11 x16 x17 e k'
  · rw [show ridx_main_v57 (ix2 e j) k' = ix2 k' j by idx2]
  · rw [show idx_main_v61 (ix2 e j) = ix2 0 j by idx2]

private theorem attHid_a (e : Fin 400000) (k : Fin 64) :
    val_main_v72 (F := Ideal) x0 x2 x8 x9 x20 x21 (ix2 e k) = max (Cert.Spec.lin (Cert.Spec.cat2 (Cert.Spec.row (val_main_v20 (F := Ideal) x0 x2 x8 x9) e) (Cert.Spec.row (val_main_v27 (F := Ideal) x0 x2 x8 x9) e)) (val_main_v65 (F := Ideal) x20) (val_main_v69 (F := Ideal) x21) k) Cert.Spec.zeroF := by
  rw [val_main_v72_apply, val_main_v71_apply, val_main_v66_apply, val_main_v70_apply, val_main_call2_v0_apply, val_main_call2_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v66 (ix2 e k) k' = ix2 e k' by idx2]
    exact join2_a x0 x2 x8 x9 e k'
  · rw [show ridx_main_v66 (ix2 e k) k' = ix2 k' k by idx2]
  · rw [show idx_main_v70 (ix2 e k) = ix2 0 k by idx2]

private theorem attOut_a (e : Fin 400000) :
    val_main_v80 (F := Ideal) x0 x2 x8 x9 x20 x21 x22 x23 (ix2 e (0 : Fin 1)) = Cert.Spec.lin (fun k => max (Cert.Spec.lin (Cert.Spec.cat2 (Cert.Spec.row (val_main_v20 (F := Ideal) x0 x2 x8 x9) e) (Cert.Spec.row (val_main_v27 (F := Ideal) x0 x2 x8 x9) e)) (val_main_v65 (F := Ideal) x20) (val_main_v69 (F := Ideal) x21) k) Cert.Spec.zeroF) (val_main_v74 (F := Ideal) x22) (val_main_v78 (F := Ideal) x23) (0 : Fin 1) := by
  rw [val_main_v80_apply, val_main_v75_apply, val_main_v79_apply, Ideal.addf_def]
  refine lin_eq _ _ _ _ _ _ _ (fun k' => ?_) (fun k' => ?_) ?_
  · rw [show lidx_main_v75 (ix2 e (0 : Fin 1)) k' = ix2 e k' by idx2]
    exact attHid_a x0 x2 x8 x9 x20 x21 e k'
  · rw [show ridx_main_v75 (ix2 e (0 : Fin 1)) k' = ix2 k' (0 : Fin 1) by idx2]
  · rw [show idx_main_v79 (ix2 e (0 : Fin 1)) = ix2 0 (0 : Fin 1) by idx2]

private theorem gate_a (e : Fin 400000) :
    val_main_v86 (F := Ideal) x0 x2 x8 x9 x20 x21 x22 x23 (ix2 e (0 : Fin 1)) = Ideal.logistic (Cert.Spec.lin (fun k => max (Cert.Spec.lin (Cert.Spec.cat2 (Cert.Spec.row (val_main_v20 (F := Ideal) x0 x2 x8 x9) e) (Cert.Spec.row (val_main_v27 (F := Ideal) x0 x2 x8 x9) e)) (val_main_v65 (F := Ideal) x20) (val_main_v69 (F := Ideal) x21) k) Cert.Spec.zeroF) (val_main_v74 (F := Ideal) x22) (val_main_v78 (F := Ideal) x23) (0 : Fin 1)) := by
  rw [val_main_v86_apply, val_main_v85_apply, val_main_cst_3_apply, val_main_v84_apply, val_main_v83_apply, val_main_cst_apply, val_main_v82_apply, val_main_v81_apply, attOut_a x0 x2 x8 x9 x20 x21 x22 x23 e,
    Ideal.hostDivf_def, Ideal.addf_def, Ideal.hostUnary_exp_def, Ideal.hostNegf_def, Ideal.negf_def, Ideal.ofBits_def, Ideal.ofBits_one_f32]
  rfl

theorem msg1 :
    val_main_v95 (F := Ideal) x0 x1 x2 x3 x8 x9 x10 x11 x12 x13 x14 x15 x16 x17 x18 x19 x20 x21 x22 x23
      = Cert.Spec.msgSpec (val_main_v20 (F := Ideal) x0 x2 x8 x9)
          (val_main_v27 (F := Ideal) x0 x2 x8 x9)
          (val_main_v7 (F := Ideal) x1 x10 x11)
          (val_main_v13 (F := Ideal) x3)
          (val_main_v30 (F := Ideal) x12)
          (val_main_v34 (F := Ideal) x13)
          (val_main_v39 (F := Ideal) x14)
          (val_main_v43 (F := Ideal) x15)
          (val_main_v47 (F := Ideal) x16)
          (val_main_v51 (F := Ideal) x17)
          (val_main_v56 (F := Ideal) x18)
          (val_main_v60 (F := Ideal) x19)
          (val_main_v65 (F := Ideal) x20)
          (val_main_v69 (F := Ideal) x21)
          (val_main_v74 (F := Ideal) x22)
          (val_main_v78 (F := Ideal) x23) := by
  funext i
  obtain ⟨e, j, rfl⟩ : ∃ (e : Fin 400000) (j : Fin 128), i = ix2 e j := ⟨i 0, i 1, eq_ix2 i⟩
  rw [val_main_v95_apply, val_main_v90_apply, val_main_v94_apply, val_main_v89_apply, val_main_v88_apply, val_main_v87_apply, val_main_cst_4_apply, val_main_v93_apply, val_main_v92_apply, val_main_v91_apply,
    show idx_main_v89 (ix2 e j) = ix2 e (0 : Fin 1) by idx2, show idx_main_v93 (ix2 e j) = ix2 e (0 : Fin 1) by idx2,
    show idx_main_v91 (ix2 e j) = ix2 e (0 : Fin 1) by idx2,
    legOut_a x0 x1 x2 x8 x9 x10 x11 x12 x13 x14 x15 e j, eavOut_a x0 x1 x2 x8 x9 x10 x11 x16 x17 x18 x19 e j, gate_a x0 x2 x8 x9 x20 x21 x22 x23 e]
  simp only [Ideal.addf_def, Ideal.mulf_def, Ideal.subf_def, Ideal.ofBits_def]
  rfl

private theorem join3_b (e : Fin 400000) (k : Fin 384) :
    val_main_v153 (F := Ideal) x0 x1 x2 x3 x8 x9 x10 x11 x12 x13 x14 x15 x16 x17 x18 x19 x20 x21 x22 x23 x24 x25 x26 x27 (ix2 e k) = (Cert.Spec.cat3 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e) (Cert.Spec.row (val_main_v7 (F := Ideal) x1 x10 x11) e)) k := by
  unfold val_main_v153
  exact cat3_read _ _ _ _ e k

private theorem join2_b (e : Fin 400000) (k : Fin 256) :
    val_main_v188 (F := Ideal) x0 x1 x2 x3 x8 x9 x10 x11 x12 x13 x14 x15 x16 x17 x18 x19 x20 x21 x22 x23 x24 x25 x26 x27 (ix2 e k) = (Cert.Spec.cat2 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e)) k := by
  unfold val_main_v188
  exact cat2_read _ _ _ e k

private theorem legHid_b (e : Fin 400000) (k : Fin 128) :
    val_main_v162 (F := Ideal) x0 x1 x2 x3 x8 x9 x10 x11 x12 x13 x14 x15 x16 x17 x18 x19 x20 x21 x22 x23 x24 x25 x26 x27 (ix2 e k) = max (Cert.Spec.lin (Cert.Spec.cat3 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e) (Cert.Spec.row (val_main_v7 (F := Ideal) x1 x10 x11) e)) (val_main_v155 (F := Ideal) x12) (val_main_v159 (F := Ideal) x13) k) Cert.Spec.zeroF := by
  rw [val_main_v162_apply, val_main_v161_apply, val_main_v156_apply, val_main_v160_apply, val_main_call5_v0_apply, val_main_call5_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v156 (ix2 e k) k' = ix2 e k' by idx2]
    exact join3_b x0 x1 x2 x3 x8 x9 x10 x11 x12 x13 x14 x15 x16 x17 x18 x19 x20 x21 x22 x23 x24 x25 x26 x27 e k'
  · rw [show ridx_main_v156 (ix2 e k) k' = ix2 k' k by idx2]
  · rw [show idx_main_v160 (ix2 e k) = ix2 0 k by idx2]

private theorem legOut_b (e : Fin 400000) (j : Fin 128) :
    val_main_v170 (F := Ideal) x0 x1 x2 x3 x8 x9 x10 x11 x12 x13 x14 x15 x16 x17 x18 x19 x20 x21 x22 x23 x24 x25 x26 x27 (ix2 e j) = Cert.Spec.lin (fun k => max (Cert.Spec.lin (Cert.Spec.cat3 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e) (Cert.Spec.row (val_main_v7 (F := Ideal) x1 x10 x11) e)) (val_main_v155 (F := Ideal) x12) (val_main_v159 (F := Ideal) x13) k) Cert.Spec.zeroF) (val_main_v164 (F := Ideal) x14) (val_main_v168 (F := Ideal) x15) j := by
  rw [val_main_v170_apply, val_main_v165_apply, val_main_v169_apply, Ideal.addf_def]
  refine lin_eq _ _ _ _ _ _ _ (fun k' => ?_) (fun k' => ?_) ?_
  · rw [show lidx_main_v165 (ix2 e j) k' = ix2 e k' by idx2]
    exact legHid_b x0 x1 x2 x3 x8 x9 x10 x11 x12 x13 x14 x15 x16 x17 x18 x19 x20 x21 x22 x23 x24 x25 x26 x27 e k'
  · rw [show ridx_main_v165 (ix2 e j) k' = ix2 k' j by idx2]
  · rw [show idx_main_v169 (ix2 e j) = ix2 0 j by idx2]

private theorem eavHid_b (e : Fin 400000) (k : Fin 128) :
    val_main_v179 (F := Ideal) x0 x1 x2 x3 x8 x9 x10 x11 x12 x13 x14 x15 x16 x17 x18 x19 x20 x21 x22 x23 x24 x25 x26 x27 (ix2 e k) = max (Cert.Spec.lin (Cert.Spec.cat3 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e) (Cert.Spec.row (val_main_v7 (F := Ideal) x1 x10 x11) e)) (val_main_v172 (F := Ideal) x16) (val_main_v176 (F := Ideal) x17) k) Cert.Spec.zeroF := by
  rw [val_main_v179_apply, val_main_v178_apply, val_main_v173_apply, val_main_v177_apply, val_main_call6_v0_apply, val_main_call6_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v173 (ix2 e k) k' = ix2 e k' by idx2]
    exact join3_b x0 x1 x2 x3 x8 x9 x10 x11 x12 x13 x14 x15 x16 x17 x18 x19 x20 x21 x22 x23 x24 x25 x26 x27 e k'
  · rw [show ridx_main_v173 (ix2 e k) k' = ix2 k' k by idx2]
  · rw [show idx_main_v177 (ix2 e k) = ix2 0 k by idx2]

private theorem eavOut_b (e : Fin 400000) (j : Fin 128) :
    val_main_v187 (F := Ideal) x0 x1 x2 x3 x8 x9 x10 x11 x12 x13 x14 x15 x16 x17 x18 x19 x20 x21 x22 x23 x24 x25 x26 x27 (ix2 e j) = Cert.Spec.lin (fun k => max (Cert.Spec.lin (Cert.Spec.cat3 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e) (Cert.Spec.row (val_main_v7 (F := Ideal) x1 x10 x11) e)) (val_main_v172 (F := Ideal) x16) (val_main_v176 (F := Ideal) x17) k) Cert.Spec.zeroF) (val_main_v181 (F := Ideal) x18) (val_main_v185 (F := Ideal) x19) j := by
  rw [val_main_v187_apply, val_main_v182_apply, val_main_v186_apply, Ideal.addf_def]
  refine lin_eq _ _ _ _ _ _ _ (fun k' => ?_) (fun k' => ?_) ?_
  · rw [show lidx_main_v182 (ix2 e j) k' = ix2 e k' by idx2]
    exact eavHid_b x0 x1 x2 x3 x8 x9 x10 x11 x12 x13 x14 x15 x16 x17 x18 x19 x20 x21 x22 x23 x24 x25 x26 x27 e k'
  · rw [show ridx_main_v182 (ix2 e j) k' = ix2 k' j by idx2]
  · rw [show idx_main_v186 (ix2 e j) = ix2 0 j by idx2]

private theorem attHid_b (e : Fin 400000) (k : Fin 64) :
    val_main_v197 (F := Ideal) x0 x1 x2 x3 x8 x9 x10 x11 x12 x13 x14 x15 x16 x17 x18 x19 x20 x21 x22 x23 x24 x25 x26 x27 (ix2 e k) = max (Cert.Spec.lin (Cert.Spec.cat2 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e)) (val_main_v190 (F := Ideal) x20) (val_main_v194 (F := Ideal) x21) k) Cert.Spec.zeroF := by
  rw [val_main_v197_apply, val_main_v196_apply, val_main_v191_apply, val_main_v195_apply, val_main_call7_v0_apply, val_main_call7_cst_apply,
    Ideal.maximumf_def, Ideal.addf_def, Ideal.ofBits_def]
  refine congrArg (fun t => max t Cert.Spec.zeroF) (lin_eq _ _ _ _ _ _ _ (fun k' => ?_) (fun k' => ?_) ?_)
  · rw [show lidx_main_v191 (ix2 e k) k' = ix2 e k' by idx2]
    exact join2_b x0 x1 x2 x3 x8 x9 x10 x11 x12 x13 x14 x15 x16 x17 x18 x19 x20 x21 x22 x23 x24 x25 x26 x27 e k'
  · rw [show ridx_main_v191 (ix2 e k) k' = ix2 k' k by idx2]
  · rw [show idx_main_v195 (ix2 e k) = ix2 0 k by idx2]

private theorem attOut_b (e : Fin 400000) :
    val_main_v205 (F := Ideal) x0 x1 x2 x3 x8 x9 x10 x11 x12 x13 x14 x15 x16 x17 x18 x19 x20 x21 x22 x23 x24 x25 x26 x27 (ix2 e (0 : Fin 1)) = Cert.Spec.lin (fun k => max (Cert.Spec.lin (Cert.Spec.cat2 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e)) (val_main_v190 (F := Ideal) x20) (val_main_v194 (F := Ideal) x21) k) Cert.Spec.zeroF) (val_main_v199 (F := Ideal) x22) (val_main_v203 (F := Ideal) x23) (0 : Fin 1) := by
  rw [val_main_v205_apply, val_main_v200_apply, val_main_v204_apply, Ideal.addf_def]
  refine lin_eq _ _ _ _ _ _ _ (fun k' => ?_) (fun k' => ?_) ?_
  · rw [show lidx_main_v200 (ix2 e (0 : Fin 1)) k' = ix2 e k' by idx2]
    exact attHid_b x0 x1 x2 x3 x8 x9 x10 x11 x12 x13 x14 x15 x16 x17 x18 x19 x20 x21 x22 x23 x24 x25 x26 x27 e k'
  · rw [show ridx_main_v200 (ix2 e (0 : Fin 1)) k' = ix2 k' (0 : Fin 1) by idx2]
  · rw [show idx_main_v204 (ix2 e (0 : Fin 1)) = ix2 0 (0 : Fin 1) by idx2]

private theorem gate_b (e : Fin 400000) :
    val_main_v211 (F := Ideal) x0 x1 x2 x3 x8 x9 x10 x11 x12 x13 x14 x15 x16 x17 x18 x19 x20 x21 x22 x23 x24 x25 x26 x27 (ix2 e (0 : Fin 1)) = Ideal.logistic (Cert.Spec.lin (fun k => max (Cert.Spec.lin (Cert.Spec.cat2 (Cert.Spec.row (val_main_v145 (F := Ideal) x0 x1 x2 x3 x8 x9 x10 x11 x12 x13 x14 x15 x16 x17 x18 x19 x20 x21 x22 x23 x24 x25 x26 x27) e) (Cert.Spec.row (val_main_v152 (F := Ideal) x0 x1 x2 x3 x8 x9 x10 x11 x12 x13 x14 x15 x16 x17 x18 x19 x20 x21 x22 x23 x24 x25 x26 x27) e)) (val_main_v190 (F := Ideal) x20) (val_main_v194 (F := Ideal) x21) k) Cert.Spec.zeroF) (val_main_v199 (F := Ideal) x22) (val_main_v203 (F := Ideal) x23) (0 : Fin 1)) := by
  rw [val_main_v211_apply, val_main_v210_apply, val_main_cst_16_apply, val_main_v209_apply, val_main_v208_apply, val_main_cst_15_apply, val_main_v207_apply, val_main_v206_apply, attOut_b x0 x1 x2 x3 x8 x9 x10 x11 x12 x13 x14 x15 x16 x17 x18 x19 x20 x21 x22 x23 x24 x25 x26 x27 e,
    Ideal.hostDivf_def, Ideal.addf_def, Ideal.hostUnary_exp_def, Ideal.hostNegf_def, Ideal.negf_def, Ideal.ofBits_def, Ideal.ofBits_one_f32]
  rfl

theorem msg2 :
    val_main_v220 (F := Ideal) x0 x1 x2 x3 x8 x9 x10 x11 x12 x13 x14 x15 x16 x17 x18 x19 x20 x21 x22 x23 x24 x25 x26 x27
      = Cert.Spec.msgSpec (val_main_v145 (F := Ideal) x0 x1 x2 x3 x8 x9 x10 x11 x12 x13 x14 x15 x16 x17 x18 x19 x20 x21 x22 x23 x24 x25 x26 x27)
          (val_main_v152 (F := Ideal) x0 x1 x2 x3 x8 x9 x10 x11 x12 x13 x14 x15 x16 x17 x18 x19 x20 x21 x22 x23 x24 x25 x26 x27)
          (val_main_v7 (F := Ideal) x1 x10 x11)
          (val_main_v13 (F := Ideal) x3)
          (val_main_v155 (F := Ideal) x12)
          (val_main_v159 (F := Ideal) x13)
          (val_main_v164 (F := Ideal) x14)
          (val_main_v168 (F := Ideal) x15)
          (val_main_v172 (F := Ideal) x16)
          (val_main_v176 (F := Ideal) x17)
          (val_main_v181 (F := Ideal) x18)
          (val_main_v185 (F := Ideal) x19)
          (val_main_v190 (F := Ideal) x20)
          (val_main_v194 (F := Ideal) x21)
          (val_main_v199 (F := Ideal) x22)
          (val_main_v203 (F := Ideal) x23) := by
  funext i
  obtain ⟨e, j, rfl⟩ : ∃ (e : Fin 400000) (j : Fin 128), i = ix2 e j := ⟨i 0, i 1, eq_ix2 i⟩
  rw [val_main_v220_apply, val_main_v215_apply, val_main_v219_apply, val_main_v214_apply, val_main_v213_apply, val_main_v212_apply, val_main_cst_17_apply, val_main_v218_apply, val_main_v217_apply, val_main_v216_apply,
    show idx_main_v214 (ix2 e j) = ix2 e (0 : Fin 1) by idx2, show idx_main_v218 (ix2 e j) = ix2 e (0 : Fin 1) by idx2,
    show idx_main_v216 (ix2 e j) = ix2 e (0 : Fin 1) by idx2,
    legOut_b x0 x1 x2 x3 x8 x9 x10 x11 x12 x13 x14 x15 x16 x17 x18 x19 x20 x21 x22 x23 x24 x25 x26 x27 e j, eavOut_b x0 x1 x2 x3 x8 x9 x10 x11 x12 x13 x14 x15 x16 x17 x18 x19 x20 x21 x22 x23 x24 x25 x26 x27 e j, gate_b x0 x1 x2 x3 x8 x9 x10 x11 x12 x13 x14 x15 x16 x17 x18 x19 x20 x21 x22 x23 x24 x25 x26 x27 e]
  simp only [Ideal.addf_def, Ideal.mulf_def, Ideal.subf_def, Ideal.ofBits_def]
  rfl

end Cert.ReferenceIdeal.RefVal

end
-- ==== Proof.RUpd.lean ====
-- The reference's embedding and update stages, read row by row.
import proofs.«416830_j43473658970339_2_alg».proof.Proof.RefRead
import proofs.«416830_j43473658970339_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Idealize.ShloMosaic Idealize.ShloMosaic.TcCoe Idealize.ShloMosaic.ValueIdx
open Cert.ReferenceIdeal Cert.ReferenceIdeal.ReadP

variable (x0 : (⟨S50000x32, .f32⟩ : BufTy).Contents (Elt Ideal)) (x1 : (⟨S400000x8, .f32⟩ : BufTy).Contents (Elt Ideal)) (x2 : (⟨S2x400000, .i32⟩ : BufTy).Contents (Elt Ideal)) (x3 : (⟨S400000, .i32⟩ : BufTy).Contents (Elt Ideal)) (x8 : (⟨S32x128, .f32⟩ : BufTy).Contents (Elt Ideal)) (x9 : (⟨S128, .f32⟩ : BufTy).Contents (Elt Ideal)) (x10 : (⟨S8x128, .f32⟩ : BufTy).Contents (Elt Ideal)) (x11 : (⟨S128, .f32⟩ : BufTy).Contents (Elt Ideal)) (x12 : (⟨S2x384x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x384x128, .f32⟩ : BufTy).Contents (Elt Ideal)) (x17 : (⟨S2x128, .f32⟩ : BufTy).Contents (Elt Ideal)) (x18 : (⟨S2x128x128, .f32⟩ : BufTy).Contents (Elt Ideal)) (x19 : (⟨S2x128, .f32⟩ : BufTy).Contents (Elt Ideal)) (x20 : (⟨S2x256x64, .f32⟩ : BufTy).Contents (Elt Ideal)) (x21 : (⟨S2x64, .f32⟩ : BufTy).Contents (Elt Ideal)) (x22 : (⟨S2x64x1, .f32⟩ : BufTy).Contents (Elt Ideal)) (x23 : (⟨S2x1, .f32⟩ : BufTy).Contents (Elt Ideal)) (x24 : (⟨S2x256x128, .f32⟩ : BufTy).Contents (Elt Ideal)) (x25 : (⟨S2x128, .f32⟩ : BufTy).Contents (Elt Ideal)) (x26 : (⟨S2x128, .f32⟩ : BufTy).Contents (Elt Ideal)) (x27 : (⟨S2x128, .f32⟩ : BufTy).Contents (Elt Ideal))

theorem cat2_row (A B : (⟨S50000x128, .f32⟩ : BufTy).Contents (Elt Ideal))
    (h : Shape.Concatenates [S50000x128, S50000x128] S50000x256 1) (e : Fin 50000) (k : Fin 256) :
    concatenate S50000x256 1 [⟨S50000x128, A⟩, ⟨S50000x128, B⟩] h (ix2 e k)
      = Cert.Spec.cat2 (Cert.Spec.row A e) (Cert.Spec.row B e) k := by
  unfold Cert.Spec.cat2 Cert.Spec.row
  by_cases hk : k.val < 128
  · rw [dif_pos hk]
    exact concatenate_pair_apply_left (t := S50000x256) (s₁ := S50000x128) (s₂ := S50000x128) 1 A B h (ix2 e k) rfl
      (ix2 e ⟨k.val, hk⟩) (fun b => by match b with | ⟨0, _⟩ => rfl | ⟨1, _⟩ => rfl)
  · rw [dif_neg hk]
    exact concatenate_pair_apply_right (t := S50000x256) (s₁ := S50000x128) (s₂ := S50000x128) 1 A B h (ix2 e k) rfl rfl
      (ix2 e ⟨k.val - 128, by omega⟩)
      (fun b hb => by match b, hb with | ⟨0, _⟩, _ => rfl | ⟨1, _⟩, hb => exact absurd rfl hb)
      (by show (k.val - 128) + 128 = k.val; omega)

theorem embedN :
    val_main_v3 (F := Ideal) x0 x8 x9 = Cert.Spec.embedSpec x0 x8 (val_main_v1 (F := Ideal) x9) := by
  funext i
  obtain ⟨e, j, rfl⟩ : ∃ (e : Fin 50000) (j : Fin 128), i = ix2 e j := ⟨i 0, i 1, eq_ix2 i⟩

  have hl : ∀ k : Fin 32, lidx_main_v0 (ix2 e j) k = ix2 e k := fun k => funext fun a => Fin.ext (by match a with | ⟨0, _⟩ => rfl | ⟨1, _⟩ => rfl)
  have hr : ∀ k : Fin 32, ridx_main_v0 (ix2 e j) k = ix2 k j := fun k => funext fun a => Fin.ext (by match a with | ⟨0, _⟩ => rfl | ⟨1, _⟩ => rfl)
  have hb : idx_main_v2 (ix2 e j) = ix2 (0 : Fin 1) j := funext fun a => Fin.ext (by match a with | ⟨0, _⟩ => rfl | ⟨1, _⟩ => rfl)
  rw [val_main_v3_apply, val_main_v0_apply, val_main_v2_apply, hb]
  simp only [hl, hr]
  rfl

theorem embedE :
    val_main_v7 (F := Ideal) x1 x10 x11 = Cert.Spec.embedSpec x1 x10 (val_main_v5 (F := Ideal) x11) := by
  funext i
  obtain ⟨e, j, rfl⟩ : ∃ (e : Fin 400000) (j : Fin 128), i = ix2 e j := ⟨i 0, i 1, eq_ix2 i⟩

  have hl : ∀ k : Fin 8, lidx_main_v4 (ix2 e j) k = ix2 e k := fun k => funext fun a => Fin.ext (by match a with | ⟨0, _⟩ => rfl | ⟨1, _⟩ => rfl)
  have hr : ∀ k : Fin 8, ridx_main_v4 (ix2 e j) k = ix2 k j := fun k => funext fun a => Fin.ext (by match a with | ⟨0, _⟩ => rfl | ⟨1, _⟩ => rfl)
  have hb : idx_main_v6 (ix2 e j) = ix2 (0 : Fin 1) j := funext fun a => Fin.ext (by match a with | ⟨0, _⟩ => rfl | ⟨1, _⟩ => rfl)
  rw [val_main_v7_apply, val_main_v4_apply, val_main_v6_apply, hb]
  simp only [hl, hr]
  rfl

section Layer1

theorem upd1_cat (e : Fin 50000) (k : Fin 256) :
    val_main_v99 (F := Ideal) x0 x1 x2 x3 x8 x9 x10 x11 x12 x13 x14 x15 x16 x17 x18 x19 x20 x21 x22 x23 (ix2 e k)
      = Cert.Spec.cat2 (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) k := by
  unfold val_main_v99
  exact cat2_row _ _ _ e k

theorem upd1_lin (e : Fin 50000) (j : Fin 128) :
    val_main_v107 (F := Ideal) x0 x1 x2 x3 x8 x9 x10 x11 x12 x13 x14 x15 x16 x17 x18 x19 x20 x21 x22 x23 x24 x25 (ix2 e j)
      = Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) j := by
  have hl : ∀ k : Fin 256, lidx_main_v102 (ix2 e j) k = ix2 e k := fun k => funext fun a => Fin.ext (by match a with | ⟨0, _⟩ => rfl | ⟨1, _⟩ => rfl)
  have hr : ∀ k : Fin 256, ridx_main_v102 (ix2 e j) k = ix2 k j := fun k => funext fun a => Fin.ext (by match a with | ⟨0, _⟩ => rfl | ⟨1, _⟩ => rfl)
  have hb : idx_main_v106 (ix2 e j) = ix2 (0 : Fin 1) j := funext fun a => Fin.ext (by match a with | ⟨0, _⟩ => rfl | ⟨1, _⟩ => rfl)
  rw [val_main_v107_apply, val_main_v102_apply, val_main_v106_apply, hb]
  simp only [hl, hr, upd1_cat]
  rfl

theorem upd1_mean (e : Fin 50000) :
    val_main_v111 (F := Ideal) x0 x1 x2 x3 x8 x9 x10 x11 x12 x13 x14 x15 x16 x17 x18 x19 x20 x21 x22 x23 x24 x25 (ix2 e (0 : Fin 1))
      = Cert.Spec.mean128 (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25)) := by
  have hi : ∀ k : Fin 128, idx_main_v108 (idx_main_v109 (ix2 e (0 : Fin 1))) k = ix2 e k := fun k => funext fun a => Fin.ext (by match a with | ⟨0, _⟩ => rfl | ⟨1, _⟩ => rfl)
  rw [val_main_v111_apply, val_main_v109_apply, val_main_v108_apply, val_main_v110_apply, val_main_cst_6_apply, val_main_cst_7_apply]
  simp only [hi, upd1_lin, Ideal.ofBits_def, Ideal.ofBits_zero_f32, zero_add]
  rfl

theorem upd1_cen (e : Fin 50000) (j : Fin 128) :
    val_main_v113 (F := Ideal) x0 x1 x2 x3 x8 x9 x10 x11 x12 x13 x14 x15 x16 x17 x18 x19 x20 x21 x22 x23 x24 x25 (ix2 e j)
      = Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) j - Cert.Spec.mean128 (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25)) := by
  have hm : idx_main_v112 (ix2 e j) = ix2 e (0 : Fin 1) := funext fun a => Fin.ext (by match a with | ⟨0, _⟩ => rfl | ⟨1, _⟩ => rfl)
  rw [val_main_v113_apply, val_main_v112_apply, hm, upd1_lin, upd1_mean]
  rfl

theorem upd1_cen' (e : Fin 50000) (j : Fin 128) :
    val_main_v120 (F := Ideal) x0 x1 x2 x3 x8 x9 x10 x11 x12 x13 x14 x15 x16 x17 x18 x19 x20 x21 x22 x23 x24 x25 (ix2 e j)
      = Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) j - Cert.Spec.mean128 (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25)) := by
  have hm : idx_main_v119 (ix2 e j) = ix2 e (0 : Fin 1) := funext fun a => Fin.ext (by match a with | ⟨0, _⟩ => rfl | ⟨1, _⟩ => rfl)
  rw [val_main_v120_apply, val_main_v119_apply, hm, upd1_lin, upd1_mean]
  rfl

theorem upd1_var (e : Fin 50000) :
    val_main_v118 (F := Ideal) x0 x1 x2 x3 x8 x9 x10 x11 x12 x13 x14 x15 x16 x17 x18 x19 x20 x21 x22 x23 x24 x25 (ix2 e (0 : Fin 1))
      = Cert.Spec.mean128 (fun k => (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) k - Cert.Spec.mean128 (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25))) * (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) k - Cert.Spec.mean128 (Cert.Spec.updLin (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25)))) := by
  have hi : ∀ k : Fin 128, idx_main_v115 (idx_main_v116 (ix2 e (0 : Fin 1))) k = ix2 e k := fun k => funext fun a => Fin.ext (by match a with | ⟨0, _⟩ => rfl | ⟨1, _⟩ => rfl)
  rw [val_main_v118_apply, val_main_v116_apply, val_main_v115_apply, val_main_v117_apply, val_main_cst_8_apply, val_main_cst_9_apply]
  simp only [hi, val_main_v114_apply, upd1_cen, Ideal.ofBits_def, Ideal.ofBits_zero_f32, zero_add]
  rfl

theorem upd1_at (e : Fin 50000) (j : Fin 128) :
    val_main_v138 (F := Ideal) x0 x1 x2 x3 x8 x9 x10 x11 x12 x13 x14 x15 x16 x17 x18 x19 x20 x21 x22 x23 x24 x25 x26 x27 (ix2 e j)
      = Cert.Spec.updRow (Cert.Spec.row (val_main_v3 (F := Ideal) x0 x8 x9) e) (Cert.Spec.row (val_main_v98 (F := Ideal) x0 x1 x2 x3 x8 x9 x10 x11 x12 x13 x14 x15 x16 x17 x18 x19 x20 x21 x22 x23) e) (val_main_v101 (F := Ideal) x24) (val_main_v105 (F := Ideal) x25) (val_main_v128 (F := Ideal) x26) (val_main_v133 (F := Ideal) x27) j := by
  have hv : idx_main_v124 (ix2 e j) = ix2 e (0 : Fin 1) := funext fun a => Fin.ext (by match a with | ⟨0, _⟩ => rfl | ⟨1, _⟩ => rfl)
  have hg : idx_main_v129 (ix2 e j) = ix2 (0 : Fin 1) j := funext fun a => Fin.ext (by match a with | ⟨0, _⟩ => rfl | ⟨1, _⟩ => rfl)
  have hs : idx_main_v134 (ix2 e j) = ix2 (0 : Fin 1) j := funext fun a => Fin.ext (by match a with | ⟨0, _⟩ => rfl | ⟨1, _⟩ => rfl)
  rw [val_main_v138_apply, val_main_v137_apply, val_main_v136_apply, val_main_v135_apply, val_main_v130_apply,
    val_main_v125_apply, val_main_v124_apply, val_main_v123_apply, val_main_v122_apply, val_main_v121_apply,
    val_main_cst_10_apply, val_main_v129_apply, val_main_v134_apply, val_main_call3_v0_apply, val_main_call3_cst_apply,
    val_main_call4_v0_apply, val_main_call4_cst_apply, hv, hg, hs, upd1_cen', upd1_var]
  rfl

end Layer1

theorem upd1 :
    val_main_v138 (F := Ideal) x0 x1 x2 x3 x8 x9 x10 x11 x12 x13 x14 x15 x16 x17 x18 x19 x20 x21 x22 x23 x24 x25 x26 x27
      = Cert.Spec.updSpec (val_main_v3 (F := Ideal) x0 x8 x9)
          (val_main_v98 (F := Ideal) x0 x1 x2 x3 x8 x9 x10 x11 x12 x13 x14 x15 x16 x17 x18 x19 x20 x21 x22 x23)
          (val_main_v101 (F := Ideal) x24)
          (val_main_v105 (F := Ideal) x25)
          (val_main_v128 (F := Ideal) x26)
          (val_main_v133 (F := Ideal) x27) := by
  funext i
  obtain ⟨e, j, rfl⟩ : ∃ (e : Fin 50000) (j : Fin 128), i = ix2 e j := ⟨i 0, i 1, eq_ix2 i⟩
  exact upd1_at x0 x1 x2 x3 x8 x9 x10 x11 x12 x13 x14 x15 x16 x17 x18 x19 x20 x21 x22 x23 x24 x25 x26 x27 e j

section Layer2

theorem upd2_cat (e : Fin 50000) (k : Fin 256) :
    val_main_v224 (F := Ideal) x0 x1 x2 x3 x8 x9 x10 x11 x12 x13 x14 x15 x16 x17 x18 x19 x20 x21 x22 x23 x24 x25 x26 x27 (ix2 e k)
      = Cert.Spec.cat2 (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) k := by
  unfold val_main_v224
  exact cat2_row _ _ _ e k

theorem upd2_lin (e : Fin 50000) (j : Fin 128) :
    val_main_v232 (F := Ideal) x0 x1 x2 x3 x8 x9 x10 x11 x12 x13 x14 x15 x16 x17 x18 x19 x20 x21 x22 x23 x24 x25 x26 x27 (ix2 e j)
      = Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) j := by
  have hl : ∀ k : Fin 256, lidx_main_v227 (ix2 e j) k = ix2 e k := fun k => funext fun a => Fin.ext (by match a with | ⟨0, _⟩ => rfl | ⟨1, _⟩ => rfl)
  have hr : ∀ k : Fin 256, ridx_main_v227 (ix2 e j) k = ix2 k j := fun k => funext fun a => Fin.ext (by match a with | ⟨0, _⟩ => rfl | ⟨1, _⟩ => rfl)
  have hb : idx_main_v231 (ix2 e j) = ix2 (0 : Fin 1) j := funext fun a => Fin.ext (by match a with | ⟨0, _⟩ => rfl | ⟨1, _⟩ => rfl)
  rw [val_main_v232_apply, val_main_v227_apply, val_main_v231_apply, hb]
  simp only [hl, hr, upd2_cat]
  rfl

theorem upd2_mean (e : Fin 50000) :
    val_main_v236 (F := Ideal) x0 x1 x2 x3 x8 x9 x10 x11 x12 x13 x14 x15 x16 x17 x18 x19 x20 x21 x22 x23 x24 x25 x26 x27 (ix2 e (0 : Fin 1))
      = Cert.Spec.mean128 (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25)) := by
  have hi : ∀ k : Fin 128, idx_main_v233 (idx_main_v234 (ix2 e (0 : Fin 1))) k = ix2 e k := fun k => funext fun a => Fin.ext (by match a with | ⟨0, _⟩ => rfl | ⟨1, _⟩ => rfl)
  rw [val_main_v236_apply, val_main_v234_apply, val_main_v233_apply, val_main_v235_apply, val_main_cst_19_apply, val_main_cst_20_apply]
  simp only [hi, upd2_lin, Ideal.ofBits_def, Ideal.ofBits_zero_f32, zero_add]
  rfl

theorem upd2_cen (e : Fin 50000) (j : Fin 128) :
    val_main_v238 (F := Ideal) x0 x1 x2 x3 x8 x9 x10 x11 x12 x13 x14 x15 x16 x17 x18 x19 x20 x21 x22 x23 x24 x25 x26 x27 (ix2 e j)
      = Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) j - Cert.Spec.mean128 (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25)) := by
  have hm : idx_main_v237 (ix2 e j) = ix2 e (0 : Fin 1) := funext fun a => Fin.ext (by match a with | ⟨0, _⟩ => rfl | ⟨1, _⟩ => rfl)
  rw [val_main_v238_apply, val_main_v237_apply, hm, upd2_lin, upd2_mean]
  rfl

theorem upd2_cen' (e : Fin 50000) (j : Fin 128) :
    val_main_v245 (F := Ideal) x0 x1 x2 x3 x8 x9 x10 x11 x12 x13 x14 x15 x16 x17 x18 x19 x20 x21 x22 x23 x24 x25 x26 x27 (ix2 e j)
      = Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) j - Cert.Spec.mean128 (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25)) := by
  have hm : idx_main_v244 (ix2 e j) = ix2 e (0 : Fin 1) := funext fun a => Fin.ext (by match a with | ⟨0, _⟩ => rfl | ⟨1, _⟩ => rfl)
  rw [val_main_v245_apply, val_main_v244_apply, hm, upd2_lin, upd2_mean]
  rfl

theorem upd2_var (e : Fin 50000) :
    val_main_v243 (F := Ideal) x0 x1 x2 x3 x8 x9 x10 x11 x12 x13 x14 x15 x16 x17 x18 x19 x20 x21 x22 x23 x24 x25 x26 x27 (ix2 e (0 : Fin 1))
      = Cert.Spec.mean128 (fun k => (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) k - Cert.Spec.mean128 (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25))) * (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) k - Cert.Spec.mean128 (Cert.Spec.updLin (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25)))) := by
  have hi : ∀ k : Fin 128, idx_main_v240 (idx_main_v241 (ix2 e (0 : Fin 1))) k = ix2 e k := fun k => funext fun a => Fin.ext (by match a with | ⟨0, _⟩ => rfl | ⟨1, _⟩ => rfl)
  rw [val_main_v243_apply, val_main_v241_apply, val_main_v240_apply, val_main_v242_apply, val_main_cst_21_apply, val_main_cst_22_apply]
  simp only [hi, val_main_v239_apply, upd2_cen, Ideal.ofBits_def, Ideal.ofBits_zero_f32, zero_add]
  rfl

theorem upd2_at (e : Fin 50000) (j : Fin 128) :
    val_main_v263 (F := Ideal) x0 x1 x2 x3 x8 x9 x10 x11 x12 x13 x14 x15 x16 x17 x18 x19 x20 x21 x22 x23 x24 x25 x26 x27 (ix2 e j)
      = Cert.Spec.updRow (Cert.Spec.row (val_main_v138 (F := Ideal) x0 x1 x2 x3 x8 x9 x10 x11 x12 x13 x14 x15 x16 x17 x18 x19 x20 x21 x22 x23 x24 x25 x26 x27) e) (Cert.Spec.row (val_main_v223 (F := Ideal) x0 x1 x2 x3 x8 x9 x10 x11 x12 x13 x14 x15 x16 x17 x18 x19 x20 x21 x22 x23 x24 x25 x26 x27) e) (val_main_v226 (F := Ideal) x24) (val_main_v230 (F := Ideal) x25) (val_main_v253 (F := Ideal) x26) (val_main_v258 (F := Ideal) x27) j := by
  have hv : idx_main_v249 (ix2 e j) = ix2 e (0 : Fin 1) := funext fun a => Fin.ext (by match a with | ⟨0, _⟩ => rfl | ⟨1, _⟩ => rfl)
  have hg : idx_main_v254 (ix2 e j) = ix2 (0 : Fin 1) j := funext fun a => Fin.ext (by match a with | ⟨0, _⟩ => rfl | ⟨1, _⟩ => rfl)
  have hs : idx_main_v259 (ix2 e j) = ix2 (0 : Fin 1) j := funext fun a => Fin.ext (by match a with | ⟨0, _⟩ => rfl | ⟨1, _⟩ => rfl)
  rw [val_main_v263_apply, val_main_v262_apply, val_main_v261_apply, val_main_v260_apply, val_main_v255_apply,
    val_main_v250_apply, val_main_v249_apply, val_main_v248_apply, val_main_v247_apply, val_main_v246_apply,
    val_main_cst_23_apply, val_main_v254_apply, val_main_v259_apply, val_main_call8_v0_apply, val_main_call8_cst_apply,
    val_main_call9_v0_apply, val_main_call9_cst_apply, hv, hg, hs, upd2_cen', upd2_var]
  rfl

end Layer2

theorem upd2 :
    val_main_v263 (F := Ideal) x0 x1 x2 x3 x8 x9 x10 x11 x12 x13 x14 x15 x16 x17 x18 x19 x20 x21 x22 x23 x24 x25 x26 x27
      = Cert.Spec.updSpec (val_main_v138 (F := Ideal) x0 x1 x2 x3 x8 x9 x10 x11 x12 x13 x14 x15 x16 x17 x18 x19 x20 x21 x22 x23 x24 x25 x26 x27)
          (val_main_v223 (F := Ideal) x0 x1 x2 x3 x8 x9 x10 x11 x12 x13 x14 x15 x16 x17 x18 x19 x20 x21 x22 x23 x24 x25 x26 x27)
          (val_main_v226 (F := Ideal) x24)
          (val_main_v230 (F := Ideal) x25)
          (val_main_v253 (F := Ideal) x26)
          (val_main_v258 (F := Ideal) x27) := by
  funext i
  obtain ⟨e, j, rfl⟩ : ∃ (e : Fin 50000) (j : Fin 128), i = ix2 e j := ⟨i 0, i 1, eq_ix2 i⟩
  exact upd2_at x0 x1 x2 x3 x8 x9 x10 x11 x12 x13 x14 x15 x16 x17 x18 x19 x20 x21 x22 x23 x24 x25 x26 x27 e j

end Cert.ReferenceIdeal.RefVal

end
-- ==== Proof.Idx.lean ====
-- Wrapping a negative edge endpoint, and the in-range test of the masked gather.
import Idealize.ShloMosaic.PureOps.Ideal
import Idealize.ShloMosaic.Lib.ValueIdx
import Idealize.ShloMosaic.Lib.StableHlo.Predicate
import Idealize.ShloMosaic.PureOps.Ideal.Laws
import proofs.«416830_j43473658970339_2_alg».proof.Proof.Spec

noncomputable section

open scoped BigOperators

namespace Cert.Idx

open Idealize.ShloMosaic Idealize.ShloMosaic.ValueIdx Cert.Spec

abbrev wrap (hb : (⟨0, ![]⟩ : Shape).BroadcastsInDim ⟨1, ![400000]⟩ (![] : Fin 0 → Fin 1))
    (idx : IVec ⟨1, ![400000]⟩ 32) : IVec ⟨1, ![400000]⟩ 32 :=
  select (cmpi .slt idx (broadcastInDim ⟨1, ![400000]⟩ ![] hb (constantI ⟨0, ![]⟩ 32 0#32)))
    (addi idx (broadcastInDim ⟨1, ![400000]⟩ ![] hb (constantI ⟨0, ![]⟩ 32 50000#32))) idx

abbrev col (hc : (⟨1, ![400000]⟩ : Shape).BroadcastsInDim ⟨2, ![400000, 1]⟩ (![0] : Fin 1 → Fin 2))
    (v : IVec ⟨1, ![400000]⟩ 32) : IVec ⟨2, ![400000, 1]⟩ 32 :=
  broadcastInDim ⟨2, ![400000, 1]⟩ ![0] hc v

abbrev mask (hz : (⟨0, ![]⟩ : Shape).BroadcastsInDim ⟨2, ![400000, 1]⟩ (![] : Fin 0 → Fin 2))
    (h11 : (⟨2, ![1, 1]⟩ : Shape).BroadcastsInDim ⟨2, ![400000, 1]⟩ (![0, 1] : Fin 2 → Fin 2))
    (h1 : (⟨1, ![1]⟩ : Shape).BroadcastsInDim ⟨2, ![1, 1]⟩ (![1] : Fin 1 → Fin 2))
    (hr : (⟨2, ![400000, 1]⟩ : Shape).ReducesTo [1] ⟨1, ![400000]⟩) (h0 : 0 < (⟨0, ![]⟩ : Shape).numel)
    (wc : IVec ⟨2, ![400000, 1]⟩ 32) : IVec ⟨1, ![400000]⟩ 1 :=
  Host.reduce IntOp.andi
    (andi (cmpi .sge wc (broadcastInDim ⟨2, ![400000, 1]⟩ ![] hz (constantI ⟨0, ![]⟩ 32 0#32)))
      (cmpi .sle wc (broadcastInDim ⟨2, ![400000, 1]⟩ ![0, 1] h11
        (broadcastInDim ⟨2, ![1, 1]⟩ ![1] h1 (constantI ⟨1, ![1]⟩ 32 49999#32)))))
    (constantI ⟨0, ![]⟩ 1 1#1) hr h0

theorem bcast_rows_apply {α : Type} {m : Nat}
    (h : (⟨1, ![400000]⟩ : Shape).BroadcastsInDim ⟨2, ![400000, m]⟩ (![0] : Fin 1 → Fin 2))
    (v : (⟨1, ![400000]⟩ : Shape).Idx → α) (e : Fin 400000) (k : Fin m) :
    broadcastInDim ⟨2, ![400000, m]⟩ ![0] h v (ix2 e k) = v (ix1 e) := by
  simp only [broadcastInDim]
  congr 1
  funext a
  have ha : a = 0 := Subsingleton.elim _ _
  subst ha
  apply Fin.ext
  split
  · next h1 => change 400000 = 1 at h1; omega
  · rfl

theorem col_apply (hc : (⟨1, ![400000]⟩ : Shape).BroadcastsInDim ⟨2, ![400000, 1]⟩ (![0] : Fin 1 → Fin 2))
    (v : IVec ⟨1, ![400000]⟩ 32) (e : Fin 400000) : col hc v (ix2 e 0) = v (ix1 e) :=
  bcast_rows_apply hc v e 0

theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_all_one f l (fun n hn => h n (List.mem_cons_of_mem _ hn))

theorem wrap_word (a : BitVec 32) (h : -50000 ≤ a.toInt ∧ a.toInt < 50000) :
    IntOp.andi (IntOp.cmpi .sge (Scalar.select (IntOp.cmpi .slt a 0#32) (IntOp.addi a 50000#32) a) 0#32)
               (IntOp.cmpi .sle (Scalar.select (IntOp.cmpi .slt a 0#32) (IntOp.addi a 50000#32) a) 49999#32) = 1#1 := by
  have h0 : (0#32 : BitVec 32).toInt = 0 := by decide
  have h5 : (50000#32 : BitVec 32).toInt = 50000 := by decide
  have h4 : (49999#32 : BitVec 32).toInt = 49999 := by decide
  have hw : 0 ≤ (Scalar.select (IntOp.cmpi .slt a 0#32) (IntOp.addi a 50000#32) a).toInt
      ∧ (Scalar.select (IntOp.cmpi .slt a 0#32) (IntOp.addi a 50000#32) a).toInt ≤ 49999 := by
    by_cases hn : a.toInt < 0
    · have hc : IntOp.cmpi .slt a 0#32 = 1#1 := by
        simp only [IntOp.cmpi, BitVec.slt, h0, StableHlo.Predicate.ofBool_eq_one_iff, decide_eq_true_eq]; exact hn
      rw [hc, select_one]
      show 0 ≤ (a + 50000#32).toInt ∧ (a + 50000#32).toInt ≤ 49999
      rw [BitVec.toInt_add, h5, Int.bmod_def]
      omega
    · have hc : IntOp.cmpi .slt a 0#32 = 0#1 := by
        apply eq_zero_of_ne_one
        simp only [IntOp.cmpi, BitVec.slt, h0, StableHlo.Predicate.ofBool_eq_one_iff, decide_eq_true_eq]; exact hn
      rw [hc, select_zero]
      omega
  obtain ⟨hw0, hw1⟩ := hw
  have c1 : IntOp.cmpi .sge (Scalar.select (IntOp.cmpi .slt a 0#32) (IntOp.addi a 50000#32) a) 0#32 = 1#1 := by
    simp only [IntOp.cmpi, BitVec.sle, h0, StableHlo.Predicate.ofBool_eq_one_iff, decide_eq_true_eq]; exact hw0
  have c2 : IntOp.cmpi .sle (Scalar.select (IntOp.cmpi .slt a 0#32) (IntOp.addi a 50000#32) a) 49999#32 = 1#1 := by
    simp only [IntOp.cmpi, BitVec.sle, h4, StableHlo.Predicate.ofBool_eq_one_iff, decide_eq_true_eq]; exact hw1
  rw [c1, c2]; decide

theorem mask_eq_one (hz : (⟨0, ![]⟩ : Shape).BroadcastsInDim ⟨2, ![400000, 1]⟩ (![] : Fin 0 → Fin 2))
    (h11 : (⟨2, ![1, 1]⟩ : Shape).BroadcastsInDim ⟨2, ![400000, 1]⟩ (![0, 1] : Fin 2 → Fin 2))
    (h1 : (⟨1, ![1]⟩ : Shape).BroadcastsInDim ⟨2, ![1, 1]⟩ (![1] : Fin 1 → Fin 2))
    (hr : (⟨2, ![400000, 1]⟩ : Shape).ReducesTo [1] ⟨1, ![400000]⟩) (h0 : 0 < (⟨0, ![]⟩ : Shape).numel)
    (wc : IVec ⟨2, ![400000, 1]⟩ 32) (e : Fin 400000)
    (hw : IntOp.andi (IntOp.cmpi .sge (wc (ix2 e 0)) 0#32) (IntOp.cmpi .sle (wc (ix2 e 0)) 49999#32) = 1#1) :
    mask hz h11 h1 hr h0 wc (ix1 e) = 1#1 := by
  show Host.reduce IntOp.andi _ _ hr h0 (ix1 e) = 1#1
  rw [Host.reduce_eq_foldl]
  refine foldl_andi_all_one _ _ ?_
  intro i hi
  have hd : hr.drop i = ix1 e := of_decide_eq_true (List.mem_filter.1 hi).2
  have hv : (hr.drop i 0 : Nat) = i 0 := Shape.ReducesTo.drop_apply_val hr i 0
  have hi0 : i 0 = e := by
    apply Fin.ext; rw [← hv, hd]
  have hi1 : i = ix2 e 0 := by
    funext b
    match b with
    | ⟨0, _⟩ => exact hi0
    | ⟨1, _⟩ =>
      apply Fin.ext
      show (i 1).val = 0
      have := idx2_lt1 i
      omega
  rw [hi1]
  exact hw

theorem take_fill_row
    (hb : (⟨0, ![]⟩ : Shape).BroadcastsInDim ⟨1, ![400000]⟩ (![] : Fin 0 → Fin 1))
    (hc : (⟨1, ![400000]⟩ : Shape).BroadcastsInDim ⟨2, ![400000, 1]⟩ (![0] : Fin 1 → Fin 2))
    (hz : (⟨0, ![]⟩ : Shape).BroadcastsInDim ⟨2, ![400000, 1]⟩ (![] : Fin 0 → Fin 2))
    (h11 : (⟨2, ![1, 1]⟩ : Shape).BroadcastsInDim ⟨2, ![400000, 1]⟩ (![0, 1] : Fin 2 → Fin 2))
    (h1 : (⟨1, ![1]⟩ : Shape).BroadcastsInDim ⟨2, ![1, 1]⟩ (![1] : Fin 1 → Fin 2))
    (hr : (⟨2, ![400000, 1]⟩ : Shape).ReducesTo [1] ⟨1, ![400000]⟩) (h0 : 0 < (⟨0, ![]⟩ : Shape).numel)
    (h4 : (⟨1, ![400000]⟩ : Shape).BroadcastsInDim ⟨2, ![400000, 128]⟩ (![0] : Fin 1 → Fin 2))
    (idx : IVec ⟨1, ![400000]⟩ 32) (G fillv : Arr 400000 128) (e : Fin 400000) (k : Fin 128)
    (h : -50000 ≤ (idx (ix1 e)).toInt ∧ (idx (ix1 e)).toInt < 50000) :
    select (broadcastInDim ⟨2, ![400000, 128]⟩ ![0] h4 (mask hz h11 h1 hr h0 (col hc (wrap hb idx)))) G fillv (ix2 e k)
      = G (ix2 e k) := by
  have hm : mask hz h11 h1 hr h0 (col hc (wrap hb idx)) (ix1 e) = 1#1 := by
    apply mask_eq_one
    rw [col_apply]
    exact wrap_word (idx (ix1 e)) h
  show Scalar.select (broadcastInDim ⟨2, ![400000, 128]⟩ ![0] h4 (mask hz h11 h1 hr h0 (col hc (wrap hb idx))) (ix2 e k))
      (G (ix2 e k)) (fillv (ix2 e k)) = G (ix2 e k)
  rw [bcast_rows_apply, hm, select_one]

def live (dcol : IVec ⟨2, ![400000, 1]⟩ 32) (e : Fin 400000) : Prop :=
  0 ≤ (dcol (ix2 e 0)).toInt ∧ (dcol (ix2 e 0)).toInt < 50000

section Scatter

variable (d : ScatterDims ⟨2, ![50000, 128]⟩ ⟨2, ![400000, 1]⟩ ⟨2, ![400000, 128]⟩)

theorem start_row (hu : d.updateWindowDims = [1]) (hs : d.scatterDimsToOperandDims = [0]) (hv : d.indexVectorDim = 1)
    (dcol : IVec ⟨2, ![400000, 1]⟩ 32) (j : (⟨2, ![400000, 128]⟩ : Shape).Idx) :
    d.start j dcol 0 = (dcol (ix2 (j 0) 0)).toInt := by
  have hm : (0 : Fin 2) ∈ d.scatterDimsToOperandDims := by rw [hs]; exact List.mem_singleton.mpr rfl
  have hU : d.uScatter = [0] := by
    show Shape.kept _ d.updateWindowDims = _
    rw [hu]; decide
  have key : ∀ (n : Nat) (hn : n < d.uScatter.length), d.uScatter[n] = (0 : Fin 2) := by
    intro n hn
    have hall : ∀ x ∈ d.uScatter, x = (0 : Fin 2) := by
      rw [hU]; intro x hx; exact List.mem_singleton.1 hx
    exact hall _ (List.getElem_mem hn)
  have jv : ∀ x : Fin 2, x = 0 → (j x).val = (j 0).val := by
    intro x hx; subst hx; rfl
  unfold ScatterDims.start
  rw [dif_pos hm]
  congr 2
  funext b
  match b with
  | ⟨0, _⟩ =>
    unfold ScatterDims.siIdx
    rw [dif_neg (by rw [hv]; exact Nat.zero_ne_one)]
    unfold ScatterDims.siCoord
    apply Fin.ext
    simp only [Fin.val_cast]
    exact jv _ (key _ _)
  | ⟨1, _⟩ =>
    unfold ScatterDims.siIdx
    rw [dif_pos (by rw [hv])]
    apply Fin.ext
    show List.idxOf (0 : Fin 2) d.scatterDimsToOperandDims = 0
    rw [hs]; simp

theorem window_row (hi : d.insertedWindowDims = [0]) (j : (⟨2, ![400000, 128]⟩ : Shape).Idx) :
    d.window j 0 = 0 := by
  unfold ScatterDims.window
  rw [dif_neg]
  show (0 : Fin 2) ∉ Shape.kept _ d.insertedWindowDims
  rw [hi]; decide

theorem live_of_resultIdx (hu : d.updateWindowDims = [1]) (hi : d.insertedWindowDims = [0])
    (hs : d.scatterDimsToOperandDims = [0]) (hv : d.indexVectorDim = 1)
    (dcol : IVec ⟨2, ![400000, 1]⟩ 32) (j : (⟨2, ![400000, 128]⟩ : Shape).Idx)
    (i : (⟨2, ![50000, 128]⟩ : Shape).Idx) (h : d.resultIdx? j dcol = some i) : live dcol (j 0) := by
  unfold ScatterDims.resultIdx? at h
  split at h
  · next hall =>
    have h0 := hall 0
    rw [start_row d hu hs hv, window_row d hi] at h0
    have hsz : (⟨2, ![50000, 128]⟩ : Shape).size 0 = 50000 := rfl
    rw [hsz] at h0
    unfold live
    omega
  · exact absurd h (by simp)

end Scatter

theorem scatterAdd_congr_live
    (d : ScatterDims ⟨2, ![50000, 128]⟩ ⟨2, ![400000, 1]⟩ ⟨2, ![400000, 128]⟩)
    (hu : d.updateWindowDims = [1]) (hi : d.insertedWindowDims = [0]) (hs : d.scatterDimsToOperandDims = [0])
    (hv : d.indexVectorDim = 1)
    (z : Arr 50000 128) (dcol : IVec ⟨2, ![400000, 1]⟩ 32) (u u' : Arr 400000 128)
    (huu : ∀ e, live dcol e → ∀ k : Fin 128, u (ix2 e k) = u' (ix2 e k)) :
    Ideal.hostScatterAdd d z dcol u = Ideal.hostScatterAdd d z dcol u' := by
  funext i
  show z i + ∑ j ∈ Finset.univ.filter (fun j => d.resultIdx? j dcol = some i), u j
     = z i + ∑ j ∈ Finset.univ.filter (fun j => d.resultIdx? j dcol = some i), u' j
  refine congrArg (z i + ·) (Finset.sum_congr rfl ?_)
  intro j hj
  have hl : live dcol (j 0) := live_of_resultIdx d hu hi hs hv dcol j i (Finset.mem_filter.1 hj).2
  exact (congrArg u (eq_ix2 j)).trans ((huu (j 0) hl (j 1)).trans (congrArg u' (eq_ix2 j)).symm)

theorem agg_congr
    (d : ScatterDims ⟨2, ![50000, 128]⟩ ⟨2, ![400000, 1]⟩ ⟨2, ![400000, 128]⟩)
    (hu : d.updateWindowDims = [1]) (hi : d.insertedWindowDims = [0]) (hs : d.scatterDimsToOperandDims = [0])
    (hv : d.indexVectorDim = 1)
    (z : Arr 50000 128) (dcol : IVec ⟨2, ![400000, 1]⟩ 32)
    (xi xi' xj xj' ea : Arr 400000 128) (et : Arr 400000 1)
    (W1 : Arr 384 128) (b1 : Arr 1 128) (W2 : Arr 128 128) (b2 : Arr 1 128)
    (W3 : Arr 384 128) (b3 : Arr 1 128) (W4 : Arr 128 128) (b4 : Arr 1 128)
    (W5 : Arr 256 64) (b5 : Arr 1 64) (W6 : Arr 64 1) (b6 : Arr 1 1)
    (hxi : ∀ e, live dcol e → ∀ k : Fin 128, xi (ix2 e k) = xi' (ix2 e k))
    (hxj : ∀ e, live dcol e → ∀ k : Fin 128, xj (ix2 e k) = xj' (ix2 e k)) :
    Ideal.hostScatterAdd d z dcol (msgSpec xi xj ea et W1 b1 W2 b2 W3 b3 W4 b4 W5 b5 W6 b6)
      = Ideal.hostScatterAdd d z dcol (msgSpec xi' xj' ea et W1 b1 W2 b2 W3 b3 W4 b4 W5 b5 W6 b6) := by
  refine scatterAdd_congr_live d hu hi hs hv z dcol _ _ ?_
  intro e he k
  exact msgSpec_congr_row e k (hxi e he) (hxj e he)

theorem live_col (hc : (⟨1, ![400000]⟩ : Shape).BroadcastsInDim ⟨2, ![400000, 1]⟩ (![0] : Fin 1 → Fin 2))
    (dst : IVec ⟨1, ![400000]⟩ 32) (e : Fin 400000) :
    live (col hc dst) e ↔ 0 ≤ (dst (ix1 e)).toInt ∧ (dst (ix1 e)).toInt < 50000 := by
  unfold live
  rw [col_apply]

end Cert.Idx

end
-- ==== Proof.KFoldBase.lean ====
-- Reading a buffer through the kernel program's boundaries; a reshape to one row or column is a broadcast.
import proofs.«416830_j43473658970339_2_alg».proof.Proof.Gen.KernelIdeal.Frame
import proofs.«416830_j43473658970339_2_alg».proof.Proof.KEmbed
import proofs.«416830_j43473658970339_2_alg».proof.Proof.KMsg
import proofs.«416830_j43473658970339_2_alg».proof.Proof.KUpd
import proofs.«416830_j43473658970339_2_alg».proof.Proof.RefRead
import proofs.«416830_j43473658970339_2_alg».proof.Proof.RMsg
import proofs.«416830_j43473658970339_2_alg».proof.Proof.RUpd
import proofs.«416830_j43473658970339_2_alg».proof.Proof.Idx
import Idealize.ShloMosaic.Lib.StableHlo.Run
import Idealize.ShloMosaic.Lib.Pipeline.Value
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

macro "fold_down" : tactic => `(tactic| first
  | (rw [W17_of_ne]; rotate_left; decide)
  | (rw [W15_of_ne]; rotate_left; decide)
  | (rw [W11_of_ne]; rotate_left; decide)
  | (rw [W9_of_ne]; rotate_left; decide)
  | (rw [W4_of_ne]; rotate_left; decide)
  | (rw [W2_of_ne]; rotate_left; decide)
  | (dsimp only [W20, W19, W18, W16, W14, W13, W12, W10, W8, W7, W6, W5, W3, W1]; simp only [hostOps0, hostOps1, hostOps2, hostOps2_1, hostOps2_2, hostOps2_3, hostOps3, hostOps4, hostOps4_1, hostOps4_2, hostOps5, hostOps6, hostOps6_1, hostOps6_2]; after_results))

theorem reshape_row_eq_bcast {α : Type} {n : Nat} (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  rw [shapeCast_apply v h j (ix1 (j 1)) (by
        rw [Shape.rowMajor_val_one, Shape.rowMajor_val_two]
        show (j 1).val = (j 0).val * n + (j 1).val
        rw [hj0]; omega),
      broadcastInDim_apply ![1] hb v j (ix1 (j 1)) (fun a => by
        match a with
        | ⟨0, _⟩ =>
          show (j 1).val = if n = 1 then 0 else (j 1).val
          split
          · have := (j 1).isLt; simp at this; omega
          · rfl)]

theorem reshape_col_eq_bcast {α : Type} {n : Nat} (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  rw [shapeCast_apply v h j (ix1 (j 0)) (by
        rw [Shape.rowMajor_val_one, Shape.rowMajor_val_two]
        show (j 0).val = (j 0).val * 1 + (j 1).val
        rw [hj1]; omega),
      broadcastInDim_apply ![0] hb v j (ix1 (j 0)) (fun a => by
        match a with
        | ⟨0, _⟩ =>
          show (j 0).val = if n = 1 then 0 else (j 0).val
          split
          · have := (j 0).isLt; simp at this; omega
          · rfl)]

end Cert.KernelIdeal.Fold

end
-- ==== Proof.KFoldA.lean ====
-- The two embedding regions' outputs are the reference's node and edge embeddings.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

theorem xh (c : Dev nD) : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)) := by
  refine (W2_arr m ρ c 3).trans ?_
  rw [Val.final0 (V1 m ρ) c, Cert.ReferenceIdeal.RefVal.embedN]
  have e0 : V1 m ρ c main_arg0 = (m ((c.tc : Thread nD τ).loc main_arg0)) := by show W1 m ρ c (Proc.devRef .tc main_arg0) = _; repeat fold_down
  have e8 : V1 m ρ c main_arg8 = (m ((c.tc : Thread nD τ).loc main_arg8)) := by show W1 m ρ c (Proc.devRef .tc main_arg8) = _; repeat fold_down
  have e9 : V1 m ρ c main_v0 = Cert.ReferenceIdeal.ReadP.val_main_v1 (F := Ideal) (m ((c.tc : Thread nD τ).loc main_arg9)) := by
    show W1 m ρ c (Proc.devRef .tc main_v0) = _
    repeat fold_down
    unfold Cert.ReferenceIdeal.ReadP.val_main_v1
    exact reshape_row_eq_bcast _ _ _
  rw [e0, e8, e9]

theorem ea (c : Dev nD) : W4 m ρ c (Proc.devRef .tc main_v3) = Cert.ReferenceIdeal.ReadP.val_main_v7 (F := Ideal) (m ((c.tc : Thread nD τ).loc main_arg1)) (m ((c.tc : Thread nD τ).loc main_arg10)) (m ((c.tc : Thread nD τ).loc main_arg11)) := by
  refine (W4_arr m ρ c 3).trans ?_
  rw [Val.final1 (V3 m ρ) c, Cert.ReferenceIdeal.RefVal.embedE]
  have e1 : V3 m ρ c main_arg1 = (m ((c.tc : Thread nD τ).loc main_arg1)) := by show W3 m ρ c (Proc.devRef .tc main_arg1) = _; repeat fold_down
  have e10 : V3 m ρ c main_arg10 = (m ((c.tc : Thread nD τ).loc main_arg10)) := by show W3 m ρ c (Proc.devRef .tc main_arg10) = _; repeat fold_down
  have e11 : V3 m ρ c main_v2 = Cert.ReferenceIdeal.ReadP.val_main_v5 (F := Ideal) (m ((c.tc : Thread nD τ).loc main_arg11)) := by
    show W3 m ρ c (Proc.devRef .tc main_v2) = _
    repeat fold_down
    unfold Cert.ReferenceIdeal.ReadP.val_main_v5
    exact reshape_row_eq_bcast _ _ _
  rw [e1, e10, e11]

end Cert.KernelIdeal.Fold

end
-- ==== Proof.KFoldB1.lean ====
-- First layer: the kernel's scatter-added messages are the reference's aggregate.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

theorem op_ea (c : Dev nD) (hea : W4 m ρ c (Proc.devRef .tc main_v3) = Cert.ReferenceIdeal.ReadP.val_main_v7 (F := Ideal) (m ((c.tc : Thread nD τ).loc main_arg1)) (m ((c.tc : Thread nD τ).loc main_arg10)) (m ((c.tc : Thread nD τ).loc main_arg11))) :
    V8 m ρ c main_v3 = Cert.ReferenceIdeal.ReadP.val_main_v7 (F := Ideal) (m ((c.tc : Thread nD τ).loc main_arg1)) (m ((c.tc : Thread nD τ).loc main_arg10)) (m ((c.tc : Thread nD τ).loc main_arg11)) := by
  show W8 m ρ c (Proc.devRef .tc main_v3) = _
  repeat fold_down
  exact hea

theorem op_et (c : Dev nD) :
    V8 m ρ c main_v9 = Cert.ReferenceIdeal.ReadP.val_main_v13 (F := Ideal) (m ((c.tc : Thread nD τ).loc main_arg3)) := by
  show W8 m ρ c (Proc.devRef .tc main_v9) = _
  repeat fold_down
  unfold Cert.ReferenceIdeal.ReadP.val_main_v13 Cert.ReferenceIdeal.ReadP.val_main_v12
  exact reshape_col_eq_bcast _ _ _

theorem op_dst (c : Dev nD) :
    W9 m ρ c (Proc.devRef .tc main_v7) = Cert.ReferenceIdeal.ReadP.val_main_v11 (F := Ideal) (m ((c.tc : Thread nD τ).loc main_arg2)) := by
  repeat fold_down
  unfold Cert.ReferenceIdeal.ReadP.val_main_v11 Cert.ReferenceIdeal.ReadP.val_main_v10
  rfl

set_option maxHeartbeats 1600000 in

theorem op_p13 (c : Dev nD) :
    V8 m ρ c main_v13 = Cert.ReferenceIdeal.ReadP.val_main_v30 (F := Ideal) (m ((c.tc : Thread nD τ).loc main_arg12)) := by
  show W8 m ρ c (Proc.devRef .tc main_v13) = _
  repeat fold_down
  unfold Cert.ReferenceIdeal.ReadP.val_main_v30 Cert.ReferenceIdeal.ReadP.val_main_v29
  rfl

set_option maxHeartbeats 1600000 in

theorem op_p16 (c : Dev nD) :
    V8 m ρ c main_v16 = Cert.ReferenceIdeal.ReadP.val_main_v34 (F := Ideal) (m ((c.tc : Thread nD τ).loc main_arg13)) := by
  show W8 m ρ c (Proc.devRef .tc main_v16) = _
  repeat fold_down
  unfold Cert.ReferenceIdeal.ReadP.val_main_v34 Cert.ReferenceIdeal.ReadP.val_main_v33 Cert.ReferenceIdeal.ReadP.val_main_v32
  exact reshape_row_eq_bcast _ _ _

set_option maxHeartbeats 1600000 in

theorem op_p18 (c : Dev nD) :
    V8 m ρ c main_v18 = Cert.ReferenceIdeal.ReadP.val_main_v39 (F := Ideal) (m ((c.tc : Thread nD τ).loc main_arg14)) := by
  show W8 m ρ c (Proc.devRef .tc main_v18) = _
  repeat fold_down
  unfold Cert.ReferenceIdeal.ReadP.val_main_v39 Cert.ReferenceIdeal.ReadP.val_main_v38
  rfl

set_option maxHeartbeats 1600000 in

theorem op_p21 (c : Dev nD) :
    V8 m ρ c main_v21 = Cert.ReferenceIdeal.ReadP.val_main_v43 (F := Ideal) (m ((c.tc : Thread nD τ).loc main_arg15)) := by
  show W8 m ρ c (Proc.devRef .tc main_v21) = _
  repeat fold_down
  unfold Cert.ReferenceIdeal.ReadP.val_main_v43 Cert.ReferenceIdeal.ReadP.val_main_v42 Cert.ReferenceIdeal.ReadP.val_main_v41
  exact reshape_row_eq_bcast _ _ _

set_option maxHeartbeats 1600000 in

theorem op_p23 (c : Dev nD) :
    V8 m ρ c main_v23 = Cert.ReferenceIdeal.ReadP.val_main_v47 (F := Ideal) (m ((c.tc : Thread nD τ).loc main_arg16)) := by
  show W8 m ρ c (Proc.devRef .tc main_v23) = _
  repeat fold_down
  unfold Cert.ReferenceIdeal.ReadP.val_main_v47 Cert.ReferenceIdeal.ReadP.val_main_v46
  rfl

set_option maxHeartbeats 1600000 in

theorem op_p26 (c : Dev nD) :
    V8 m ρ c main_v26 = Cert.ReferenceIdeal.ReadP.val_main_v51 (F := Ideal) (m ((c.tc : Thread nD τ).loc main_arg17)) := by
  show W8 m ρ c (Proc.devRef .tc main_v26) = _
  repeat fold_down
  unfold Cert.ReferenceIdeal.ReadP.val_main_v51 Cert.ReferenceIdeal.ReadP.val_main_v50 Cert.ReferenceIdeal.ReadP.val_main_v49
  exact reshape_row_eq_bcast _ _ _

set_option maxHeartbeats 1600000 in

theorem op_p28 (c : Dev nD) :
    V8 m ρ c main_v28 = Cert.ReferenceIdeal.ReadP.val_main_v56 (F := Ideal) (m ((c.tc : Thread nD τ).loc main_arg18)) := by
  show W8 m ρ c (Proc.devRef .tc main_v28) = _
  repeat fold_down
  unfold Cert.ReferenceIdeal.ReadP.val_main_v56 Cert.ReferenceIdeal.ReadP.val_main_v55
  rfl

set_option maxHeartbeats 1600000 in

theorem op_p31 (c : Dev nD) :
    V8 m ρ c main_v31 = Cert.ReferenceIdeal.ReadP.val_main_v60 (F := Ideal) (m ((c.tc : Thread nD τ).loc main_arg19)) := by
  show W8 m ρ c (Proc.devRef .tc main_v31) = _
  repeat fold_down
  unfold Cert.ReferenceIdeal.ReadP.val_main_v60 Cert.ReferenceIdeal.ReadP.val_main_v59 Cert.ReferenceIdeal.ReadP.val_main_v58
  exact reshape_row_eq_bcast _ _ _

set_option maxHeartbeats 1600000 in

theorem op_p33 (c : Dev nD) :
    V8 m ρ c main_v33 = Cert.ReferenceIdeal.ReadP.val_main_v65 (F := Ideal) (m ((c.tc : Thread nD τ).loc main_arg20)) := by
  show W8 m ρ c (Proc.devRef .tc main_v33) = _
  repeat fold_down
  unfold Cert.ReferenceIdeal.ReadP.val_main_v65 Cert.ReferenceIdeal.ReadP.val_main_v64
  rfl

set_option maxHeartbeats 1600000 in

theorem op_p36 (c : Dev nD) :
    V8 m ρ c main_v36 = Cert.ReferenceIdeal.ReadP.val_main_v69 (F := Ideal) (m ((c.tc : Thread nD τ).loc main_arg21)) := by
  show W8 m ρ c (Proc.devRef .tc main_v36) = _
  repeat fold_down
  unfold Cert.ReferenceIdeal.ReadP.val_main_v69 Cert.ReferenceIdeal.ReadP.val_main_v68 Cert.ReferenceIdeal.ReadP.val_main_v67
  exact reshape_row_eq_bcast _ _ _

set_option maxHeartbeats 1600000 in

theorem op_p38 (c : Dev nD) :
    V8 m ρ c main_v38 = Cert.ReferenceIdeal.ReadP.val_main_v74 (F := Ideal) (m ((c.tc : Thread nD τ).loc main_arg22)) := by
  show W8 m ρ c (Proc.devRef .tc main_v38) = _
  repeat fold_down
  unfold Cert.ReferenceIdeal.ReadP.val_main_v74 Cert.ReferenceIdeal.ReadP.val_main_v73
  rfl

set_option maxHeartbeats 1600000 in

theorem op_p41 (c : Dev nD) :
    V8 m ρ c main_v41 = Cert.ReferenceIdeal.ReadP.val_main_v78 (F := Ideal) (m ((c.tc : Thread nD τ).loc main_arg23)) := by
  show W8 m ρ c (Proc.devRef .tc main_v41) = _
  repeat fold_down
  unfold Cert.ReferenceIdeal.ReadP.val_main_v78 Cert.ReferenceIdeal.ReadP.val_main_v77 Cert.ReferenceIdeal.ReadP.val_main_v76
  exact reshape_row_eq_bcast _ _ _

set_option maxHeartbeats 4000000 in

theorem take_dst (c : Dev nD) :
    V8 m ρ c main_v10 =
      select (broadcastInDim S400000x128 ![0] bcast_S400000_S400000x128_0
          (Cert.Idx.mask bcast_S_S400000x1 bcast_S1x1_S400000x1_0_1 bcast_S1_S1x1_1 reducesTo_S400000x1_S400000_d1 h_S_
            (Cert.Idx.col bcast_S400000_S400000x1_0 (Cert.Idx.wrap bcast_S_S400000 (W5 m ρ c (Proc.devRef .tc main_v7))))))
        (Host.gather gather_S50000x128_S400000x1_S400000x128_1_0_n_n_0_1_1128 (W5 m ρ c (Proc.devRef .tc main_v1))
            (Cert.Idx.col bcast_S400000_S400000x1_0 (Cert.Idx.wrap bcast_S_S400000 (W5 m ρ c (Proc.devRef .tc main_v7)))))
        (broadcastInDim S400000x128 ![] bcast_S_S400000x128 (constant (F := Ideal) S_ .f32 0x7FC00000#32)) := by
  show W8 m ρ c (Proc.devRef .tc main_v10) = _
  dsimp only [W8, W7, W6]
  simp only [hostOps2_3, hostOps2_2, hostOps2_1]
  after_results_simp
  simp only [TRef.toBuf, TRef.ofBuf, cast_eq]

theorem w5_dst (c : Dev nD) :
    W5 m ρ c (Proc.devRef .tc main_v7) = Cert.ReferenceIdeal.ReadP.val_main_v11 (F := Ideal) (m ((c.tc : Thread nD τ).loc main_arg2)) := by
  repeat fold_down
  unfold Cert.ReferenceIdeal.ReadP.val_main_v11 Cert.ReferenceIdeal.ReadP.val_main_v10
  rfl

theorem w5_xh (c : Dev nD)
    (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9))) :
    W5 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)) := by
  repeat fold_down
  exact hxh

theorem op_xi (c : Dev nD)
    (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)))
    (e : Fin 400000) (k : Fin 128)
    (hl : 0 ≤ (Cert.ReferenceIdeal.ReadP.val_main_v11 (F := Ideal) (m ((c.tc : Thread nD τ).loc main_arg2)) (ix1 e)).toInt ∧ (Cert.ReferenceIdeal.ReadP.val_main_v11 (F := Ideal) (m ((c.tc : Thread nD τ).loc main_arg2)) (ix1 e)).toInt < 50000) :
    V8 m ρ c main_v10 (ix2 e k) = Cert.ReferenceIdeal.ReadP.val_main_v20 (F := Ideal) (m ((c.tc : Thread nD τ).loc main_arg0)) (m ((c.tc : Thread nD τ).loc main_arg2)) (m ((c.tc : Thread nD τ).loc main_arg8)) (m ((c.tc : Thread nD τ).loc main_arg9)) (ix2 e k) := by
  rw [take_dst m ρ c, w5_dst m ρ c, w5_xh m ρ c hxh]
  refine (Cert.Idx.take_fill_row _ _ _ _ _ _ _ _ _ _ _ e k ⟨by omega, hl.2⟩).trans ?_
  unfold Cert.ReferenceIdeal.ReadP.val_main_v20 Cert.ReferenceIdeal.ReadP.val_main_v19 Cert.ReferenceIdeal.ReadP.val_main_v18 Cert.ReferenceIdeal.ReadP.val_main_v15 Cert.ReferenceIdeal.ReadP.val_main_v17 Cert.ReferenceIdeal.ReadP.val_main_v14 Cert.ReferenceIdeal.ReadP.val_main_v16 Cert.ReferenceIdeal.ReadP.val_main_c Cert.ReferenceIdeal.ReadP.val_main_c_0
  rfl

set_option maxHeartbeats 4000000 in

theorem take_src (c : Dev nD) :
    V8 m ρ c main_v11 =
      select (broadcastInDim S400000x128 ![0] bcast_S400000_S400000x128_0
          (Cert.Idx.mask bcast_S_S400000x1 bcast_S1x1_S400000x1_0_1 bcast_S1_S1x1_1 reducesTo_S400000x1_S400000_d1 h_S_
            (Cert.Idx.col bcast_S400000_S400000x1_0 (Cert.Idx.wrap bcast_S_S400000 (W6 m ρ c (Proc.devRef .tc main_v5))))))
        (Host.gather gather_S50000x128_S400000x1_S400000x128_1_0_n_n_0_1_1128 (W6 m ρ c (Proc.devRef .tc main_v1))
            (Cert.Idx.col bcast_S400000_S400000x1_0 (Cert.Idx.wrap bcast_S_S400000 (W6 m ρ c (Proc.devRef .tc main_v5)))))
        (broadcastInDim S400000x128 ![] bcast_S_S400000x128 (constant (F := Ideal) S_ .f32 0x7FC00000#32)) := by
  show W8 m ρ c (Proc.devRef .tc main_v11) = _
  dsimp only [W8, W7]
  simp only [hostOps2_3, hostOps2_2]
  after_results_simp
  simp only [TRef.toBuf, TRef.ofBuf, cast_eq]

theorem w6_src (c : Dev nD) :
    W6 m ρ c (Proc.devRef .tc main_v5) = Cert.ReferenceIdeal.ReadP.val_main_v9 (F := Ideal) (m ((c.tc : Thread nD τ).loc main_arg2)) := by
  repeat fold_down
  unfold Cert.ReferenceIdeal.ReadP.val_main_v9 Cert.ReferenceIdeal.ReadP.val_main_v8
  rfl

theorem w6_xh (c : Dev nD) (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9))) :
    W6 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)) := by
  repeat fold_down
  exact hxh

theorem src_read (x2 : (⟨Cert.ReferenceIdeal.S2x400000, .i32⟩ : BufTy).Contents (Elt Ideal)) (e : Fin 400000) :
    Cert.ReferenceIdeal.ReadP.val_main_v9 (F := Ideal) x2 (ix1 e) = x2 (ix2 0 e) := by
  rw [Cert.ReferenceIdeal.ReadP.val_main_v9_apply, Cert.ReferenceIdeal.ReadP.val_main_v8_apply]
  congr 1
  funext a
  match a with
  | ⟨0, _⟩ => rfl
  | ⟨1, _⟩ => exact Fin.ext (Nat.mod_eq_of_lt e.isLt)

theorem op_xj (c : Dev nD) (hsrc : ∀ e : Fin 400000, -50000 ≤ ((m ((c.tc : Thread nD τ).loc main_arg2)) (ix2 0 e)).toInt ∧ ((m ((c.tc : Thread nD τ).loc main_arg2)) (ix2 0 e)).toInt < 50000) (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9))) (e : Fin 400000) (k : Fin 128) :
    V8 m ρ c main_v11 (ix2 e k) = Cert.ReferenceIdeal.ReadP.val_main_v27 (F := Ideal) (m ((c.tc : Thread nD τ).loc main_arg0)) (m ((c.tc : Thread nD τ).loc main_arg2)) (m ((c.tc : Thread nD τ).loc main_arg8)) (m ((c.tc : Thread nD τ).loc main_arg9)) (ix2 e k) := by
  rw [take_src m ρ c, w6_src m ρ c, w6_xh m ρ c hxh]
  refine (Cert.Idx.take_fill_row _ _ _ _ _ _ _ _ _ _ _ e k (by rw [src_read]; exact hsrc e)).trans ?_
  unfold Cert.ReferenceIdeal.ReadP.val_main_v27 Cert.ReferenceIdeal.ReadP.val_main_v26 Cert.ReferenceIdeal.ReadP.val_main_v25 Cert.ReferenceIdeal.ReadP.val_main_v22 Cert.ReferenceIdeal.ReadP.val_main_v24 Cert.ReferenceIdeal.ReadP.val_main_v21 Cert.ReferenceIdeal.ReadP.val_main_v23 Cert.ReferenceIdeal.ReadP.val_main_c_1 Cert.ReferenceIdeal.ReadP.val_main_c_2
  rfl

set_option maxHeartbeats 2000000 in

theorem agg1 (c : Dev nD) (hsrc : ∀ e : Fin 400000, -50000 ≤ ((m ((c.tc : Thread nD τ).loc main_arg2)) (ix2 0 e)).toInt ∧ ((m ((c.tc : Thread nD τ).loc main_arg2)) (ix2 0 e)).toInt < 50000)
    (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)))
    (hea : W4 m ρ c (Proc.devRef .tc main_v3) = Cert.ReferenceIdeal.ReadP.val_main_v7 (F := Ideal) (m ((c.tc : Thread nD τ).loc main_arg1)) (m ((c.tc : Thread nD τ).loc main_arg10)) (m ((c.tc : Thread nD τ).loc main_arg11))) :
    W10 m ρ c (Proc.devRef .tc main_v45) = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  fold_down
  unfold Cert.ReferenceIdeal.ReadP.val_main_v98
  rw [Cert.ReferenceIdeal.RefVal.msg1]
  have eu : W9 m ρ c (Proc.devRef .tc main_v42) = Cert.Spec.msgSpec (V8 m ρ c main_v10) (V8 m ρ c main_v11) (V8 m ρ c main_v3) (V8 m ρ c main_v9) (V8 m ρ c main_v13) (V8 m ρ c main_v16) (V8 m ρ c main_v18) (V8 m ρ c main_v21) (V8 m ρ c main_v23) (V8 m ρ c main_v26) (V8 m ρ c main_v28) (V8 m ρ c main_v31) (V8 m ρ c main_v33) (V8 m ρ c main_v36) (V8 m ρ c main_v38) (V8 m ρ c main_v41) :=
    (W9_arr m ρ c 16).trans (Val.final2 (V8 m ρ) c)
  rw [eu, op_dst m ρ c, op_ea m ρ c hea, op_et m ρ c, op_p13 m ρ c, op_p16 m ρ c, op_p18 m ρ c, op_p21 m ρ c, op_p23 m ρ c, op_p26 m ρ c, op_p28 m ρ c, op_p31 m ρ c, op_p33 m ρ c, op_p36 m ρ c, op_p38 m ρ c, op_p41 m ρ c]
  unfold Cert.ReferenceIdeal.ReadP.val_main_v96 Cert.ReferenceIdeal.ReadP.val_main_cst_5 Cert.ReferenceIdeal.ReadP.val_main_v97
  refine Cert.Idx.agg_congr scatter_S50000x128_S400000x1_S400000x128_1_0_0_1 rfl rfl rfl rfl _ _ _ _ _ _ _ _ _ _ _ _ _ _ _ _ _ _ _ _ ?_ ?_
  · intro e he k
    exact op_xi m ρ c hxh e k ((Cert.Idx.live_col _ _ e).1 he)
  · intro e _ k
    exact op_xj m ρ c hsrc hxh e k

end Cert.KernelIdeal.Fold

end
-- ==== Proof.KFoldB2.lean ====
-- First layer: the update region's output is the reference's updated node features.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 2000000 in

theorem arg24_W9 (c : Dev nD) : W9 m ρ c (Proc.devRef .tc main_arg24) = (m ((c.tc : Thread nD τ).loc main_arg24)) := by
  repeat fold_down

set_option maxHeartbeats 2000000 in

theorem arg25_W9 (c : Dev nD) : W9 m ρ c (Proc.devRef .tc main_arg25) = (m ((c.tc : Thread nD τ).loc main_arg25)) := by
  repeat fold_down

set_option maxHeartbeats 2000000 in

theorem arg26_W9 (c : Dev nD) : W9 m ρ c (Proc.devRef .tc main_arg26) = (m ((c.tc : Thread nD τ).loc main_arg26)) := by
  repeat fold_down

set_option maxHeartbeats 2000000 in

theorem arg27_W9 (c : Dev nD) : W9 m ρ c (Proc.devRef .tc main_arg27) = (m ((c.tc : Thread nD τ).loc main_arg27)) := by
  repeat fold_down

theorem op_v1 (c : Dev nD)
    (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9))) :
    W10 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)) := by
  repeat fold_down
  exact hxh

theorem op_v47 (c : Dev nD) :
    W10 m ρ c (Proc.devRef .tc main_v47) = Cert.ReferenceIdeal.ReadP.val_main_v101 (F := Ideal) (m ((c.tc : Thread nD τ).loc main_arg24)) := by
  fold_down
  rw [arg24_W9]
  unfold Cert.ReferenceIdeal.ReadP.val_main_v101 Cert.ReferenceIdeal.ReadP.val_main_v100
  rfl

theorem op_v50 (c : Dev nD) :
    W10 m ρ c (Proc.devRef .tc main_v50) = Cert.ReferenceIdeal.ReadP.val_main_v105 (F := Ideal) (m ((c.tc : Thread nD τ).loc main_arg25)) := by
  fold_down
  rw [arg25_W9]
  unfold Cert.ReferenceIdeal.ReadP.val_main_v105 Cert.ReferenceIdeal.ReadP.val_main_v104 Cert.ReferenceIdeal.ReadP.val_main_v103
  exact reshape_row_eq_bcast _ _ _

theorem op_v53 (c : Dev nD) :
    W10 m ρ c (Proc.devRef .tc main_v53) = Cert.ReferenceIdeal.ReadP.val_main_v128 (F := Ideal) (m ((c.tc : Thread nD τ).loc main_arg26)) := by
  fold_down
  rw [arg26_W9]
  unfold Cert.ReferenceIdeal.ReadP.val_main_v128 Cert.ReferenceIdeal.ReadP.val_main_v127 Cert.ReferenceIdeal.ReadP.val_main_v126
  exact reshape_row_eq_bcast _ _ _

theorem op_v56 (c : Dev nD) :
    W10 m ρ c (Proc.devRef .tc main_v56) = Cert.ReferenceIdeal.ReadP.val_main_v133 (F := Ideal) (m ((c.tc : Thread nD τ).loc main_arg27)) := by
  fold_down
  rw [arg27_W9]
  unfold Cert.ReferenceIdeal.ReadP.val_main_v133 Cert.ReferenceIdeal.ReadP.val_main_v132 Cert.ReferenceIdeal.ReadP.val_main_v131
  exact reshape_row_eq_bcast _ _ _

theorem upd1 (c : Dev nD)
    (hxh : W2 m ρ c (Proc.devRef .tc main_v1) = Cert.ReferenceIdeal.ReadP.val_main_v3 (F := Ideal) (m ((c.tc : Thread nD τ).loc main_arg0)) (m ((c.tc : Thread nD τ).loc main_arg8)) (m ((c.tc : Thread nD τ).loc main_arg9)))
    (hagg : W10 m ρ c (Proc.devRef .tc main_v45) = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) :
    W11 m ρ c (Proc.devRef .tc main_v57) = Cert.ReferenceIdeal.ReadP.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  refine (W11_arr m ρ c 6).trans ?_
  rw [Cert.KernelIdeal.Val.final3 (V10 m ρ) c, Cert.ReferenceIdeal.RefVal.upd1]
  have e1 := op_v1 m ρ c hxh
  have e47 := op_v47 m ρ c
  have e50 := op_v50 m ρ c
  have e53 := op_v53 m ρ c
  have e56 := op_v56 m ρ c
  show Cert.Spec.updSpec (W10 m ρ c (Proc.devRef .tc main_v1)) (W10 m ρ c (Proc.devRef .tc main_v45)) (W10 m ρ c (Proc.devRef .tc main_v47)) (W10 m ρ c (Proc.devRef .tc main_v50)) (W10 m ρ c (Proc.devRef .tc main_v53)) (W10 m ρ c (Proc.devRef .tc main_v56)) = _
  rw [e1, hagg, e47, e50, e53, e56]

end Cert.KernelIdeal.Fold

end
-- ==== Proof.KFoldC1.lean ====
-- Second layer: the kernel's scatter-added messages are the reference's aggregate.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

local macro "skip_ops" b:ident : tactic =>
  `(tactic| exact StableHlo.after_of_forall_not_mem (b := Proc.devRef .tc $b) _ _ (List.forall_iff_forall_mem.mp (by
      simp only [hostOps0, hostOps1, hostOps2, hostOps2_1, hostOps2_2, hostOps2_3, hostOps3, hostOps4, hostOps4_1, hostOps4_2, hostOps5,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

private theorem args_at11 (c : Dev nD) {b : Ref sig .tc}
    (hb : b ∈ ([main_arg12, main_arg13, main_arg14, main_arg15, main_arg16, main_arg17, main_arg18, main_arg19, main_arg20, main_arg21, main_arg22, main_arg23] : List (Ref sig .tc))) :
    W11 m ρ c (Proc.devRef .tc b) = m ((c : Thread nD τ).loc b) := by
  simp only [List.mem_cons, List.not_mem_nil, or_false] at hb
  rcases hb with rfl | rfl | rfl | rfl | rfl | rfl | rfl | rfl | rfl | rfl | rfl | rfl
  all_goals
    refine (W11_of_ne m ρ c _ (by decide)).trans <| (StableHlo.after_of_forall_not_mem _ _ ?_).trans <| (W9_of_ne m ρ c _ (by decide)).trans <| (StableHlo.after_of_forall_not_mem _ _ ?_).trans <| (StableHlo.after_of_forall_not_mem _ _ ?_).trans <|
      (StableHlo.after_of_forall_not_mem _ _ ?_).trans <| (StableHlo.after_of_forall_not_mem _ _ ?_).trans <| (W4_of_ne m ρ c _ (by decide)).trans <| (StableHlo.after_of_forall_not_mem _ _ ?_).trans <|
      (W2_of_ne m ρ c _ (by decide)).trans <| StableHlo.after_of_forall_not_mem _ _ ?_
    all_goals exact List.forall_iff_forall_mem.mp (by
      simp only [hostOps0, hostOps1, hostOps2, hostOps2_1, hostOps2_2, hostOps2_3, hostOps3,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))

private theorem arg2_at4 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by skip_ops main_arg2
    _ = W1 m ρ c (Proc.devRef .tc main_arg2) := W2_of_ne m ρ c main_arg2 (by decide)
    _ = W0 m ρ c (Proc.devRef .tc main_arg2) := by skip_ops main_arg2
    _ = m ((c : Thread nD τ).loc main_arg2) := rfl

private theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by skip_ops main_arg3
    _ = W1 m ρ c (Proc.devRef .tc main_arg3) := W2_of_ne m ρ c main_arg3 (by decide)
    _ = W0 m ρ c (Proc.devRef .tc main_arg3) := by skip_ops main_arg3
    _ = m ((c : Thread nD τ).loc main_arg3) := rfl

private theorem dst_at5 (c : Dev nD) : W5 m ρ c (Proc.devRef .tc main_v7) = (Cert.ReferenceIdeal.ReadP.val_main_v11 (F := Ideal) (m ((c.tc : Thread nD τ).loc main_arg2))) := by
  fold_down
  rw [arg2_at4 m ρ c]
  rfl

private theorem src_at5 (c : Dev nD) : W5 m ρ c (Proc.devRef .tc main_v5) = (Cert.ReferenceIdeal.ReadP.val_main_v9 (F := Ideal) (m ((c.tc : Thread nD τ).loc main_arg2))) := by
  fold_down
  rw [arg2_at4 m ρ c]
  rfl

private theorem et_at5 (c : Dev nD) : W5 m ρ c (Proc.devRef .tc main_v9) = Cert.ReferenceIdeal.ReadP.val_main_v13 (F := Ideal) (m ((c.tc : Thread nD τ).loc main_arg3)) := by
  fold_down
  rw [arg3_at4 m ρ c]
  unfold Cert.ReferenceIdeal.ReadP.val_main_v13 Cert.ReferenceIdeal.ReadP.val_main_v12
  exact reshape_col_eq_bcast _ _ _

private theorem dst_at11 (c : Dev nD) : W11 m ρ c (Proc.devRef .tc main_v7) = (Cert.ReferenceIdeal.ReadP.val_main_v11 (F := Ideal) (m ((c.tc : Thread nD τ).loc main_arg2))) :=
  calc W11 m ρ c (Proc.devRef .tc main_v7)
    _ = W10 m ρ c (Proc.devRef .tc main_v7) := W11_of_ne m ρ c main_v7 (by decide)
    _ = W9 m ρ c (Proc.devRef .tc main_v7) := by skip_ops main_v7
    _ = W8 m ρ c (Proc.devRef .tc main_v7) := W9_of_ne m ρ c main_v7 (by decide)
    _ = W7 m ρ c (Proc.devRef .tc main_v7) := by skip_ops main_v7
    _ = W6 m ρ c (Proc.devRef .tc main_v7) := by skip_ops main_v7
    _ = W5 m ρ c (Proc.devRef .tc main_v7) := by skip_ops main_v7
    _ = (Cert.ReferenceIdeal.ReadP.val_main_v11 (F := Ideal) (m ((c.tc : Thread nD τ).loc main_arg2))) := dst_at5 m ρ c

private theorem dst_at15 (c : Dev nD) : W15 m ρ c (Proc.devRef .tc main_v7) = (Cert.ReferenceIdeal.ReadP.val_main_v11 (F := Ideal) (m ((c.tc : Thread nD τ).loc main_arg2))) :=
  calc W15 m ρ c (Proc.devRef .tc main_v7)
    _ = W14 m ρ c (Proc.devRef .tc main_v7) := W15_of_ne m ρ c main_v7 (by decide)
    _ = W13 m ρ c (Proc.devRef .tc main_v7) := by skip_ops main_v7
    _ = W12 m ρ c (Proc.devRef .tc main_v7) := by skip_ops main_v7
    _ = W11 m ρ c (Proc.devRef .tc main_v7) := by skip_ops main_v7
    _ = (Cert.ReferenceIdeal.ReadP.val_main_v11 (F := Ideal) (m ((c.tc : Thread nD τ).loc main_arg2))) := dst_at11 m ρ c

private theorem src_at11 (c : Dev nD) : W11 m ρ c (Proc.devRef .tc main_v5) = (Cert.ReferenceIdeal.ReadP.val_main_v9 (F := Ideal) (m ((c.tc : Thread nD τ).loc main_arg2))) :=
  calc W11 m ρ c (Proc.devRef .tc main_v5)
    _ = W10 m ρ c (Proc.devRef .tc main_v5) := W11_of_ne m ρ c main_v5 (by decide)
    _ = W9 m ρ c (Proc.devRef .tc main_v5) := by skip_ops main_v5
    _ = W8 m ρ c (Proc.devRef .tc main_v5) := W9_of_ne m ρ c main_v5 (by decide)
    _ = W7 m ρ c (Proc.devRef .tc main_v5) := by skip_ops main_v5
    _ = W6 m ρ c (Proc.devRef .tc main_v5) := by skip_ops main_v5
    _ = W5 m ρ c (Proc.devRef .tc main_v5) := by skip_ops main_v5
    _ = (Cert.ReferenceIdeal.ReadP.val_main_v9 (F := Ideal) (m ((c.tc : Thread nD τ).loc main_arg2))) := src_at5 m ρ c

private theorem et_at14 (c : Dev nD) : V14 m ρ c main_v9 = Cert.ReferenceIdeal.ReadP.val_main_v13 (F := Ideal) (m ((c.tc : Thread nD τ).loc main_arg3)) :=
  calc W14 m ρ c (Proc.devRef .tc main_v9)
    _ = W13 m ρ c (Proc.devRef .tc main_v9) := by skip_ops main_v9
    _ = W12 m ρ c (Proc.devRef .tc main_v9) := by skip_ops main_v9
    _ = W11 m ρ c (Proc.devRef .tc main_v9) := by skip_ops main_v9
    _ = W10 m ρ c (Proc.devRef .tc main_v9) := W11_of_ne m ρ c main_v9 (by decide)
    _ = W9 m ρ c (Proc.devRef .tc main_v9) := by skip_ops main_v9
    _ = W8 m ρ c (Proc.devRef .tc main_v9) := (W9_arr m ρ c 3).trans (((dat2 (V8 m ρ) c).arrAt_in 3 rfl _).trans (A_eq2 (V8 m ρ) c 3))
    _ = W7 m ρ c (Proc.devRef .tc main_v9) := by skip_ops main_v9
    _ = W6 m ρ c (Proc.devRef .tc main_v9) := by skip_ops main_v9
    _ = W5 m ρ c (Proc.devRef .tc main_v9) := by skip_ops main_v9
    _ = Cert.ReferenceIdeal.ReadP.val_main_v13 (F := Ideal) (m ((c.tc : Thread nD τ).loc main_arg3)) := et_at5 m ρ c

private theorem ea_at14 (c : Dev nD) : V14 m ρ c main_v3 = W4 m ρ c (Proc.devRef .tc main_v3) :=
  calc W14 m ρ c (Proc.devRef .tc main_v3)
    _ = W13 m ρ c (Proc.devRef .tc main_v3) := by skip_ops main_v3
    _ = W12 m ρ c (Proc.devRef .tc main_v3) := by skip_ops main_v3
    _ = W11 m ρ c (Proc.devRef .tc main_v3) := by skip_ops main_v3
    _ = W10 m ρ c (Proc.devRef .tc main_v3) := W11_of_ne m ρ c main_v3 (by decide)
    _ = W9 m ρ c (Proc.devRef .tc main_v3) := by skip_ops main_v3
    _ = W8 m ρ c (Proc.devRef .tc main_v3) := (W9_arr m ρ c 2).trans (((dat2 (V8 m ρ) c).arrAt_in 2 rfl _).trans (A_eq2 (V8 m ρ) c 2))
    _ = W7 m ρ c (Proc.devRef .tc main_v3) := by skip_ops main_v3
    _ = W6 m ρ c (Proc.devRef .tc main_v3) := by skip_ops main_v3
    _ = W5 m ρ c (Proc.devRef .tc main_v3) := by skip_ops main_v3
    _ = W4 m ρ c (Proc.devRef .tc main_v3) := by skip_ops main_v3

private theorem src_row (a2 : (⟨S2x400000, .i32⟩ : BufTy).Contents (Elt Ideal)) (e : Fin 400000) :
    Cert.ReferenceIdeal.ReadP.val_main_v9 (F := Ideal) a2 (ix1 e) = a2 (ix2 0 e) := by
  rw [Cert.ReferenceIdeal.ReadP.val_main_v9_apply, Cert.ReferenceIdeal.ReadP.val_main_v8_apply]
  refine congrArg a2 (funext fun a => Fin.ext ?_)
  match a with
  | ⟨0, _⟩ => rfl
  | ⟨1, _⟩ => exact Nat.mod_eq_of_lt e.isLt

private theorem ofBuf_toBuf {T : BufTy} (x : StableHlo.TRef sig T) (v : T.Contents (Elt Ideal)) : x.ofBuf (x.toBuf v) = v := by
  obtain ⟨r, h, h2, h3⟩ := x
  subst h
  rfl

private theorem ofBuf_v7 (p1 : (main_v7 : Ref sig .tc).ty = (⟨S400000, .i32⟩ : BufTy)) (p2 p3) (v : (main_v7 : Ref sig .tc).ty.Contents (Elt Ideal)) :
    (StableHlo.TRef.of (T := ⟨S400000, .i32⟩) main_v7 p1 p2 p3).ofBuf v = v := rfl
private theorem ofBuf_v5 (p1 : (main_v5 : Ref sig .tc).ty = (⟨S400000, .i32⟩ : BufTy)) (p2 p3) (v : (main_v5 : Ref sig .tc).ty.Contents (Elt Ideal)) :
    (StableHlo.TRef.of (T := ⟨S400000, .i32⟩) main_v5 p1 p2 p3).ofBuf v = v := rfl
private theorem ofBuf_v57 (p1 : (main_v57 : Ref sig .tc).ty = (⟨S50000x128, .f32⟩ : BufTy)) (p2 p3) (v : (main_v57 : Ref sig .tc).ty.Contents (Elt Ideal)) :
    (StableHlo.TRef.of (T := ⟨S50000x128, .f32⟩) main_v57 p1 p2 p3).ofBuf v = v := rfl
private theorem toBuf_v58 (p1 : (main_v58 : Ref sig .tc).ty = (⟨S400000x128, .f32⟩ : BufTy)) (p2 p3) (t : (⟨S400000x128, .f32⟩ : BufTy).Contents (Elt Ideal)) :
    (StableHlo.TRef.of (T := ⟨S400000x128, .f32⟩) main_v58 p1 p2 p3).toBuf t = t := rfl
private theorem toBuf_v59 (p1 : (main_v59 : Ref sig .tc).ty = (⟨S400000x128, .f32⟩ : BufTy)) (p2 p3) (t : (⟨S400000x128, .f32⟩ : BufTy).Contents (Elt Ideal)) :
    (StableHlo.TRef.of (T := ⟨S400000x128, .f32⟩) main_v59 p1 p2 p3).toBuf t = t := rfl

private theorem take_dst_at12 (c : Dev nD) (X : (⟨S50000x128, .f32⟩ : BufTy).Contents (Elt Ideal)) (hX : W11 m ρ c (Proc.devRef .tc main_v57) = X) :
    W12 m ρ c (Proc.devRef .tc main_v58) = (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v11 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v11 (F := Ideal) (m ((c.tc : Thread nD τ).loc main_arg2))))))
      (broadcastInDim S400000x128 ![] bcast_S_S400000x128 (constant (F := Ideal) S_ .f32 0x7FC00000#32))) := by
  dsimp only [W12]
  simp only [hostOps4]
  after_results_simp
  simp only [ofBuf_toBuf]
  rw [dst_at11 m ρ c, hX]
  simp only [ofBuf_v7, ofBuf_v57, toBuf_v58]

private theorem take_dst_at14 (c : Dev nD) (X : (⟨S50000x128, .f32⟩ : BufTy).Contents (Elt Ideal)) (hX : W11 m ρ c (Proc.devRef .tc main_v57) = X) :
    V14 m ρ c main_v58 = (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v11 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v11 (F := Ideal) (m ((c.tc : Thread nD τ).loc main_arg2))))))
      (broadcastInDim S400000x128 ![] bcast_S_S400000x128 (constant (F := Ideal) S_ .f32 0x7FC00000#32))) :=
  calc W14 m ρ c (Proc.devRef .tc main_v58)
    _ = W13 m ρ c (Proc.devRef .tc main_v58) := by skip_ops main_v58
    _ = W12 m ρ c (Proc.devRef .tc main_v58) := by skip_ops main_v58
    _ = _ := take_dst_at12 m ρ c X hX

private theorem take_src_at13 (c : Dev nD) (X : (⟨S50000x128, .f32⟩ : BufTy).Contents (Elt Ideal)) (hX : W11 m ρ c (Proc.devRef .tc main_v57) = X) :
    W13 m ρ c (Proc.devRef .tc main_v59) = (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v9 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v9 (F := Ideal) (m ((c.tc : Thread nD τ).loc main_arg2))))))
      (broadcastInDim S400000x128 ![] bcast_S_S400000x128 (constant (F := Ideal) S_ .f32 0x7FC00000#32))) := by
  dsimp only [W13]
  simp only [hostOps4_1]
  after_results_simp
  simp only [ofBuf_toBuf]
  rw [src_at11 m ρ c, hX]
  simp only [ofBuf_v5, ofBuf_v57, toBuf_v59]

private theorem take_src_at14 (c : Dev nD) (X : (⟨S50000x128, .f32⟩ : BufTy).Contents (Elt Ideal)) (hX : W11 m ρ c (Proc.devRef .tc main_v57) = X) :
    V14 m ρ c main_v59 = (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v9 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v9 (F := Ideal) (m ((c.tc : Thread nD τ).loc main_arg2))))))
      (broadcastInDim S400000x128 ![] bcast_S_S400000x128 (constant (F := Ideal) S_ .f32 0x7FC00000#32))) :=
  calc W14 m ρ c (Proc.devRef .tc main_v59)
    _ = W13 m ρ c (Proc.devRef .tc main_v59) := by skip_ops main_v59
    _ = _ := take_src_at13 m ρ c X hX

private theorem p_main_v61 (c : Dev nD) : V14 m ρ c main_v61 = Cert.ReferenceIdeal.ReadP.val_main_v155 (F := Ideal) (m ((c.tc : Thread nD τ).loc main_arg12)) := by
  show W14 m ρ c (Proc.devRef .tc main_v61) = _
  fold_down
  rw [args_at11 m ρ c (b := main_arg12) (by decide)]
  rfl

private theorem p_main_v64 (c : Dev nD) : V14 m ρ c main_v64 = Cert.ReferenceIdeal.ReadP.val_main_v159 (F := Ideal) (m ((c.tc : Thread nD τ).loc main_arg13)) := by
  show W14 m ρ c (Proc.devRef .tc main_v64) = _
  fold_down
  rw [args_at11 m ρ c (b := main_arg13) (by decide)]
  unfold Cert.ReferenceIdeal.ReadP.val_main_v159
  exact reshape_row_eq_bcast _ _ _

private theorem p_main_v66 (c : Dev nD) : V14 m ρ c main_v66 = Cert.ReferenceIdeal.ReadP.val_main_v164 (F := Ideal) (m ((c.tc : Thread nD τ).loc main_arg14)) := by
  show W14 m ρ c (Proc.devRef .tc main_v66) = _
  fold_down
  rw [args_at11 m ρ c (b := main_arg14) (by decide)]
  rfl

private theorem p_main_v69 (c : Dev nD) : V14 m ρ c main_v69 = Cert.ReferenceIdeal.ReadP.val_main_v168 (F := Ideal) (m ((c.tc : Thread nD τ).loc main_arg15)) := by
  show W14 m ρ c (Proc.devRef .tc main_v69) = _
  fold_down
  rw [args_at11 m ρ c (b := main_arg15) (by decide)]
  unfold Cert.ReferenceIdeal.ReadP.val_main_v168
  exact reshape_row_eq_bcast _ _ _

private theorem p_main_v71 (c : Dev nD) : V14 m ρ c main_v71 = Cert.ReferenceIdeal.ReadP.val_main_v172 (F := Ideal) (m ((c.tc : Thread nD τ).loc main_arg16)) := by
  show W14 m ρ c (Proc.devRef .tc main_v71) = _
  fold_down
  rw [args_at11 m ρ c (b := main_arg16) (by decide)]
  rfl

private theorem p_main_v74 (c : Dev nD) : V14 m ρ c main_v74 = Cert.ReferenceIdeal.ReadP.val_main_v176 (F := Ideal) (m ((c.tc : Thread nD τ).loc main_arg17)) := by
  show W14 m ρ c (Proc.devRef .tc main_v74) = _
  fold_down
  rw [args_at11 m ρ c (b := main_arg17) (by decide)]
  unfold Cert.ReferenceIdeal.ReadP.val_main_v176
  exact reshape_row_eq_bcast _ _ _

private theorem p_main_v76 (c : Dev nD) : V14 m ρ c main_v76 = Cert.ReferenceIdeal.ReadP.val_main_v181 (F := Ideal) (m ((c.tc : Thread nD τ).loc main_arg18)) := by
  show W14 m ρ c (Proc.devRef .tc main_v76) = _
  fold_down
  rw [args_at11 m ρ c (b := main_arg18) (by decide)]
  rfl

private theorem p_main_v79 (c : Dev nD) : V14 m ρ c main_v79 = Cert.ReferenceIdeal.ReadP.val_main_v185 (F := Ideal) (m ((c.tc : Thread nD τ).loc main_arg19)) := by
  show W14 m ρ c (Proc.devRef .tc main_v79) = _
  fold_down
  rw [args_at11 m ρ c (b := main_arg19) (by decide)]
  unfold Cert.ReferenceIdeal.ReadP.val_main_v185
  exact reshape_row_eq_bcast _ _ _

private theorem p_main_v81 (c : Dev nD) : V14 m ρ c main_v81 = Cert.ReferenceIdeal.ReadP.val_main_v190 (F := Ideal) (m ((c.tc : Thread nD τ).loc main_arg20)) := by
  show W14 m ρ c (Proc.devRef .tc main_v81) = _
  fold_down
  rw [args_at11 m ρ c (b := main_arg20) (by decide)]
  rfl

private theorem p_main_v84 (c : Dev nD) : V14 m ρ c main_v84 = Cert.ReferenceIdeal.ReadP.val_main_v194 (F := Ideal) (m ((c.tc : Thread nD τ).loc main_arg21)) := by
  show W14 m ρ c (Proc.devRef .tc main_v84) = _
  fold_down
  rw [args_at11 m ρ c (b := main_arg21) (by decide)]
  unfold Cert.ReferenceIdeal.ReadP.val_main_v194
  exact reshape_row_eq_bcast _ _ _

private theorem p_main_v86 (c : Dev nD) : V14 m ρ c main_v86 = Cert.ReferenceIdeal.ReadP.val_main_v199 (F := Ideal) (m ((c.tc : Thread nD τ).loc main_arg22)) := by
  show W14 m ρ c (Proc.devRef .tc main_v86) = _
  fold_down
  rw [args_at11 m ρ c (b := main_arg22) (by decide)]
  rfl

private theorem p_main_v89 (c : Dev nD) : V14 m ρ c main_v89 = Cert.ReferenceIdeal.ReadP.val_main_v203 (F := Ideal) (m ((c.tc : Thread nD τ).loc main_arg23)) := by
  show W14 m ρ c (Proc.devRef .tc main_v89) = _
  fold_down
  rw [args_at11 m ρ c (b := main_arg23) (by decide)]
  unfold Cert.ReferenceIdeal.ReadP.val_main_v203
  exact reshape_row_eq_bcast _ _ _

private theorem agg2_kernel (c : Dev nD) (X : (⟨S50000x128, .f32⟩ : BufTy).Contents (Elt Ideal)) (hX : W11 m ρ c (Proc.devRef .tc main_v57) = X)
    (EA : (⟨S400000x128, .f32⟩ : BufTy).Contents (Elt Ideal)) (hEA : W4 m ρ c (Proc.devRef .tc main_v3) = EA) :
    W16 m ρ c (Proc.devRef .tc main_v93)
      = Host.scatterAdd scatter_S50000x128_S400000x1_S400000x128_1_0_0_1 (broadcastInDim S50000x128 ![] bcast_S_S50000x128 (constant (F := Ideal) S_ .f32 0x00000000#32)) (broadcastInDim S400000x1 ![0] bcast_S400000_S400000x1_0 (Cert.ReferenceIdeal.ReadP.val_main_v11 (F := Ideal) (m ((c.tc : Thread nD τ).loc main_arg2))))
          (Cert.Spec.msgSpec (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v11 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v11 (F := Ideal) (m ((c.tc : Thread nD τ).loc main_arg2))))))
      (broadcastInDim S400000x128 ![] bcast_S_S400000x128 (constant (F := Ideal) S_ .f32 0x7FC00000#32))) (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v9 (F := Ideal) (m ((c.tc : Thread nD τ).loc main_arg2)))))))
      (Host.gather gather_S50000x128_S400000x1_S400000x128_1_0_n_n_0_1_1128 X (Cert.Idx.col bcast_S400000_S400000x1_0 (Cert.Idx.wrap bcast_S_S400000 (Cert.ReferenceIdeal.ReadP.val_main_v9 (F := Ideal) (m ((c.tc : Thread nD τ).loc main_arg2))))))
      (broadcastInDim S400000x128 ![] bcast_S_S400000x128 (constant (F := Ideal) S_ .f32 0x7FC00000#32))) EA (Cert.ReferenceIdeal.ReadP.val_main_v13 (F := Ideal) (m ((c.tc : Thread nD τ).loc main_arg3))) (Cert.ReferenceIdeal.ReadP.val_main_v155 (F := Ideal) (m ((c.tc : Thread nD τ).loc main_arg12))) (Cert.ReferenceIdeal.ReadP.val_main_v159 (F := Ideal) (m ((c.tc : Thread nD τ).loc main_arg13))) (Cert.ReferenceIdeal.ReadP.val_main_v164 (F := Ideal) (m ((c.tc : Thread nD τ).loc main_arg14))) (Cert.ReferenceIdeal.ReadP.val_main_v168 (F := Ideal) (m ((c.tc : Thread nD τ).loc main_arg15))) (Cert.ReferenceIdeal.ReadP.val_main_v172 (F := Ideal) (m ((c.tc : Thread nD τ).loc main_arg16))) (Cert.ReferenceIdeal.ReadP.val_main_v176 (F := Ideal) (m ((c.tc : Thread nD τ).loc main_arg17))) (Cert.ReferenceIdeal.ReadP.val_main_v181 (F := Ideal) (m ((c.tc : Thread nD τ).loc main_arg18))) (Cert.ReferenceIdeal.ReadP.val_main_v185 (F := Ideal) (m ((c.tc : Thread nD τ).loc main_arg19))) (Cert.ReferenceIdeal.ReadP.val_main_v190 (F := Ideal) (m ((c.tc : Thread nD τ).loc main_arg20))) (Cert.ReferenceIdeal.ReadP.val_main_v194 (F := Ideal) (m ((c.tc : Thread nD τ).loc main_arg21))) (Cert.ReferenceIdeal.ReadP.val_main_v199 (F := Ideal) (m ((c.tc : Thread nD τ).loc main_arg22))) (Cert.ReferenceIdeal.ReadP.val_main_v203 (F := Ideal) (m ((c.tc : Thread nD τ).loc main_arg23)))) := by
  show W16 m ρ c (Proc.devRef .tc main_v93) = _
  fold_down
  rw [show W15 m ρ c (Proc.devRef .tc main_v90) = (dat4 (V14 m ρ) c).arrAt 16 cfg4.N from W15_arr m ρ c 16,
    Val.final4 (V14 m ρ) c, dst_at15 m ρ c,
    take_dst_at14 m ρ c X hX, take_src_at14 m ρ c X hX, (ea_at14 m ρ c).trans hEA, et_at14 m ρ c,
    p_main_v61 m ρ c, p_main_v64 m ρ c, p_main_v66 m ρ c, p_main_v69 m ρ c, p_main_v71 m ρ c, p_main_v74 m ρ c, p_main_v76 m ρ c, p_main_v79 m ρ c, p_main_v81 m ρ c, p_main_v84 m ρ c, p_main_v86 m ρ c, p_main_v89 m ρ c]

theorem agg2 (c : Dev nD) (hsrc : ∀ e : Fin 400000, -50000 ≤ ((m ((c.tc : Thread nD τ).loc main_arg2)) (ix2 0 e)).toInt ∧ ((m ((c.tc : Thread nD τ).loc main_arg2)) (ix2 0 e)).toInt < 50000)
    (hx1 : W11 m ρ c (Proc.devRef .tc main_v57) = Cert.ReferenceIdeal.ReadP.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
    (hea : W4 m ρ c (Proc.devRef .tc main_v3) = Cert.ReferenceIdeal.ReadP.val_main_v7 (F := Ideal) (m ((c.tc : Thread nD τ).loc main_arg1)) (m ((c.tc : Thread nD τ).loc main_arg10)) (m ((c.tc : Thread nD τ).loc main_arg11))) :
    W16 m ρ c (Proc.devRef .tc main_v93) = Cert.ReferenceIdeal.ReadP.val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [agg2_kernel m ρ c _ hx1 _ hea]
  unfold Cert.ReferenceIdeal.ReadP.val_main_v223
  rw [Cert.ReferenceIdeal.RefVal.msg2]
  have hxi : ∀ e, Cert.Idx.live (Cert.Idx.col bcast_S400000_S400000x1_0 (Cert.ReferenceIdeal.ReadP.val_main_v11 (F := Ideal) (m ((c.tc : Thread nD τ).loc main_arg2)))) e → ∀ k : Fin 128,
      (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v11 (F := Ideal) (m ((c.tc : Thread nD τ).loc main_arg2)))))))
      (Host.gather gather_S50000x128_S400000x1_S400000x128_1_0_n_n_0_1_1128 (Cert.ReferenceIdeal.ReadP.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.Idx.col bcast_S400000_S400000x1_0 (Cert.Idx.wrap bcast_S_S400000 (Cert.ReferenceIdeal.ReadP.val_main_v11 (F := Ideal) (m ((c.tc : Thread nD τ).loc main_arg2))))))
      (broadcastInDim S400000x128 ![] bcast_S_S400000x128 (constant (F := Ideal) S_ .f32 0x7FC00000#32))) (ix2 e k) = (Cert.ReferenceIdeal.ReadP.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (ix2 e k) := by
    intro e he k
    have hr := (Cert.Idx.live_col bcast_S400000_S400000x1_0 (Cert.ReferenceIdeal.ReadP.val_main_v11 (F := Ideal) (m ((c.tc : Thread nD τ).loc main_arg2))) e).1 he
    exact Cert.Idx.take_fill_row bcast_S_S400000 bcast_S400000_S400000x1_0 bcast_S_S400000x1 bcast_S1x1_S400000x1_0_1 bcast_S1_S1x1_1 reducesTo_S400000x1_S400000_d1 h_S_ bcast_S400000_S400000x128_0 (Cert.ReferenceIdeal.ReadP.val_main_v11 (F := Ideal) (m ((c.tc : Thread nD τ).loc main_arg2))) _ _ e k ⟨by have := hr.1; omega, hr.2⟩
  have hxj : ∀ e, Cert.Idx.live (Cert.Idx.col bcast_S400000_S400000x1_0 (Cert.ReferenceIdeal.ReadP.val_main_v11 (F := Ideal) (m ((c.tc : Thread nD τ).loc main_arg2)))) e → ∀ k : Fin 128,
      (select (broadcastInDim S400000x128 ![0] bcast_S400000_S400000x128_0
        (Cert.Idx.mask bcast_S_S400000x1 bcast_S1x1_S400000x1_0_1 bcast_S1_S1x1_1 reducesTo_S400000x1_S400000_d1 h_S_
          (Cert.Idx.col bcast_S400000_S400000x1_0 (Cert.Idx.wrap bcast_S_S400000 (Cert.ReferenceIdeal.ReadP.val_main_v9 (F := Ideal) (m ((c.tc : Thread nD τ).loc main_arg2)))))))
      (Host.gather gather_S50000x128_S400000x1_S400000x128_1_0_n_n_0_1_1128 (Cert.ReferenceIdeal.ReadP.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.Idx.col bcast_S400000_S400000x1_0 (Cert.Idx.wrap bcast_S_S400000 (Cert.ReferenceIdeal.ReadP.val_main_v9 (F := Ideal) (m ((c.tc : Thread nD τ).loc main_arg2))))))
      (broadcastInDim S400000x128 ![] bcast_S_S400000x128 (constant (F := Ideal) S_ .f32 0x7FC00000#32))) (ix2 e k) = (Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (ix2 e k) := by
    intro e _ k
    have hs := hsrc e
    rw [← src_row (m ((c.tc : Thread nD τ).loc main_arg2)) e] at hs
    exact Cert.Idx.take_fill_row bcast_S_S400000 bcast_S400000_S400000x1_0 bcast_S_S400000x1 bcast_S1x1_S400000x1_0_1 bcast_S1_S1x1_1 reducesTo_S400000x1_S400000_d1 h_S_ bcast_S400000_S400000x128_0 (Cert.ReferenceIdeal.ReadP.val_main_v9 (F := Ideal) (m ((c.tc : Thread nD τ).loc main_arg2))) _ _ e k hs
  exact Cert.Idx.agg_congr scatter_S50000x128_S400000x1_S400000x128_1_0_0_1 rfl rfl rfl rfl _ _ _ _ _ _ _ _ _ _ _ _ _ _ _ _ _ _ _ _ hxi hxj

end Cert.KernelIdeal.Fold

end
-- ==== Proof.KFoldC2.lean ====
-- Second layer: the update region's output is the reference's node features.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

namespace Upd2

macro "upd2_stretch_keeps" : tactic => `(tactic|
  exact StableHlo.after_of_forall_not_mem _ _ (List.forall_iff_forall_mem.mp (by
    simp only [hostOps4, hostOps4_1, hostOps4_2, hostOps5, hostOps6, hostOps6_1, hostOps6_2, List.flatten_cons, List.flatten_nil,
      List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem x1_at16 (c : Dev nD) : W16 m ρ c (Proc.devRef .tc main_v57) = W11 m ρ c (Proc.devRef .tc main_v57) :=
  calc W16 m ρ c (Proc.devRef .tc main_v57)
    _ = W15 m ρ c (Proc.devRef .tc main_v57) := by upd2_stretch_keeps
    _ = W14 m ρ c (Proc.devRef .tc main_v57) := W15_of_ne m ρ c main_v57 (by decide)
    _ = W13 m ρ c (Proc.devRef .tc main_v57) := by upd2_stretch_keeps
    _ = W12 m ρ c (Proc.devRef .tc main_v57) := by upd2_stretch_keeps
    _ = W11 m ρ c (Proc.devRef .tc main_v57) := by upd2_stretch_keeps

theorem arg24_at15 (c : Dev nD) : W15 m ρ c (Proc.devRef .tc main_arg24) = m ((c.tc : Thread nD τ).loc main_arg24) :=
  calc W15 m ρ c (Proc.devRef .tc main_arg24)
    _ = W16 m ρ c (Proc.devRef .tc main_arg24) := Eq.symm (by upd2_stretch_keeps)
    _ = W17 m ρ c (Proc.devRef .tc main_arg24) := (W17_of_ne m ρ c main_arg24 (by decide)).symm
    _ = W18 m ρ c (Proc.devRef .tc main_arg24) := Eq.symm (by upd2_stretch_keeps)
    _ = W19 m ρ c (Proc.devRef .tc main_arg24) := Eq.symm (by upd2_stretch_keeps)
    _ = W20 m ρ c (Proc.devRef .tc main_arg24) := Eq.symm (by upd2_stretch_keeps)
    _ = m ((c.tc : Thread nD τ).loc main_arg24) := W20_main_arg24 m ρ c

theorem arg25_at15 (c : Dev nD) : W15 m ρ c (Proc.devRef .tc main_arg25) = m ((c.tc : Thread nD τ).loc main_arg25) :=
  calc W15 m ρ c (Proc.devRef .tc main_arg25)
    _ = W16 m ρ c (Proc.devRef .tc main_arg25) := Eq.symm (by upd2_stretch_keeps)
    _ = W17 m ρ c (Proc.devRef .tc main_arg25) := (W17_of_ne m ρ c main_arg25 (by decide)).symm
    _ = W18 m ρ c (Proc.devRef .tc main_arg25) := Eq.symm (by upd2_stretch_keeps)
    _ = W19 m ρ c (Proc.devRef .tc main_arg25) := Eq.symm (by upd2_stretch_keeps)
    _ = W20 m ρ c (Proc.devRef .tc main_arg25) := Eq.symm (by upd2_stretch_keeps)
    _ = m ((c.tc : Thread nD τ).loc main_arg25) := W20_main_arg25 m ρ c

theorem arg26_at15 (c : Dev nD) : W15 m ρ c (Proc.devRef .tc main_arg26) = m ((c.tc : Thread nD τ).loc main_arg26) :=
  calc W15 m ρ c (Proc.devRef .tc main_arg26)
    _ = W16 m ρ c (Proc.devRef .tc main_arg26) := Eq.symm (by upd2_stretch_keeps)
    _ = W17 m ρ c (Proc.devRef .tc main_arg26) := (W17_of_ne m ρ c main_arg26 (by decide)).symm
    _ = W18 m ρ c (Proc.devRef .tc main_arg26) := Eq.symm (by upd2_stretch_keeps)
    _ = W19 m ρ c (Proc.devRef .tc main_arg26) := Eq.symm (by upd2_stretch_keeps)
    _ = W20 m ρ c (Proc.devRef .tc main_arg26) := Eq.symm (by upd2_stretch_keeps)
    _ = m ((c.tc : Thread nD τ).loc main_arg26) := W20_main_arg26 m ρ c

theorem arg27_at15 (c : Dev nD) : W15 m ρ c (Proc.devRef .tc main_arg27) = m ((c.tc : Thread nD τ).loc main_arg27) :=
  calc W15 m ρ c (Proc.devRef .tc main_arg27)
    _ = W16 m ρ c (Proc.devRef .tc main_arg27) := Eq.symm (by upd2_stretch_keeps)
    _ = W17 m ρ c (Proc.devRef .tc main_arg27) := (W17_of_ne m ρ c main_arg27 (by decide)).symm
    _ = W18 m ρ c (Proc.devRef .tc main_arg27) := Eq.symm (by upd2_stretch_keeps)
    _ = W19 m ρ c (Proc.devRef .tc main_arg27) := Eq.symm (by upd2_stretch_keeps)
    _ = W20 m ρ c (Proc.devRef .tc main_arg27) := Eq.symm (by upd2_stretch_keeps)
    _ = m ((c.tc : Thread nD τ).loc main_arg27) := W20_main_arg27 m ρ c

theorem w_at16 (c : Dev nD) : W16 m ρ c (Proc.devRef .tc main_v95) = Cert.ReferenceIdeal.ReadP.val_main_v226 (F := Ideal) (m ((c.tc : Thread nD τ).loc main_arg24)) := by
  fold_down
  rw [arg24_at15 m ρ c]
  rfl

theorem bu_at16 (c : Dev nD) : W16 m ρ c (Proc.devRef .tc main_v98) = Cert.ReferenceIdeal.ReadP.val_main_v230 (F := Ideal) (m ((c.tc : Thread nD τ).loc main_arg25)) := by
  fold_down
  rw [arg25_at15 m ρ c]
  unfold Cert.ReferenceIdeal.ReadP.val_main_v230
  exact reshape_row_eq_bcast _ _ _

theorem g_at16 (c : Dev nD) : W16 m ρ c (Proc.devRef .tc main_v101) = Cert.ReferenceIdeal.ReadP.val_main_v253 (F := Ideal) (m ((c.tc : Thread nD τ).loc main_arg26)) := by
  fold_down
  rw [arg26_at15 m ρ c]
  unfold Cert.ReferenceIdeal.ReadP.val_main_v253
  exact reshape_row_eq_bcast _ _ _

theorem bb_at16 (c : Dev nD) : W16 m ρ c (Proc.devRef .tc main_v104) = Cert.ReferenceIdeal.ReadP.val_main_v258 (F := Ideal) (m ((c.tc : Thread nD τ).loc main_arg27)) := by
  fold_down
  rw [arg27_at15 m ρ c]
  unfold Cert.ReferenceIdeal.ReadP.val_main_v258
  exact reshape_row_eq_bcast _ _ _

end Upd2

theorem upd2 (c : Dev nD)
    (hx1 : W11 m ρ c (Proc.devRef .tc main_v57) = Cert.ReferenceIdeal.ReadP.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
    (hagg : W16 m ρ c (Proc.devRef .tc main_v93) = Cert.ReferenceIdeal.ReadP.val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    W17 m ρ c (Proc.devRef .tc main_v105) = Cert.ReferenceIdeal.ReadP.val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by

  refine (W17_arr m ρ c 6).trans ?_
  rw [Cert.KernelIdeal.Val.final5 (V16 m ρ) c, Cert.ReferenceIdeal.RefVal.upd2]
  have e57 : V16 m ρ c main_v57 = _ := (Upd2.x1_at16 m ρ c).trans hx1
  have e93 : V16 m ρ c main_v93 = _ := hagg
  have e95 : V16 m ρ c main_v95 = Cert.ReferenceIdeal.ReadP.val_main_v226 (F := Ideal) (m ((c.tc : Thread nD τ).loc main_arg24)) := Upd2.w_at16 m ρ c
  have e98 : V16 m ρ c main_v98 = Cert.ReferenceIdeal.ReadP.val_main_v230 (F := Ideal) (m ((c.tc : Thread nD τ).loc main_arg25)) := Upd2.bu_at16 m ρ c
  have e101 : V16 m ρ c main_v101 = Cert.ReferenceIdeal.ReadP.val_main_v253 (F := Ideal) (m ((c.tc : Thread nD τ).loc main_arg26)) := Upd2.g_at16 m ρ c
  have e104 : V16 m ρ c main_v104 = Cert.ReferenceIdeal.ReadP.val_main_v258 (F := Ideal) (m ((c.tc : Thread nD τ).loc main_arg27)) := Upd2.bb_at16 m ρ c
  rw [e57, e93, e95, e98, e101, e104]

end Cert.KernelIdeal.Fold

end
-- ==== Proof.KFoldD.lean ====
-- The host operations after the last region are the reference's own, applied to the same node features.
import proofs.«416830_j43473658970339_2_alg».proof.Proof.KFoldBase

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

section Steps

theorem head_s6_v114 (Wp : Valuation τ sig (Elt Ideal)) :
    (StableHlo.after hostOps6 Wp (Proc.devRef .tc main_v114) : (⟨S1x128, .f32⟩ : BufTy).Contents (Elt Ideal)) =
    Host.divf (F := Ideal)
      (Host.scatterAdd scatter_S1x128_S50000x1_S50000x128_1_0_0_1
        (broadcastInDim S1x128 ![] bcast_S_S1x128 (constant (F := Ideal) S_ .f32 0x00000000#32))
        (broadcastInDim S50000x1 ![0] bcast_S50000_S50000x1_0 (Wp (Proc.devRef .tc main_arg4) : (⟨S50000, .i32⟩ : BufTy).Contents (Elt Ideal)))
        (Wp (Proc.devRef .tc main_v105) : (⟨S50000x128, .f32⟩ : BufTy).Contents (Elt Ideal)))
      (broadcastInDim S1x128 ![0, 1] bcast_S1x1_S1x128_0_1
        (Host.scatterAdd scatter_S1x1_S50000x1_S50000x1_1_0_0_1
          (broadcastInDim S1x1 ![] bcast_S_S1x1 (constant (F := Ideal) S_ .f32 0x00000000#32))
          (broadcastInDim S50000x1 ![0] bcast_S50000_S50000x1_0 (Wp (Proc.devRef .tc main_arg4) : (⟨S50000, .i32⟩ : BufTy).Contents (Elt Ideal)))
          (broadcastInDim S50000x1 ![] bcast_S_S50000x1 (constant (F := Ideal) S_ .f32 0x3F800000#32)))) := by
  simp only [hostOps6]
  after_results_simp

theorem head_s6_v117 (Wp : Valuation τ sig (Elt Ideal)) :
    (StableHlo.after hostOps6 Wp (Proc.devRef .tc main_v117) : (⟨S1x128, .f32⟩ : BufTy).Contents (Elt Ideal)) =
    addf (F := Ideal)
      (Host.dotGeneral (F := Ideal) (φ₁ := .f32) (φ₂ := .f32) dot_S1x128_S128x128_S1x128_1_0_0_1_n_n none
        (Host.divf (F := Ideal)
      (Host.scatterAdd scatter_S1x128_S50000x1_S50000x128_1_0_0_1
        (broadcastInDim S1x128 ![] bcast_S_S1x128 (constant (F := Ideal) S_ .f32 0x00000000#32))
        (broadcastInDim S50000x1 ![0] bcast_S50000_S50000x1_0 (Wp (Proc.devRef .tc main_arg4) : (⟨S50000, .i32⟩ : BufTy).Contents (Elt Ideal)))
        (Wp (Proc.devRef .tc main_v105) : (⟨S50000x128, .f32⟩ : BufTy).Contents (Elt Ideal)))
      (broadcastInDim S1x128 ![0, 1] bcast_S1x1_S1x128_0_1
        (Host.scatterAdd scatter_S1x1_S50000x1_S50000x1_1_0_0_1
          (broadcastInDim S1x1 ![] bcast_S_S1x1 (constant (F := Ideal) S_ .f32 0x00000000#32))
          (broadcastInDim S50000x1 ![0] bcast_S50000_S50000x1_0 (Wp (Proc.devRef .tc main_arg4) : (⟨S50000, .i32⟩ : BufTy).Contents (Elt Ideal)))
          (broadcastInDim S50000x1 ![] bcast_S_S50000x1 (constant (F := Ideal) S_ .f32 0x3F800000#32)))))
        (Wp (Proc.devRef .tc main_arg28) : (⟨S128x128, .f32⟩ : BufTy).Contents (Elt Ideal)))
      (broadcastInDim S1x128 ![1] bcast_S128_S1x128_1 (Wp (Proc.devRef .tc main_arg29) : (⟨S128, .f32⟩ : BufTy).Contents (Elt Ideal))) := by
  simp only [hostOps6]
  after_results_simp

theorem head_s61_v118 (Wp : Valuation τ sig (Elt Ideal)) :
    (StableHlo.after hostOps6_1 Wp (Proc.devRef .tc main_v118) : (⟨S1x128, .f32⟩ : BufTy).Contents (Elt Ideal)) =
    maximumf (F := Ideal) (Wp (Proc.devRef .tc main_v117) : (⟨S1x128, .f32⟩ : BufTy).Contents (Elt Ideal)) (broadcastInDim S1x128 ![] bcast_S_S1x128 (constant (F := Ideal) S_ .f32 0x00000000#32)) := by
  simp only [hostOps6_1]
  after_results_simp
  rfl

theorem head_s62_v123 (Wp : Valuation τ sig (Elt Ideal)) :
    (StableHlo.after hostOps6_2 Wp (Proc.devRef .tc main_v123) : (⟨S1x3, .f32⟩ : BufTy).Contents (Elt Ideal)) =
    addf (F := Ideal) (Wp (Proc.devRef .tc main_arg7) : (⟨S1x3, .f32⟩ : BufTy).Contents (Elt Ideal))
      (extractStridedSlice S1x3 ![0, 0]
        (addf (F := Ideal)
          (Host.dotGeneral (F := Ideal) (φ₁ := .f32) (φ₂ := .f32) dot_S1x128_S128x16_S1x16_1_0_0_1_n_n none (Wp (Proc.devRef .tc main_v118) : (⟨S1x128, .f32⟩ : BufTy).Contents (Elt Ideal))
            (Wp (Proc.devRef .tc main_arg30) : (⟨S128x16, .f32⟩ : BufTy).Contents (Elt Ideal)))
          (broadcastInDim S1x16 ![1] bcast_S16_S1x16_1 (Wp (Proc.devRef .tc main_arg31) : (⟨S16, .f32⟩ : BufTy).Contents (Elt Ideal))))
        slices_S1x16_S1x3_0_0) := by
  simp only [hostOps6_2]
  after_results_simp

theorem head_k61_v114 (Wp : Valuation τ sig (Elt Ideal)) :
    (StableHlo.after hostOps6_1 Wp (Proc.devRef .tc main_v114) : (⟨S1x128, .f32⟩ : BufTy).Contents (Elt Ideal)) = (Wp (Proc.devRef .tc main_v114) : (⟨S1x128, .f32⟩ : BufTy).Contents (Elt Ideal)) := by
  simp only [hostOps6_1]
  after_results_simp

theorem head_k62_v114 (Wp : Valuation τ sig (Elt Ideal)) :
    (StableHlo.after hostOps6_2 Wp (Proc.devRef .tc main_v114) : (⟨S1x128, .f32⟩ : BufTy).Contents (Elt Ideal)) = (Wp (Proc.devRef .tc main_v114) : (⟨S1x128, .f32⟩ : BufTy).Contents (Elt Ideal)) := by
  simp only [hostOps6_2]
  after_results_simp

theorem head_k6_main_arg4 (Wp : Valuation τ sig (Elt Ideal)) :
    (StableHlo.after hostOps6 Wp (Proc.devRef .tc main_arg4) : (⟨S50000, .i32⟩ : BufTy).Contents (Elt Ideal)) = (Wp (Proc.devRef .tc main_arg4) : (⟨S50000, .i32⟩ : BufTy).Contents (Elt Ideal)) := by
  simp only [hostOps6]
  after_results_simp
theorem head_k61_main_arg4 (Wp : Valuation τ sig (Elt Ideal)) :
    (StableHlo.after hostOps6_1 Wp (Proc.devRef .tc main_arg4) : (⟨S50000, .i32⟩ : BufTy).Contents (Elt Ideal)) = (Wp (Proc.devRef .tc main_arg4) : (⟨S50000, .i32⟩ : BufTy).Contents (Elt Ideal)) := by
  simp only [hostOps6_1]
  after_results_simp
theorem head_k62_main_arg4 (Wp : Valuation τ sig (Elt Ideal)) :
    (StableHlo.after hostOps6_2 Wp (Proc.devRef .tc main_arg4) : (⟨S50000, .i32⟩ : BufTy).Contents (Elt Ideal)) = (Wp (Proc.devRef .tc main_arg4) : (⟨S50000, .i32⟩ : BufTy).Contents (Elt Ideal)) := by
  simp only [hostOps6_2]
  after_results_simp
theorem head_k6_main_arg28 (Wp : Valuation τ sig (Elt Ideal)) :
    (StableHlo.after hostOps6 Wp (Proc.devRef .tc main_arg28) : (⟨S128x128, .f32⟩ : BufTy).Contents (Elt Ideal)) = (Wp (Proc.devRef .tc main_arg28) : (⟨S128x128, .f32⟩ : BufTy).Contents (Elt Ideal)) := by
  simp only [hostOps6]
  after_results_simp
theorem head_k61_main_arg28 (Wp : Valuation τ sig (Elt Ideal)) :
    (StableHlo.after hostOps6_1 Wp (Proc.devRef .tc main_arg28) : (⟨S128x128, .f32⟩ : BufTy).Contents (Elt Ideal)) = (Wp (Proc.devRef .tc main_arg28) : (⟨S128x128, .f32⟩ : BufTy).Contents (Elt Ideal)) := by
  simp only [hostOps6_1]
  after_results_simp
theorem head_k62_main_arg28 (Wp : Valuation τ sig (Elt Ideal)) :
    (StableHlo.after hostOps6_2 Wp (Proc.devRef .tc main_arg28) : (⟨S128x128, .f32⟩ : BufTy).Contents (Elt Ideal)) = (Wp (Proc.devRef .tc main_arg28) : (⟨S128x128, .f32⟩ : BufTy).Contents (Elt Ideal)) := by
  simp only [hostOps6_2]
  after_results_simp
theorem head_k6_main_arg29 (Wp : Valuation τ sig (Elt Ideal)) :
    (StableHlo.after hostOps6 Wp (Proc.devRef .tc main_arg29) : (⟨S128, .f32⟩ : BufTy).Contents (Elt Ideal)) = (Wp (Proc.devRef .tc main_arg29) : (⟨S128, .f32⟩ : BufTy).Contents (Elt Ideal)) := by
  simp only [hostOps6]
  after_results_simp
theorem head_k61_main_arg29 (Wp : Valuation τ sig (Elt Ideal)) :
    (StableHlo.after hostOps6_1 Wp (Proc.devRef .tc main_arg29) : (⟨S128, .f32⟩ : BufTy).Contents (Elt Ideal)) = (Wp (Proc.devRef .tc main_arg29) : (⟨S128, .f32⟩ : BufTy).Contents (Elt Ideal)) := by
  simp only [hostOps6_1]
  after_results_simp
theorem head_k62_main_arg29 (Wp : Valuation τ sig (Elt Ideal)) :
    (StableHlo.after hostOps6_2 Wp (Proc.devRef .tc main_arg29) : (⟨S128, .f32⟩ : BufTy).Contents (Elt Ideal)) = (Wp (Proc.devRef .tc main_arg29) : (⟨S128, .f32⟩ : BufTy).Contents (Elt Ideal)) := by
  simp only [hostOps6_2]
  after_results_simp

theorem head_k62_main_arg7 (Wp : Valuation τ sig (Elt Ideal)) :
    (StableHlo.after hostOps6_2 Wp (Proc.devRef .tc main_arg7) : (⟨S1x3, .f32⟩ : BufTy).Contents (Elt Ideal)) = (Wp (Proc.devRef .tc main_arg7) : (⟨S1x3, .f32⟩ : BufTy).Contents (Elt Ideal)) := by
  simp only [hostOps6_2]
  after_results_simp
theorem head_k62_main_arg30 (Wp : Valuation τ sig (Elt Ideal)) :
    (StableHlo.after hostOps6_2 Wp (Proc.devRef .tc main_arg30) : (⟨S128x16, .f32⟩ : BufTy).Contents (Elt Ideal)) = (Wp (Proc.devRef .tc main_arg30) : (⟨S128x16, .f32⟩ : BufTy).Contents (Elt Ideal)) := by
  simp only [hostOps6_2]
  after_results_simp
theorem head_k62_main_arg31 (Wp : Valuation τ sig (Elt Ideal)) :
    (StableHlo.after hostOps6_2 Wp (Proc.devRef .tc main_arg31) : (⟨S16, .f32⟩ : BufTy).Contents (Elt Ideal)) = (Wp (Proc.devRef .tc main_arg31) : (⟨S16, .f32⟩ : BufTy).Contents (Elt Ideal)) := by
  simp only [hostOps6_2]
  after_results_simp

end Steps

section Args
variable (m : (ℓ : Loc nD τ sig) → Buf (Elt Ideal) ℓ) (ρ : Dev nD → PrngReg)

theorem head_main_arg4 (c : Dev nD) : W17 m ρ c (Proc.devRef .tc main_arg4) = m ((c.tc : Thread nD τ).loc main_arg4) :=
  (head_k6_main_arg4 (W17 m ρ c)).symm.trans ((head_k61_main_arg4 (W18 m ρ c)).symm.trans ((head_k62_main_arg4 (W19 m ρ c)).symm.trans (W20_main_arg4 m ρ c)))
theorem head_main_arg28 (c : Dev nD) : W17 m ρ c (Proc.devRef .tc main_arg28) = m ((c.tc : Thread nD τ).loc main_arg28) :=
  (head_k6_main_arg28 (W17 m ρ c)).symm.trans ((head_k61_main_arg28 (W18 m ρ c)).symm.trans ((head_k62_main_arg28 (W19 m ρ c)).symm.trans (W20_main_arg28 m ρ c)))
theorem head_main_arg29 (c : Dev nD) : W17 m ρ c (Proc.devRef .tc main_arg29) = m ((c.tc : Thread nD τ).loc main_arg29) :=
  (head_k6_main_arg29 (W17 m ρ c)).symm.trans ((head_k61_main_arg29 (W18 m ρ c)).symm.trans ((head_k62_main_arg29 (W19 m ρ c)).symm.trans (W20_main_arg29 m ρ c)))
theorem head_main_arg7 (c : Dev nD) : W19 m ρ c (Proc.devRef .tc main_arg7) = m ((c.tc : Thread nD τ).loc main_arg7) :=
  (head_k62_main_arg7 (W19 m ρ c)).symm.trans (W20_main_arg7 m ρ c)
theorem head_main_arg30 (c : Dev nD) : W19 m ρ c (Proc.devRef .tc main_arg30) = m ((c.tc : Thread nD τ).loc main_arg30) :=
  (head_k62_main_arg30 (W19 m ρ c)).symm.trans (W20_main_arg30 m ρ c)
theorem head_main_arg31 (c : Dev nD) : W19 m ρ c (Proc.devRef .tc main_arg31) = m ((c.tc : Thread nD τ).loc main_arg31) :=
  (head_k62_main_arg31 (W19 m ρ c)).symm.trans (W20_main_arg31 m ρ c)

end Args

variable (m : (ℓ : Loc nD τ sig) → Buf (Elt Ideal) ℓ) (ρ : Dev nD → PrngReg)

theorem head114 (c : Dev nD)
    (hx2 : W17 m ρ c (Proc.devRef .tc main_v105) = Cert.ReferenceIdeal.ReadP.val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    W20 m ρ c (Proc.devRef .tc main_v114) = Cert.ReferenceIdeal.ReadP.val_main_v272 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  refine (head_k62_v114 (W19 m ρ c)).trans ((head_k61_v114 (W18 m ρ c)).trans ((head_s6_v114 (W17 m ρ c)).trans ?_))
  rw [hx2, head_main_arg4 m ρ c]
  unfold Cert.ReferenceIdeal.ReadP.val_main_v272 Cert.ReferenceIdeal.ReadP.val_main_v266 Cert.ReferenceIdeal.ReadP.val_main_v271 Cert.ReferenceIdeal.ReadP.val_main_v270 Cert.ReferenceIdeal.ReadP.val_main_v264 Cert.ReferenceIdeal.ReadP.val_main_v265 Cert.ReferenceIdeal.ReadP.val_main_v267 Cert.ReferenceIdeal.ReadP.val_main_v268 Cert.ReferenceIdeal.ReadP.val_main_v269 Cert.ReferenceIdeal.ReadP.val_main_cst_24 Cert.ReferenceIdeal.ReadP.val_main_cst_25 Cert.ReferenceIdeal.ReadP.val_main_cst_26
  rfl

theorem head123 (c : Dev nD)
    (hx2 : W17 m ρ c (Proc.devRef .tc main_v105) = Cert.ReferenceIdeal.ReadP.val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    W20 m ρ c (Proc.devRef .tc main_v123) = Cert.ReferenceIdeal.ReadP.val_main_v281 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) := by
  refine (head_s62_v123 (W19 m ρ c)).trans ?_
  rw [head_main_arg7 m ρ c, head_main_arg30 m ρ c, head_main_arg31 m ρ c,
    show W19 m ρ c (Proc.devRef .tc main_v118) = _ from head_s61_v118 (W18 m ρ c),
    show W18 m ρ c (Proc.devRef .tc main_v117) = _ from head_s6_v117 (W17 m ρ c),
    hx2, head_main_arg4 m ρ c, head_main_arg28 m ρ c, head_main_arg29 m ρ c]
  unfold Cert.ReferenceIdeal.ReadP.val_main_v281 Cert.ReferenceIdeal.ReadP.val_main_v280 Cert.ReferenceIdeal.ReadP.val_main_v279 Cert.ReferenceIdeal.ReadP.val_main_v277 Cert.ReferenceIdeal.ReadP.val_main_v278 Cert.ReferenceIdeal.ReadP.val_main_v276 Cert.ReferenceIdeal.ReadP.val_main_v275 Cert.ReferenceIdeal.ReadP.val_main_call10_v0 Cert.ReferenceIdeal.ReadP.val_main_call10_cst Cert.ReferenceIdeal.ReadP.val_main_v273 Cert.ReferenceIdeal.ReadP.val_main_v274 Cert.ReferenceIdeal.ReadP.val_main_v272 Cert.ReferenceIdeal.ReadP.val_main_v266 Cert.ReferenceIdeal.ReadP.val_main_v271 Cert.ReferenceIdeal.ReadP.val_main_v270 Cert.ReferenceIdeal.ReadP.val_main_v264 Cert.ReferenceIdeal.ReadP.val_main_v265 Cert.ReferenceIdeal.ReadP.val_main_v267 Cert.ReferenceIdeal.ReadP.val_main_v268 Cert.ReferenceIdeal.ReadP.val_main_v269 Cert.ReferenceIdeal.ReadP.val_main_cst_24 Cert.ReferenceIdeal.ReadP.val_main_cst_25 Cert.ReferenceIdeal.ReadP.val_main_cst_26
  rfl

end Cert.KernelIdeal.Fold

end
-- ==== Proof.PreSrc.lean ====
-- The precondition's last conjunct bounds every source endpoint.
import proofs.«416830_j43473658970339_2_alg».proof.Defs
import proofs.«416830_j43473658970339_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreSrc

open Idealize.ShloMosaic Idealize.ShloMosaic.ValueIdx Idealize.SL.Sem

open Cert.Pre_finite_inputs in
instance : Subsingleton S_.Idx := ⟨fun a b => funext fun d => d.elim0⟩

theorem toInt_lo : (4294917296#32 : BitVec 32).toInt = -50000 := by decide
theorem toInt_hi : (50000#32 : BitVec 32).toInt = 50000 := by decide

open Cert.Pre_finite_inputs in

theorem row0_apply [Facts] (a2 : IVec S2x400000 32) (e : Fin 400000) :
    shapeCast S400000 (extractStridedSlice S1x400000 ![0, 0] a2 Facts.slices_S2x400000_S1x400000_0_0)
      Facts.shapeCasts_S1x400000_S400000 (ix1 e) = a2 (ix2 0 e) := by
  refine (shapeCast_apply _ _ (ix1 e) (ix2 (0 : Fin 1) e) ?_).trans ?_
  · rw [Shape.rowMajor_val_two, Shape.rowMajor_val_one]
    show (0 : Nat) * _ + e.val = e.val
    omega
  · refine extractStridedSlice_apply _ _ _ _ (ix2 0 e) ?_
    intro a
    fin_cases a
    · show (0 : Nat) = 0 + 0
      rfl
    · show e.val = 0 + e.val
      omega

open Cert.Pre_finite_inputs in

theorem part8_last [Facts] {F : FTy → Type} [FloatOps F]
    (a2 : IVec S2x400000 32) (a31 : FVec F S16 .f32) (v133 : IVec S_ 1) (v136 : IVec S128x16 1)
    (hp : fn_part8 (F := F) a2 a31 v133 v136 ix0 = 1#1) (e : Fin 400000) :
    -50000 ≤ (a2 (ix2 0 e)).toInt ∧ (a2 (ix2 0 e)).toInt < 50000 := by
  unfold fn_part8 at hp
  dsimp only at hp
  obtain ⟨-, h2⟩ := IntOp.andi_eq_one.1 hp
  have h3 := Host.reduce_andi_all _ _ _ _ ix0 h2 (ix1 e)
  obtain ⟨hge, hlt⟩ := IntOp.andi_eq_one.1 h3
  have hge' := IntOp.cmpi_sge.1 hge
  have hlt' := IntOp.cmpi_slt.1 hlt
  rw [row0_apply, StableHlo.Predicate.bcast_scalar _ Facts.h_S_] at hge' hlt'
  change (4294917296#32 : BitVec 32).toInt ≤ _ at hge'
  change _ < (50000#32 : BitVec 32).toInt at hlt'
  rw [toInt_lo] at hge'
  rw [toInt_hi] at hlt'
  exact ⟨hge', hlt'⟩

open Cert.Pre_finite_inputs in

theorem src_ok [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (e : Fin 400000) :
    -50000 ≤ ((m ((c.tc : Thread Cert.KernelIdeal.nD Cert.KernelIdeal.τ).loc Cert.KernelIdeal.main_arg2)) (ix2 0 e)).toInt ∧ ((m ((c.tc : Thread Cert.KernelIdeal.nD Cert.KernelIdeal.τ).loc Cert.KernelIdeal.main_arg2)) (ix2 0 e)).toInt < 50000 := by
  have hp := congrFun (h c) ix0
  dsimp only [Cert.Pre_finite_inputs.fn, fn_part1, fn_part2, fn_part3, fn_part4, fn_part5, fn_part6, fn_part7] at hp
  exact part8_last _ _ _ _ hp e

end Cert.PreSrc

end
-- ==== Proof.RefRun0.lean ====
/-
  What the reference's run keeps true between stretches of its operation list. The thirty-two arguments' contents are
  a record `X`; `ArgsAt V X` says a valuation holds them at the arguments' references; and for each of the twenty
  cuts of the list (at the printed windows' ends, before every concatenate, and so that no stretch is long) `Inv‹c› V X`
  says that, besides, every buffer written before the cut and read after it holds its stage function
  `ReadP.val_‹buffer›` of `X`. No operation writes an argument, so `ArgsAt` passes through any line that writes none
  of their references.
-/
import proofs.«416830_j43473658970339_2_alg».proof.Proof.Gen.ReferenceIdeal
import proofs.«416830_j43473658970339_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of a line of operations read at one reference, in one rewriting pass: each operation's result at its own
    result reference is its function of what its operands hold, and at any other reference what was there before it. -/
macro "fold_results" : tactic =>
  `(tactic| simp (disch := decide) only [after_cons, after_nil,
      nullary_result', unary_result', binary_result', ternary_result', reshape_result',
      nullary_result_ne', unary_result_ne', binary_result_ne', ternary_result_ne', reshape_result_ne', nary_result_ne'])

/-- The contents of @main's thirty-two arguments. -/
structure Args (F : FTy → Type) where
  x0 : (⟨S50000x32, .f32⟩ : BufTy).Contents (Elt F)
  x1 : (⟨S400000x8, .f32⟩ : BufTy).Contents (Elt F)
  x2 : (⟨S2x400000, .i32⟩ : BufTy).Contents (Elt F)
  x3 : (⟨S400000, .i32⟩ : BufTy).Contents (Elt F)
  x4 : (⟨S50000, .i32⟩ : BufTy).Contents (Elt F)
  x5 : (⟨S1x64, .f32⟩ : BufTy).Contents (Elt F)
  x6 : (⟨S1x100, .f32⟩ : BufTy).Contents (Elt F)
  x7 : (⟨S1x3, .f32⟩ : BufTy).Contents (Elt F)
  x8 : (⟨S32x128, .f32⟩ : BufTy).Contents (Elt F)
  x9 : (⟨S128, .f32⟩ : BufTy).Contents (Elt F)
  x10 : (⟨S8x128, .f32⟩ : BufTy).Contents (Elt F)
  x11 : (⟨S128, .f32⟩ : BufTy).Contents (Elt F)
  x12 : (⟨S2x384x128, .f32⟩ : BufTy).Contents (Elt F)
  x13 : (⟨S2x128, .f32⟩ : BufTy).Contents (Elt F)
  x14 : (⟨S2x128x128, .f32⟩ : BufTy).Contents (Elt F)
  x15 : (⟨S2x128, .f32⟩ : BufTy).Contents (Elt F)
  x16 : (⟨S2x384x128, .f32⟩ : BufTy).Contents (Elt F)
  x17 : (⟨S2x128, .f32⟩ : BufTy).Contents (Elt F)
  x18 : (⟨S2x128x128, .f32⟩ : BufTy).Contents (Elt F)
  x19 : (⟨S2x128, .f32⟩ : BufTy).Contents (Elt F)
  x20 : (⟨S2x256x64, .f32⟩ : BufTy).Contents (Elt F)
  x21 : (⟨S2x64, .f32⟩ : BufTy).Contents (Elt F)
  x22 : (⟨S2x64x1, .f32⟩ : BufTy).Contents (Elt F)
  x23 : (⟨S2x1, .f32⟩ : BufTy).Contents (Elt F)
  x24 : (⟨S2x256x128, .f32⟩ : BufTy).Contents (Elt F)
  x25 : (⟨S2x128, .f32⟩ : BufTy).Contents (Elt F)
  x26 : (⟨S2x128, .f32⟩ : BufTy).Contents (Elt F)
  x27 : (⟨S2x128, .f32⟩ : BufTy).Contents (Elt F)
  x28 : (⟨S128x128, .f32⟩ : BufTy).Contents (Elt F)
  x29 : (⟨S128, .f32⟩ : BufTy).Contents (Elt F)
  x30 : (⟨S128x16, .f32⟩ : BufTy).Contents (Elt F)
  x31 : (⟨S16, .f32⟩ : BufTy).Contents (Elt F)

/-- A valuation holds the arguments' contents at the arguments' references. -/
structure ArgsAt (V : Valuation τ sig (Elt F)) (X : Args F) : Prop where
  a0 : V (Proc.devRef .tc main_arg0) = X.x0
  a1 : V (Proc.devRef .tc main_arg1) = X.x1
  a2 : V (Proc.devRef .tc main_arg2) = X.x2
  a3 : V (Proc.devRef .tc main_arg3) = X.x3
  a4 : V (Proc.devRef .tc main_arg4) = X.x4
  a5 : V (Proc.devRef .tc main_arg5) = X.x5
  a6 : V (Proc.devRef .tc main_arg6) = X.x6
  a7 : V (Proc.devRef .tc main_arg7) = X.x7
  a8 : V (Proc.devRef .tc main_arg8) = X.x8
  a9 : V (Proc.devRef .tc main_arg9) = X.x9
  a10 : V (Proc.devRef .tc main_arg10) = X.x10
  a11 : V (Proc.devRef .tc main_arg11) = X.x11
  a12 : V (Proc.devRef .tc main_arg12) = X.x12
  a13 : V (Proc.devRef .tc main_arg13) = X.x13
  a14 : V (Proc.devRef .tc main_arg14) = X.x14
  a15 : V (Proc.devRef .tc main_arg15) = X.x15
  a16 : V (Proc.devRef .tc main_arg16) = X.x16
  a17 : V (Proc.devRef .tc main_arg17) = X.x17
  a18 : V (Proc.devRef .tc main_arg18) = X.x18
  a19 : V (Proc.devRef .tc main_arg19) = X.x19
  a20 : V (Proc.devRef .tc main_arg20) = X.x20
  a21 : V (Proc.devRef .tc main_arg21) = X.x21
  a22 : V (Proc.devRef .tc main_arg22) = X.x22
  a23 : V (Proc.devRef .tc main_arg23) = X.x23
  a24 : V (Proc.devRef .tc main_arg24) = X.x24
  a25 : V (Proc.devRef .tc main_arg25) = X.x25
  a26 : V (Proc.devRef .tc main_arg26) = X.x26
  a27 : V (Proc.devRef .tc main_arg27) = X.x27
  a28 : V (Proc.devRef .tc main_arg28) = X.x28
  a29 : V (Proc.devRef .tc main_arg29) = X.x29
  a30 : V (Proc.devRef .tc main_arg30) = X.x30
  a31 : V (Proc.devRef .tc main_arg31) = X.x31

/-- The arguments' references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

/-- A line of operations that writes none of the arguments' references leaves the arguments as they were. -/
theorem ArgsAt.after {V : Valuation τ sig (Elt F)} {X : Args F} (h : ArgsAt V X) (l : List (HloOp τ sig (Elt F)))
    (W : List (Ref sig .tc)) (hW : l.Forall fun op => op.writes ⊆ (W.map (Proc.devRef (τ := τ) .tc)).toFinset)
    (hd : ∀ r ∈ argRefs, r ∉ W) : ArgsAt (after l V) X where
  a0 := (after_of_writes_sub l V hW (hd main_arg0 (by decide))).trans h.a0
  a1 := (after_of_writes_sub l V hW (hd main_arg1 (by decide))).trans h.a1
  a2 := (after_of_writes_sub l V hW (hd main_arg2 (by decide))).trans h.a2
  a3 := (after_of_writes_sub l V hW (hd main_arg3 (by decide))).trans h.a3
  a4 := (after_of_writes_sub l V hW (hd main_arg4 (by decide))).trans h.a4
  a5 := (after_of_writes_sub l V hW (hd main_arg5 (by decide))).trans h.a5
  a6 := (after_of_writes_sub l V hW (hd main_arg6 (by decide))).trans h.a6
  a7 := (after_of_writes_sub l V hW (hd main_arg7 (by decide))).trans h.a7
  a8 := (after_of_writes_sub l V hW (hd main_arg8 (by decide))).trans h.a8
  a9 := (after_of_writes_sub l V hW (hd main_arg9 (by decide))).trans h.a9
  a10 := (after_of_writes_sub l V hW (hd main_arg10 (by decide))).trans h.a10
  a11 := (after_of_writes_sub l V hW (hd main_arg11 (by decide))).trans h.a11
  a12 := (after_of_writes_sub l V hW (hd main_arg12 (by decide))).trans h.a12
  a13 := (after_of_writes_sub l V hW (hd main_arg13 (by decide))).trans h.a13
  a14 := (after_of_writes_sub l V hW (hd main_arg14 (by decide))).trans h.a14
  a15 := (after_of_writes_sub l V hW (hd main_arg15 (by decide))).trans h.a15
  a16 := (after_of_writes_sub l V hW (hd main_arg16 (by decide))).trans h.a16
  a17 := (after_of_writes_sub l V hW (hd main_arg17 (by decide))).trans h.a17
  a18 := (after_of_writes_sub l V hW (hd main_arg18 (by decide))).trans h.a18
  a19 := (after_of_writes_sub l V hW (hd main_arg19 (by decide))).trans h.a19
  a20 := (after_of_writes_sub l V hW (hd main_arg20 (by decide))).trans h.a20
  a21 := (after_of_writes_sub l V hW (hd main_arg21 (by decide))).trans h.a21
  a22 := (after_of_writes_sub l V hW (hd main_arg22 (by decide))).trans h.a22
  a23 := (after_of_writes_sub l V hW (hd main_arg23 (by decide))).trans h.a23
  a24 := (after_of_writes_sub l V hW (hd main_arg24 (by decide))).trans h.a24
  a25 := (after_of_writes_sub l V hW (hd main_arg25 (by decide))).trans h.a25
  a26 := (after_of_writes_sub l V hW (hd main_arg26 (by decide))).trans h.a26
  a27 := (after_of_writes_sub l V hW (hd main_arg27 (by decide))).trans h.a27
  a28 := (after_of_writes_sub l V hW (hd main_arg28 (by decide))).trans h.a28
  a29 := (after_of_writes_sub l V hW (hd main_arg29 (by decide))).trans h.a29
  a30 := (after_of_writes_sub l V hW (hd main_arg30 (by decide))).trans h.a30
  a31 := (after_of_writes_sub l V hW (hd main_arg31 (by decide))).trans h.a31

/-- After operation 12: each buffer written so far that a later operation reads. -/
structure Inv0 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2

/-- After operation 32: each buffer written so far that a later operation reads. -/
structure Inv1 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v20 : V (Proc.devRef .tc main_v20) = ReadP.val_main_v20 X.x0 X.x2 X.x8 X.x9
  v27 : V (Proc.devRef .tc main_v27) = ReadP.val_main_v27 X.x0 X.x2 X.x8 X.x9

/-- After operation 47: each buffer written so far that a later operation reads. -/
structure Inv2 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v20 : V (Proc.devRef .tc main_v20) = ReadP.val_main_v20 X.x0 X.x2 X.x8 X.x9
  v27 : V (Proc.devRef .tc main_v27) = ReadP.val_main_v27 X.x0 X.x2 X.x8 X.x9
  v28 : V (Proc.devRef .tc main_v28) = ReadP.val_main_v28 X.x0 X.x1 X.x2 X.x8 X.x9 X.x10 X.x11
  v40 : V (Proc.devRef .tc main_v40) = ReadP.val_main_v40 X.x0 X.x1 X.x2 X.x8 X.x9 X.x10 X.x11 X.x12 X.x13 X.x14

/-- After operation 64: each buffer written so far that a later operation reads. -/
structure Inv3 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v20 : V (Proc.devRef .tc main_v20) = ReadP.val_main_v20 X.x0 X.x2 X.x8 X.x9
  v27 : V (Proc.devRef .tc main_v27) = ReadP.val_main_v27 X.x0 X.x2 X.x8 X.x9
  v45 : V (Proc.devRef .tc main_v45) = ReadP.val_main_v45 X.x0 X.x1 X.x2 X.x8 X.x9 X.x10 X.x11 X.x12 X.x13 X.x14 X.x15
  v54 : V (Proc.devRef .tc main_v54) = ReadP.val_main_v54 X.x0 X.x1 X.x2 X.x8 X.x9 X.x10 X.x11 X.x16 X.x17
  v55 : V (Proc.devRef .tc main_v55) = ReadP.val_main_v55 X.x18

/-- After operation 71: each buffer written so far that a later operation reads. -/
structure Inv4 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v20 : V (Proc.devRef .tc main_v20) = ReadP.val_main_v20 X.x0 X.x2 X.x8 X.x9
  v27 : V (Proc.devRef .tc main_v27) = ReadP.val_main_v27 X.x0 X.x2 X.x8 X.x9
  v45 : V (Proc.devRef .tc main_v45) = ReadP.val_main_v45 X.x0 X.x1 X.x2 X.x8 X.x9 X.x10 X.x11 X.x12 X.x13 X.x14 X.x15
  v62 : V (Proc.devRef .tc main_v62) = ReadP.val_main_v62 X.x0 X.x1 X.x2 X.x8 X.x9 X.x10 X.x11 X.x16 X.x17 X.x18 X.x19

/-- After operation 92: each buffer written so far that a later operation reads. -/
structure Inv5 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v45 : V (Proc.devRef .tc main_v45) = ReadP.val_main_v45 X.x0 X.x1 X.x2 X.x8 X.x9 X.x10 X.x11 X.x12 X.x13 X.x14 X.x15
  v62 : V (Proc.devRef .tc main_v62) = ReadP.val_main_v62 X.x0 X.x1 X.x2 X.x8 X.x9 X.x10 X.x11 X.x16 X.x17 X.x18 X.x19
  v81 : V (Proc.devRef .tc main_v81) = ReadP.val_main_v81 X.x0 X.x2 X.x8 X.x9 X.x20 X.x21 X.x22 X.x23

/-- After operation 113: each buffer written so far that a later operation reads. -/
structure Inv6 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v98 : V (Proc.devRef .tc main_v98) = ReadP.val_main_v98 X.x0 X.x1 X.x2 X.x3 X.x8 X.x9 X.x10 X.x11 X.x12 X.x13 X.x14 X.x15 X.x16 X.x17 X.x18 X.x19 X.x20 X.x21 X.x22 X.x23

/-- After operation 126: each buffer written so far that a later operation reads. -/
structure Inv7 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v107 : V (Proc.devRef .tc main_v107) = ReadP.val_main_v107 X.x0 X.x1 X.x2 X.x3 X.x8 X.x9 X.x10 X.x11 X.x12 X.x13 X.x14 X.x15 X.x16 X.x17 X.x18 X.x19 X.x20 X.x21 X.x22 X.x23 X.x24 X.x25
  v109 : V (Proc.devRef .tc main_v109) = ReadP.val_main_v109 X.x0 X.x1 X.x2 X.x3 X.x8 X.x9 X.x10 X.x11 X.x12 X.x13 X.x14 X.x15 X.x16 X.x17 X.x18 X.x19 X.x20 X.x21 X.x22 X.x23 X.x24 X.x25
  cst_7 : V (Proc.devRef .tc main_cst_7) = ReadP.val_main_cst_7 (F := F)

/-- After operation 145: each buffer written so far that a later operation reads. -/
structure Inv8 (V : Valuation τ sig (Elt F)) (X : Args F) : Prop where
  args : ArgsAt V X
  v3 : V (Proc.devRef .tc main_v3) = ReadP.val_main_v3 X.x0 X.x8 X.x9
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v125 : V (Proc.devRef .tc main_v125) = ReadP.val_main_v125 X.x0 X.x1 X.x2 X.x3 X.x8 X.x9 X.x10 X.x11 X.x12 X.x13 X.x14 X.x15 X.x16 X.x17 X.x18 X.x19 X.x20 X.x21 X.x22 X.x23 X.x24 X.x25

/-- After operation 162: each buffer written so far that a later operation reads. -/
structure Inv9 (V : Valuation τ sig (Elt F)) (X : Args F) : Prop where
  args : ArgsAt V X
  v7 : V (Proc.devRef .tc main_v7) = ReadP.val_main_v7 X.x1 X.x10 X.x11
  v9 : V (Proc.devRef .tc main_v9) = ReadP.val_main_v9 X.x2
  v11 : V (Proc.devRef .tc main_v11) = ReadP.val_main_v11 X.x2
  v13 : V (Proc.devRef .tc main_v13) = ReadP.val_main_v13 X.x3
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 180: each buffer written so far that a later operation reads. -/
structure Inv10 (V : Valuation τ sig (Elt F)) (X : Args F) : Prop where
  args : ArgsAt V X
  v7 : V (Proc.devRef .tc main_v7) = ReadP.val_main_v7 X.x1 X.x10 X.x11
  v11 : V (Proc.devRef .tc main_v11) = ReadP.val_main_v11 X.x2
  v13 : V (Proc.devRef .tc main_v13) = ReadP.val_main_v13 X.x3
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v145 : V (Proc.devRef .tc main_v145) = ReadP.val_main_v145 X.x0 X.x1 X.x2 X.x3 X.x8 X.x9 X.x10 X.x11 X.x12 X.x13 X.x14 X.x15 X.x16 X.x17 X.x18 X.x19 X.x20 X.x21 X.x22 X.x23 X.x24 X.x25 X.x26 X.x27
  v152 : V (Proc.devRef .tc main_v152) = ReadP.val_main_v152 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 192: each buffer written so far that a later operation reads. -/
structure Inv11 (V : Valuation τ sig (Elt F)) (X : Args F) : Prop where
  args : ArgsAt V X
  v11 : V (Proc.devRef .tc main_v11) = ReadP.val_main_v11 X.x2
  v13 : V (Proc.devRef .tc main_v13) = ReadP.val_main_v13 X.x3
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v145 : V (Proc.devRef .tc main_v145) = ReadP.val_main_v145 X.x0 X.x1 X.x2 X.x3 X.x8 X.x9 X.x10 X.x11 X.x12 X.x13 X.x14 X.x15 X.x16 X.x17 X.x18 X.x19 X.x20 X.x21 X.x22 X.x23 X.x24 X.x25 X.x26 X.x27
  v152 : V (Proc.devRef .tc main_v152) = ReadP.val_main_v152 X.x0 X.x1 X.x2 X.x3 X.x8 X.x9 X.x10 X.x11 X.x12 X.x13 X.x14 X.x15 X.x16 X.x17 X.x18 X.x19 X.x20 X.x21 X.x22 X.x23 X.x24 X.x25 X.x26 X.x27
  v153 : V (Proc.devRef .tc main_v153) = ReadP.val_main_v153 X.x0 X.x1 X.x2 X.x3 X.x8 X.x9 X.x10 X.x11 X.x12 X.x13 X.x14 X.x15 X.x16 X.x17 X.x18 X.x19 X.x20 X.x21 X.x22 X.x23 X.x24 X.x25 X.x26 X.x27
  v162 : V (Proc.devRef .tc main_v162) = ReadP.val_main_v162 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 219: each buffer written so far that a later operation reads. -/
structure Inv12 (V : Valuation τ sig (Elt F)) (X : Args F) : Prop where
  args : ArgsAt V X
  v11 : V (Proc.devRef .tc main_v11) = ReadP.val_main_v11 X.x2
  v13 : V (Proc.devRef .tc main_v13) = ReadP.val_main_v13 X.x3
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v145 : V (Proc.devRef .tc main_v145) = ReadP.val_main_v145 X.x0 X.x1 X.x2 X.x3 X.x8 X.x9 X.x10 X.x11 X.x12 X.x13 X.x14 X.x15 X.x16 X.x17 X.x18 X.x19 X.x20 X.x21 X.x22 X.x23 X.x24 X.x25 X.x26 X.x27
  v152 : V (Proc.devRef .tc main_v152) = ReadP.val_main_v152 X.x0 X.x1 X.x2 X.x3 X.x8 X.x9 X.x10 X.x11 X.x12 X.x13 X.x14 X.x15 X.x16 X.x17 X.x18 X.x19 X.x20 X.x21 X.x22 X.x23 X.x24 X.x25 X.x26 X.x27
  v170 : V (Proc.devRef .tc main_v170) = ReadP.val_main_v170 X.x0 X.x1 X.x2 X.x3 X.x8 X.x9 X.x10 X.x11 X.x12 X.x13 X.x14 X.x15 X.x16 X.x17 X.x18 X.x19 X.x20 X.x21 X.x22 X.x23 X.x24 X.x25 X.x26 X.x27
  v187 : V (Proc.devRef .tc main_v187) = ReadP.val_main_v187 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 239: each buffer written so far that a later operation reads. -/
structure Inv13 (V : Valuation τ sig (Elt F)) (X : Args F) : Prop where
  args : ArgsAt V X
  v11 : V (Proc.devRef .tc main_v11) = ReadP.val_main_v11 X.x2
  v13 : V (Proc.devRef .tc main_v13) = ReadP.val_main_v13 X.x3
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v170 : V (Proc.devRef .tc main_v170) = ReadP.val_main_v170 X.x0 X.x1 X.x2 X.x3 X.x8 X.x9 X.x10 X.x11 X.x12 X.x13 X.x14 X.x15 X.x16 X.x17 X.x18 X.x19 X.x20 X.x21 X.x22 X.x23 X.x24 X.x25 X.x26 X.x27
  v187 : V (Proc.devRef .tc main_v187) = ReadP.val_main_v187 X.x0 X.x1 X.x2 X.x3 X.x8 X.x9 X.x10 X.x11 X.x12 X.x13 X.x14 X.x15 X.x16 X.x17 X.x18 X.x19 X.x20 X.x21 X.x22 X.x23 X.x24 X.x25 X.x26 X.x27
  v205 : V (Proc.devRef .tc main_v205) = ReadP.val_main_v205 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 256: each buffer written so far that a later operation reads. -/
structure Inv14 (V : Valuation τ sig (Elt F)) (X : Args F) : Prop where
  args : ArgsAt V X
  v11 : V (Proc.devRef .tc main_v11) = ReadP.val_main_v11 X.x2
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v215 : V (Proc.devRef .tc main_v215) = ReadP.val_main_v215 X.x0 X.x1 X.x2 X.x3 X.x8 X.x9 X.x10 X.x11 X.x12 X.x13 X.x14 X.x15 X.x16 X.x17 X.x18 X.x19 X.x20 X.x21 X.x22 X.x23 X.x24 X.x25 X.x26 X.x27
  v219 : V (Proc.devRef .tc main_v219) = ReadP.val_main_v219 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 261: each buffer written so far that a later operation reads. -/
structure Inv15 (V : Valuation τ sig (Elt F)) (X : Args F) : Prop where
  args : ArgsAt V X
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v223 : V (Proc.devRef .tc main_v223) = ReadP.val_main_v223 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 281: each buffer written so far that a later operation reads. -/
structure Inv16 (V : Valuation τ sig (Elt F)) (X : Args F) : Prop where
  args : ArgsAt V X
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v232 : V (Proc.devRef .tc main_v232) = ReadP.val_main_v232 X.x0 X.x1 X.x2 X.x3 X.x8 X.x9 X.x10 X.x11 X.x12 X.x13 X.x14 X.x15 X.x16 X.x17 X.x18 X.x19 X.x20 X.x21 X.x22 X.x23 X.x24 X.x25 X.x26 X.x27
  v236 : V (Proc.devRef .tc main_v236) = ReadP.val_main_v236 X.x0 X.x1 X.x2 X.x3 X.x8 X.x9 X.x10 X.x11 X.x12 X.x13 X.x14 X.x15 X.x16 X.x17 X.x18 X.x19 X.x20 X.x21 X.x22 X.x23 X.x24 X.x25 X.x26 X.x27
  v240 : V (Proc.devRef .tc main_v240) = ReadP.val_main_v240 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 298: each buffer written so far that a later operation reads. -/
structure Inv17 (V : Valuation τ sig (Elt F)) (X : Args F) : Prop where
  args : ArgsAt V X
  v138 : V (Proc.devRef .tc main_v138) = ReadP.val_main_v138 X.x0 X.x1 X.x2 X.x3 X.x8 X.x9 X.x10 X.x11 X.x12 X.x13 X.x14 X.x15 X.x16 X.x17 X.x18 X.x19 X.x20 X.x21 X.x22 X.x23 X.x24 X.x25 X.x26 X.x27
  v255 : V (Proc.devRef .tc main_v255) = ReadP.val_main_v255 X.x0 X.x1 X.x2 X.x3 X.x8 X.x9 X.x10 X.x11 X.x12 X.x13 X.x14 X.x15 X.x16 X.x17 X.x18 X.x19 X.x20 X.x21 X.x22 X.x23 X.x24 X.x25 X.x26 X.x27

/-- After operation 320: each buffer written so far that a later operation reads. -/
structure Inv18 (V : Valuation τ sig (Elt F)) (X : Args F) : Prop where
  args : ArgsAt V X
  v266 : V (Proc.devRef .tc main_v266) = ReadP.val_main_v266 X.x0 X.x1 X.x2 X.x3 X.x4 X.x8 X.x9 X.x10 X.x11 X.x12 X.x13 X.x14 X.x15 X.x16 X.x17 X.x18 X.x19 X.x20 X.x21 X.x22 X.x23 X.x24 X.x25 X.x26 X.x27
  v270 : V (Proc.devRef .tc main_v270) = ReadP.val_main_v270 X.x4

/-- After operation 333: each buffer written so far that a later operation reads (here: the two computed results). -/
structure Inv19 (V : Valuation τ sig (Elt F)) (X : Args F) : Prop where
  args : ArgsAt V X
  v272 : V (Proc.devRef .tc main_v272) = ReadP.val_main_v272 X.x0 X.x1 X.x2 X.x3 X.x4 X.x8 X.x9 X.x10 X.x11 X.x12 X.x13 X.x14 X.x15 X.x16 X.x17 X.x18 X.x19 X.x20 X.x21 X.x22 X.x23 X.x24 X.x25 X.x26 X.x27
  v281 : V (Proc.devRef .tc main_v281) = ReadP.val_main_v281 X.x0 X.x1 X.x2 X.x3 X.x4 X.x7 X.x8 X.x9 X.x10 X.x11 X.x12 X.x13 X.x14 X.x15 X.x16 X.x17 X.x18 X.x19 X.x20 X.x21 X.x22 X.x23 X.x24 X.x25 X.x26 X.x27 X.x28 X.x29 X.x30 X.x31

end Cert.ReferenceIdeal.RefRun

end
-- ==== Proof.LibNary3.lean ====
-- What a three-operand host operation's result reference holds after it.
import Idealize.ShloMosaic.Lib.StableHlo.Run
import Mathlib.Tactic.FinCases

noncomputable section

namespace Idealize.ShloMosaic.StableHlo

theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

theorem nary3_result_of' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) (vx : x.ty.Contents Val) (va : a.ty.Contents Val) (vb : b.ty.Contents Val)
    (hx : F (Proc.devRef .tc x) = vx) (ha : F (Proc.devRef .tc a) = va) (hb : F (Proc.devRef .tc b) = vb) :
    (nary (τ := τ) ![x, a, b] y f hxs hy).result F (no_index (Proc.devRef .tc y))
      = f (Fin.cons vx (Fin.cons va (Fin.cons vb (fun i => i.elim0)))) := by
  subst hx ha hb; exact nary3_result f hxs hy F

end Idealize.ShloMosaic.StableHlo

end
-- ==== Proof.RefRun1.lean ====
-- The reference's run through its first printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ binary main_arg0 main_arg8 main_v0 ((fun l r => Host.dotGeneral dot_S50000x32_S32x128_S50000x128_1_0_0_1_n_n none l r)),
    unary main_arg9 main_v1 (broadcastInDim S1x128 ![1] bcast_S128_S1x128_1),
    unary main_v1 main_v2 (broadcastInDim S50000x128 ![0, 1] bcast_S1x128_S50000x128_0_1),
    binary main_v0 main_v2 main_v3 (addf),
    binary main_arg1 main_arg10 main_v4 ((fun l r => Host.dotGeneral dot_S400000x8_S8x128_S400000x128_1_0_0_1_n_n none l r)),
    unary main_arg11 main_v5 (broadcastInDim S1x128 ![1] bcast_S128_S1x128_1),
    unary main_v5 main_v6 (broadcastInDim S400000x128 ![0, 1] bcast_S1x128_S400000x128_0_1),
    binary main_v4 main_v6 main_v7 (addf),
    unary main_arg2 main_v8 ((extractStridedSlice S1x400000 ![0, 0] · slices_S2x400000_S1x400000_0_0)),
    reshape main_v8 main_v9 rfl shapeCasts_S1x400000_S400000,
    unary main_arg2 main_v10 ((extractStridedSlice S1x400000 ![1, 0] · slices_S2x400000_S1x400000_1_0)),
    reshape main_v10 main_v11 rfl shapeCasts_S1x400000_S400000 ]

abbrev W0 : List (Ref sig .tc) := [main_v0, main_v1, main_v2, main_v3, main_v4, main_v5, main_v6, main_v7, main_v8, main_v9, main_v10, main_v11]

theorem ops0_writes : (ops0 : List (HloOp τ sig (Elt F))).Forall fun op => op.writes ⊆ (W0.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub ..⟩

theorem ops0_fresh : ∀ op ∈ (ops0 : List (HloOp τ sig (Elt F))), op.fresh = ∅ := by
  intro _ h; (repeat (cases h with | head => rfl | tail _ h => ?_)); exact nomatch h

theorem step0 (V : Valuation τ sig (Elt F)) (X : Args F) (h : ArgsAt V X) : Inv0 (after ops0 V) X where
  args := h.after ops0 W0 ops0_writes (by decide)
  v3 := by
    fold_results
    simp only [h.a0, h.a8, h.a9]
    rfl
  v7 := by
    fold_results
    simp only [h.a1, h.a10, h.a11]
    rfl
  v9 := by
    fold_results
    simp only [h.a2]
    rfl
  v11 := by
    fold_results
    simp only [h.a2]
    rfl

abbrev ops1 : List (HloOp τ sig (Elt F)) :=
  [ unary main_arg3 main_v12 (sitofp .f32),
    unary main_v12 main_v13 (broadcastInDim S400000x1 ![0] bcast_S400000_S400000x1_0),
    nullary main_c (constantI S_ 32 0#32),
    unary main_c main_v14 (broadcastInDim S400000 ![] bcast_S_S400000),
    binary main_v11 main_v14 main_v15 (cmpi .slt),
    nullary main_c_0 (constantI S_ 32 50000#32),
    unary main_c_0 main_v16 (broadcastInDim S400000 ![] bcast_S_S400000),
    binary main_v11 main_v16 main_v17 (addi),
    ternary main_v15 main_v17 main_v11 main_v18 (select),
    unary main_v18 main_v19 (broadcastInDim S400000x1 ![0] bcast_S400000_S400000x1_0),
    binary main_v3 main_v19 main_v20 ((fun x i => Host.gather gather_S50000x128_S400000x1_S400000x128_1_0_n_n_0_1_1128 x i)),
    nullary main_c_1 (constantI S_ 32 0#32),
    unary main_c_1 main_v21 (broadcastInDim S400000 ![] bcast_S_S400000),
    binary main_v9 main_v21 main_v22 (cmpi .slt),
    nullary main_c_2 (constantI S_ 32 50000#32),
    unary main_c_2 main_v23 (broadcastInDim S400000 ![] bcast_S_S400000),
    binary main_v9 main_v23 main_v24 (addi),
    ternary main_v22 main_v24 main_v9 main_v25 (select),
    unary main_v25 main_v26 (broadcastInDim S400000x1 ![0] bcast_S400000_S400000x1_0),
    binary main_v3 main_v26 main_v27 ((fun x i => Host.gather gather_S50000x128_S400000x1_S400000x128_1_0_n_n_0_1_1128 x i)) ]

abbrev W1 : List (Ref sig .tc) := [main_v12, main_v13, main_c, main_v14, main_v15, main_c_0, main_v16, main_v17, main_v18, main_v19, main_v20, main_c_1, main_v21, main_v22, main_c_2, main_v23, main_v24, main_v25, main_v26, main_v27]

theorem ops1_writes : (ops1 : List (HloOp τ sig (Elt F))).Forall fun op => op.writes ⊆ (W1.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops1_sub : (ops1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

theorem step1 (V : Valuation τ sig (Elt F)) (X : Args F) (h : Inv0 V X) : Inv1 (after ops1 V) X where
  args := h.args.after ops1 W1 ops1_writes (by decide)
  v3 := (after_of_writes_sub ops1 V ops1_writes (by decide)).trans h.v3
  v7 := (after_of_writes_sub ops1 V ops1_writes (by decide)).trans h.v7
  v9 := (after_of_writes_sub ops1 V ops1_writes (by decide)).trans h.v9
  v11 := (after_of_writes_sub ops1 V ops1_writes (by decide)).trans h.v11
  v13 := by
    fold_results
    simp only [h.args.a3]
    rfl
  v20 := by
    fold_results
    simp only [h.v3, h.v11]
    rfl
  v27 := by
    fold_results
    simp only [h.v3, h.v9]
    rfl

abbrev ops2 : List (HloOp τ sig (Elt F)) :=
  [ nary ![main_v20, main_v27, main_v7] main_v28 (fun u => concatenate S400000x384 1 [⟨S400000x128, u 0⟩, ⟨S400000x128, u 1⟩, ⟨S400000x128, u 2⟩] concatenates_S400000x128_S400000x128_S400000x128_S400000x384_d1),
    unary main_arg12 main_v29 ((extractStridedSlice S1x384x128 ![0, 0, 0] · slices_S2x384x128_S1x384x128_0_0_0)),
    reshape main_v29 main_v30 rfl shapeCasts_S1x384x128_S384x128,
    binary main_v28 main_v30 main_v31 ((fun l r => Host.dotGeneral dot_S400000x384_S384x128_S400000x128_1_0_0_1_n_n none l r)),
    unary main_arg13 main_v32 ((extractStridedSlice S1x128 ![0, 0] · slices_S2x128_S1x128_0_0)),
    reshape main_v32 main_v33 rfl shapeCasts_S1x128_S128,
    unary main_v33 main_v34 (broadcastInDim S1x128 ![1] bcast_S128_S1x128_1),
    unary main_v34 main_v35 (broadcastInDim S400000x128 ![0, 1] bcast_S1x128_S400000x128_0_1),
    binary main_v31 main_v35 main_v36 (addf),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v36) (TRef.of (T := ⟨S400000x128, .f32⟩) main_call0_v0) (TRef.of (T := ⟨S400000x128, .f32⟩) main_v37) maximumf,
    unary main_arg14 main_v38 ((extractStridedSlice S1x128x128 ![0, 0, 0] · slices_S2x128x128_S1x128x128_0_0_0)),
    reshape main_v38 main_v39 rfl shapeCasts_S1x128x128_S128x128,
    binary main_v37 main_v39 main_v40 ((fun l r => Host.dotGeneral dot_S400000x128_S128x128_S400000x128_1_0_0_1_n_n none l r)) ]

abbrev W2 : List (Ref sig .tc) := [main_v28, main_v29, main_v30, main_v31, main_v32, main_v33, main_v34, main_v35, main_v36, main_call0_cst, main_call0_v0, main_v37, main_v38, main_v39, main_v40]

theorem ops2_writes : (ops2 : List (HloOp τ sig (Elt F))).Forall fun op => op.writes ⊆ (W2.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops2_sub : (ops2 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩

theorem ops2_fresh : ∀ op ∈ (ops2 : List (HloOp τ sig (Elt F))), op.fresh = ∅ := by
  intro _ h; (repeat (cases h with | head => rfl | tail _ h => ?_)); exact nomatch h

theorem step2 (V : Valuation τ sig (Elt F)) (X : Args F) (h : Inv1 V X) : Inv2 (after ops2 V) X where
  args := h.args.after ops2 W2 ops2_writes (by decide)
  v3 := (after_of_writes_sub ops2 V ops2_writes (by decide)).trans h.v3
  v7 := (after_of_writes_sub ops2 V ops2_writes (by decide)).trans h.v7
  v9 := (after_of_writes_sub ops2 V ops2_writes (by decide)).trans h.v9
  v11 := (after_of_writes_sub ops2 V ops2_writes (by decide)).trans h.v11
  v13 := (after_of_writes_sub ops2 V ops2_writes (by decide)).trans h.v13
  v20 := (after_of_writes_sub ops2 V ops2_writes (by decide)).trans h.v20
  v27 := (after_of_writes_sub ops2 V ops2_writes (by decide)).trans h.v27
  v28 := by
    fold_results
    simp only [nary3_result_of' _ _ _ V _ _ _ h.v20 h.v27 h.v7]
    rfl
  v40 := by
    fold_results
    simp only [nary3_result_of' _ _ _ V _ _ _ h.v20 h.v27 h.v7, h.args.a12, h.args.a13, h.args.a14]
    rfl

abbrev ops3 : List (HloOp τ sig (Elt F)) :=
  [ unary main_arg15 main_v41 ((extractStridedSlice S1x128 ![0, 0] · slices_S2x128_S1x128_0_0)),
    reshape main_v41 main_v42 rfl shapeCasts_S1x128_S128,
    unary main_v42 main_v43 (broadcastInDim S1x128 ![1] bcast_S128_S1x128_1),
    unary main_v43 main_v44 (broadcastInDim S400000x128 ![0, 1] bcast_S1x128_S400000x128_0_1),
    binary main_v40 main_v44 main_v45 (addf),
    unary main_arg16 main_v46 ((extractStridedSlice S1x384x128 ![0, 0, 0] · slices_S2x384x128_S1x384x128_0_0_0)),
    reshape main_v46 main_v47 rfl shapeCasts_S1x384x128_S384x128,
    binary main_v28 main_v47 main_v48 ((fun l r => Host.dotGeneral dot_S400000x384_S384x128_S400000x128_1_0_0_1_n_n none l r)),
    unary main_arg17 main_v49 ((extractStridedSlice S1x128 ![0, 0] · slices_S2x128_S1x128_0_0)),
    reshape main_v49 main_v50 rfl shapeCasts_S1x128_S128,
    unary main_v50 main_v51 (broadcastInDim S1x128 ![1] bcast_S128_S1x128_1),
    unary main_v51 main_v52 (broadcastInDim S400000x128 ![0, 1] bcast_S1x128_S400000x128_0_1),
    binary main_v48 main_v52 main_v53 (addf),
    TRef.nullary (TRef.of (T := ⟨S_, .f32⟩) main_call1_cst) (constant S_ .f32 0x00000000#32),
    TRef.unary (TRef.of (T := ⟨S_, .f32⟩) main_call1_cst) (TRef.of (T := ⟨S400000x128, .f32⟩) main_call1_v0) (broadcastInDim S400000x128 ![] bcast_S_S400000x128),
    TRef.binary (TRef.of (T := ⟨S400000x128, .f32⟩) main_v53) (TRef.of (T := ⟨S400000x128, .f32⟩) main_call1_v0) (TRef.of (T := ⟨S400000x128, .f32⟩) main_v54) maximumf,
    unary main_arg18 main_v55 ((extractStridedSlice S1x128x128 ![0, 0, 0] · slices_S2x128x128_S1x128x128_0_0_0)) ]

abbrev W3 : List (Ref sig .tc) := [main_v41, main_v42, main_v43, main_v44, main_v45, main_v46, main_v47, main_v48, main_v49, main_v50, main_v51, main_v52, main_v53, main_call1_cst, main_call1_v0, main_v54, main_v55]

theorem ops3_writes : (ops3 : List (HloOp τ sig (Elt F))).Forall fun op => op.writes ⊆ (W3.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops3_sub : (ops3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩

theorem ops3_fresh : ∀ op ∈ (ops3 : List (HloOp τ sig (Elt F))), op.fresh = ∅ := by
  intro _ h; (repeat (cases h with | head => rfl | tail _ h => ?_)); exact nomatch h

theorem step3 (V : Valuation τ sig (Elt F)) (X : Args F) (h : Inv2 V X) : Inv3 (after ops3 V) X where
  args := h.args.after ops3 W3 ops3_writes (by decide)
  v3 := (after_of_writes_sub ops3 V ops3_writes (by decide)).trans h.v3
  v7 := (after_of_writes_sub ops3 V ops3_writes (by decide)).trans h.v7
  v9 := (after_of_writes_sub ops3 V ops3_writes (by decide)).trans h.v9
  v11 := (after_of_writes_sub ops3 V ops3_writes (by decide)).trans h.v11
  v13 := (after_of_writes_sub ops3 V ops3_writes (by decide)).trans h.v13
  v20 := (after_of_writes_sub ops3 V ops3_writes (by decide)).trans h.v20
  v27 := (after_of_writes_sub ops3 V ops3_writes (by decide)).trans h.v27
  v45 := by
    fold_results
    simp only [h.v40, h.args.a15]
    rfl
  v54 := by
    fold_results
    simp only [h.v28, h.args.a16, h.args.a17]
    rfl
  v55 := by
    fold_results
    simp only [h.args.a18]
    rfl

abbrev opsP0 : List (HloOp τ sig (Elt F)) := ops0 ++ (ops1 ++ (ops2 ++ (ops3)))

theorem main_part0_eq (c : Dev nD) : main_part0 (F := F) c = seq opsP0 := by
  chain_rfl

theorem opsP0_sub : (opsP0 : List (HloOp τ sig (Elt F))).Forall fun op => op.bufs ⊆ tcRefs τ sig :=
  List.forall_append.2 ⟨ops0_sub, List.forall_append.2 ⟨ops1_sub, List.forall_append.2 ⟨ops2_sub, ops3_sub⟩⟩⟩

theorem opsP0_fresh : ∀ op ∈ (opsP0 : List (HloOp τ sig (Elt F))), op.fresh = ∅ := by
  intro op hop
  simp only [opsP0, List.mem_append] at hop
  rcases hop with hop | hop | hop | hop
  · exact ops0_fresh op hop
  · exact ops1_fresh op hop
  · exact ops2_fresh op hop
  · exact ops3_fresh op hop

theorem stepP0 (V : Valuation τ sig (Elt F)) (X : Args F) (h : ArgsAt V X) : Inv3 (after opsP0 V) X := by
  simp only [opsP0, after_append]
  exact step3 _ X (step2 _ X (step1 _ X (step0 _ X (h))))

end Cert.ReferenceIdeal.RefRun

end
-- ==== Proof.RefRun2.lean ====
-- The reference's run through its second printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ reshape main_v55 main_v56 rfl shapeCasts_S1x128x128_S128x128,
    binary main_v54 main_v56 main_v57 ((fun l r => Host.dotGeneral dot_S400000x128_S128x128_S400000x128_1_0_0_1_n_n none l r)),
    unary main_arg19 main_v58 ((extractStridedSlice S1x128 ![0, 0] · slices_S2x128_S1x128_0_0)),
    reshape main_v58 main_v59 rfl shapeCasts_S1x128_S128,
    unary main_v59 main_v60 (broadcastInDim S1x128 ![1] bcast_S128_S1x128_1),
    unary main_v60 main_v61 (broadcastInDim S400000x128 ![0, 1] bcast_S1x128_S400000x128_0_1),
    binary main_v57 main_v61 main_v62 (addf) ]

abbrev W4 : List (Ref sig .tc) := [main_v56, main_v57, main_v58, main_v59, main_v60, main_v61, main_v62]

theorem ops4_writes : (ops4 : List (HloOp τ sig (Elt F))).Forall fun op => op.writes ⊆ (W4.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops4_sub : (ops4 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

theorem step4 (V : Valuation τ sig (Elt F)) (X : Args F) (h : Inv3 V X) : Inv4 (after ops4 V) X where
  args := h.args.after ops4 W4 ops4_writes (by decide)
  v3 := (after_of_writes_sub ops4 V ops4_writes (by decide)).trans h.v3
  v7 := (after_of_writes_sub ops4 V ops4_writes (by decide)).trans h.v7
  v9 := (after_of_writes_sub ops4 V ops4_writes (by decide)).trans h.v9
  v11 := (after_of_writes_sub ops4 V ops4_writes (by decide)).trans h.v11
  v13 := (after_of_writes_sub ops4 V ops4_writes (by decide)).trans h.v13
  v20 := (after_of_writes_sub ops4 V ops4_writes (by decide)).trans h.v20
  v27 := (after_of_writes_sub ops4 V ops4_writes (by decide)).trans h.v27
  v45 := (after_of_writes_sub ops4 V ops4_writes (by decide)).trans h.v45
  v62 := by
    fold_results
    rw [h.v54, h.v55, h.args.a19]
    rfl

abbrev ops5 : List (HloOp τ sig (Elt F)) :=
  [ binary main_v20 main_v27 main_v63 ((fun a b => concatenate S400000x256 1 [⟨S400000x128, a⟩, ⟨S400000x128, b⟩] concatenates_S400000x128_S400000x128_S400000x256_d1)),
    unary main_arg20 main_v64 ((extractStridedSlice S1x256x64 ![0, 0, 0] · slices_S2x256x64_S1x256x64_0_0_0)),
    reshape main_v64 main_v65 rfl shapeCasts_S1x256x64_S256x64,
    binary main_v63 main_v65 main_v66 ((fun l r => Host.dotGeneral dot_S400000x256_S256x64_S400000x64_1_0_0_1_n_n none l r)),
    unary main_arg21 main_v67 ((extractStridedSlice S1x64 ![0, 0] · slices_S2x64_S1x64_0_0)),
    reshape main_v67 main_v68 rfl shapeCasts_S1x64_S64,
    unary main_v68 main_v69 (broadcastInDim S1x64 ![1] bcast_S64_S1x64_1),
    unary main_v69 main_v70 (broadcastInDim S400000x64 ![0, 1] bcast_S1x64_S400000x64_0_1),
    binary main_v66 main_v70 main_v71 (addf),
    TRef.nullary (TRef.of (T := ⟨S_, .f32⟩) main_call2_cst) (constant S_ .f32 0x00000000#32),
    TRef.unary (TRef.of (T := ⟨S_, .f32⟩) main_call2_cst) (TRef.of (T := ⟨S400000x64, .f32⟩) main_call2_v0) (broadcastInDim S400000x64 ![] bcast_S_S400000x64),
    TRef.binary (TRef.of (T := ⟨S400000x64, .f32⟩) main_v71) (TRef.of (T := ⟨S400000x64, .f32⟩) main_call2_v0) (TRef.of (T := ⟨S400000x64, .f32⟩) main_v72) maximumf,
    unary main_arg22 main_v73 ((extractStridedSlice S1x64x1 ![0, 0, 0] · slices_S2x64x1_S1x64x1_0_0_0)),
    reshape main_v73 main_v74 rfl shapeCasts_S1x64x1_S64x1,
    binary main_v72 main_v74 main_v75 ((fun l r => Host.dotGeneral dot_S400000x64_S64x1_S400000x1_1_0_0_1_n_n none l r)),
    unary main_arg23 main_v76 ((extractStridedSlice S1x1 ![0, 0] · slices_S2x1_S1x1_0_0)),
    reshape main_v76 main_v77 rfl shapeCasts_S1x1_S1,
    unary main_v77 main_v78 (broadcastInDim S1x1 ![1] bcast_S1_S1x1_1),
    unary main_v78 main_v79 (broadcastInDim S400000x1 ![0, 1] bcast_S1x1_S400000x1_0_1),
    binary main_v75 main_v79 main_v80 (addf),
    unary main_v80 main_v81 (Host.negf) ]

abbrev W5 : List (Ref sig .tc) := [main_v63, main_v64, main_v65, main_v66, main_v67, main_v68, main_v69, main_v70, main_v71, main_call2_cst, main_call2_v0, main_v72, main_v73, main_v74, main_v75, main_v76, main_v77, main_v78, main_v79, main_v80, main_v81]

theorem ops5_writes : (ops5 : List (HloOp τ sig (Elt F))).Forall fun op => op.writes ⊆ (W5.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops5_sub : (ops5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩

theorem ops5_fresh : ∀ op ∈ (ops5 : List (HloOp τ sig (Elt F))), op.fresh = ∅ := by
  intro _ h; (repeat (cases h with | head => rfl | tail _ h => ?_)); exact nomatch h

theorem step5 (V : Valuation τ sig (Elt F)) (X : Args F) (h : Inv4 V X) : Inv5 (after ops5 V) X where
  args := h.args.after ops5 W5 ops5_writes (by decide)
  v3 := (after_of_writes_sub ops5 V ops5_writes (by decide)).trans h.v3
  v7 := (after_of_writes_sub ops5 V ops5_writes (by decide)).trans h.v7
  v9 := (after_of_writes_sub ops5 V ops5_writes (by decide)).trans h.v9
  v11 := (after_of_writes_sub ops5 V ops5_writes (by decide)).trans h.v11
  v13 := (after_of_writes_sub ops5 V ops5_writes (by decide)).trans h.v13
  v45 := (after_of_writes_sub ops5 V ops5_writes (by decide)).trans h.v45
  v62 := (after_of_writes_sub ops5 V ops5_writes (by decide)).trans h.v62
  v81 := by
    fold_results
    rw [h.v20, h.v27, h.args.a20, h.args.a21, h.args.a22, h.args.a23]
    rfl

abbrev ops6 : List (HloOp τ sig (Elt F)) :=
  [ unary main_v81 main_v82 (Host.exp),
    nullary main_cst (constant S_ .f32 0x3F800000#32),
    unary main_cst main_v83 (broadcastInDim S400000x1 ![] bcast_S_S400000x1),
    binary main_v83 main_v82 main_v84 (addf),
    nullary main_cst_3 (constant S_ .f32 0x3F800000#32),
    unary main_cst_3 main_v85 (broadcastInDim S400000x1 ![] bcast_S_S400000x1),
    binary main_v85 main_v84 main_v86 (Host.divf),
    nullary main_cst_4 (constant S_ .f32 0x3F800000#32),
    unary main_cst_4 main_v87 (broadcastInDim S400000x1 ![] bcast_S_S400000x1),
    binary main_v87 main_v13 main_v88 (subf),
    unary main_v88 main_v89 (broadcastInDim S400000x128 ![0, 1] bcast_S400000x1_S400000x128_0_1),
    binary main_v89 main_v45 main_v90 (mulf),
    unary main_v86 main_v91 (broadcastInDim S400000x128 ![0, 1] bcast_S400000x1_S400000x128_0_1),
    binary main_v62 main_v91 main_v92 (mulf),
    unary main_v13 main_v93 (broadcastInDim S400000x128 ![0, 1] bcast_S400000x1_S400000x128_0_1),
    binary main_v93 main_v92 main_v94 (mulf),
    binary main_v90 main_v94 main_v95 (addf),
    nullary main_cst_5 (constant S_ .f32 0x00000000#32),
    unary main_cst_5 main_v96 (broadcastInDim S50000x128 ![] bcast_S_S50000x128),
    unary main_v11 main_v97 (broadcastInDim S400000x1 ![0] bcast_S400000_S400000x1_0),
    ternary main_v96 main_v97 main_v95 main_v98 ((fun x i u => Host.scatterAdd scatter_S50000x128_S400000x1_S400000x128_1_0_0_1 x i u)) ]

abbrev W6 : List (Ref sig .tc) := [main_v82, main_cst, main_v83, main_v84, main_cst_3, main_v85, main_v86, main_cst_4, main_v87, main_v88, main_v89, main_v90, main_v91, main_v92, main_v93, main_v94, main_v95, main_cst_5, main_v96, main_v97, main_v98]

theorem ops6_writes : (ops6 : List (HloOp τ sig (Elt F))).Forall fun op => op.writes ⊆ (W6.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops6_sub : (ops6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., nullary_bufs_sub .., unary_bufs_sub .., unary_bufs_sub .., ternary_bufs_sub ..⟩

theorem ops6_fresh : ∀ op ∈ (ops6 : List (HloOp τ sig (Elt F))), op.fresh = ∅ := by
  intro _ h; (repeat (cases h with | head => rfl | tail _ h => ?_)); exact nomatch h

theorem step6 (V : Valuation τ sig (Elt F)) (X : Args F) (h : Inv5 V X) : Inv6 (after ops6 V) X where
  args := h.args.after ops6 W6 ops6_writes (by decide)
  v3 := (after_of_writes_sub ops6 V ops6_writes (by decide)).trans h.v3
  v7 := (after_of_writes_sub ops6 V ops6_writes (by decide)).trans h.v7
  v9 := (after_of_writes_sub ops6 V ops6_writes (by decide)).trans h.v9
  v11 := (after_of_writes_sub ops6 V ops6_writes (by decide)).trans h.v11
  v13 := (after_of_writes_sub ops6 V ops6_writes (by decide)).trans h.v13
  v98 := by
    fold_results
    rw [h.v11, h.v13, h.v45, h.v62, h.v81]
    rfl

abbrev ops7 : List (HloOp τ sig (Elt F)) :=
  [ binary main_v3 main_v98 main_v99 ((fun a b => concatenate S50000x256 1 [⟨S50000x128, a⟩, ⟨S50000x128, b⟩] concatenates_S50000x128_S50000x128_S50000x256_d1)),
    unary main_arg24 main_v100 ((extractStridedSlice S1x256x128 ![0, 0, 0] · slices_S2x256x128_S1x256x128_0_0_0)),
    reshape main_v100 main_v101 rfl shapeCasts_S1x256x128_S256x128,
    binary main_v99 main_v101 main_v102 ((fun l r => Host.dotGeneral dot_S50000x256_S256x128_S50000x128_1_0_0_1_n_n none l r)),
    unary main_arg25 main_v103 ((extractStridedSlice S1x128 ![0, 0] · slices_S2x128_S1x128_0_0)),
    reshape main_v103 main_v104 rfl shapeCasts_S1x128_S128,
    unary main_v104 main_v105 (broadcastInDim S1x128 ![1] bcast_S128_S1x128_1),
    unary main_v105 main_v106 (broadcastInDim S50000x128 ![0, 1] bcast_S1x128_S50000x128_0_1),
    binary main_v102 main_v106 main_v107 (addf),
    nullary main_cst_6 (constant S_ .f32 0x00000000#32),
    binary main_v107 main_cst_6 main_v108 ((fun x v => Host.reduceAdd x v reducesTo_S50000x128_S50000_d1 h_S_)),
    unary main_v108 main_v109 (broadcastInDim S50000x1 ![0] bcast_S50000_S50000x1_0),
    nullary main_cst_7 (constant S_ .f32 0x43000000#32) ]

abbrev W7 : List (Ref sig .tc) := [main_v99, main_v100, main_v101, main_v102, main_v103, main_v104, main_v105, main_v106, main_v107, main_cst_6, main_v108, main_v109, main_cst_7]

theorem ops7_writes : (ops7 : List (HloOp τ sig (Elt F))).Forall fun op => op.writes ⊆ (W7.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops7_sub : (ops7 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., binary_bufs_sub .., unary_bufs_sub .., nullary_bufs_sub ..⟩

theorem ops7_fresh : ∀ op ∈ (ops7 : List (HloOp τ sig (Elt F))), op.fresh = ∅ := by
  intro _ h; (repeat (cases h with | head => rfl | tail _ h => ?_)); exact nomatch h

theorem step7 (V : Valuation τ sig (Elt F)) (X : Args F) (h : Inv6 V X) : Inv7 (after ops7 V) X where
  args := h.args.after ops7 W7 ops7_writes (by decide)
  v3 := (after_of_writes_sub ops7 V ops7_writes (by decide)).trans h.v3
  v7 := (after_of_writes_sub ops7 V ops7_writes (by decide)).trans h.v7
  v9 := (after_of_writes_sub ops7 V ops7_writes (by decide)).trans h.v9
  v11 := (after_of_writes_sub ops7 V ops7_writes (by decide)).trans h.v11
  v13 := (after_of_writes_sub ops7 V ops7_writes (by decide)).trans h.v13
  v107 := by
    fold_results
    rw [h.v3, h.v98, h.args.a24, h.args.a25]
    rfl
  v109 := by
    fold_results
    rw [h.v3, h.v98, h.args.a24, h.args.a25]
    rfl
  cst_7 := by
    fold_results
    rfl

abbrev opsP1 : List (HloOp τ sig (Elt F)) := ops4 ++ (ops5 ++ (ops6 ++ (ops7)))

theorem main_part1_eq (c : Dev nD) : main_part1 (F := F) c = seq opsP1 := by
  chain_rfl

theorem opsP1_sub : (opsP1 : List (HloOp τ sig (Elt F))).Forall fun op => op.bufs ⊆ tcRefs τ sig :=
  List.forall_append.2 ⟨ops4_sub, List.forall_append.2 ⟨ops5_sub, List.forall_append.2 ⟨ops6_sub, ops7_sub⟩⟩⟩

theorem opsP1_fresh : ∀ op ∈ (opsP1 : List (HloOp τ sig (Elt F))), op.fresh = ∅ := by
  intro op hop
  simp only [opsP1, List.mem_append] at hop
  rcases hop with hop | hop | hop | hop
  · exact ops4_fresh op hop
  · exact ops5_fresh op hop
  · exact ops6_fresh op hop
  · exact ops7_fresh op hop

theorem stepP1 (V : Valuation τ sig (Elt F)) (X : Args F) (h : Inv3 V X) : Inv7 (after opsP1 V) X := by
  simp only [opsP1, after_append]
  exact step7 _ X (step6 _ X (step5 _ X (step4 _ X (h))))

end Cert.ReferenceIdeal.RefRun

end
-- ==== Proof.RefRun3.lean ====
-- The reference's run through its third printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops8 : List (HloOp τ sig (Elt F)) :=
  [ unary main_cst_7 main_v110 (broadcastInDim S50000x1 ![] bcast_S_S50000x1),
    binary main_v109 main_v110 main_v111 (Host.divf),
    unary main_v111 main_v112 (broadcastInDim S50000x128 ![0, 1] bcast_S50000x1_S50000x128_0_1),
    binary main_v107 main_v112 main_v113 (subf),
    binary main_v113 main_v113 main_v114 (mulf),
    nullary main_cst_8 (constant S_ .f32 0x00000000#32),
    binary main_v114 main_cst_8 main_v115 ((fun x v => Host.reduceAdd x v reducesTo_S50000x128_S50000_d1 h_S_)),
    unary main_v115 main_v116 (broadcastInDim S50000x1 ![0] bcast_S50000_S50000x1_0),
    nullary main_cst_9 (constant S_ .f32 0x43000000#32),
    unary main_cst_9 main_v117 (broadcastInDim S50000x1 ![] bcast_S_S50000x1),
    binary main_v116 main_v117 main_v118 (Host.divf),
    unary main_v111 main_v119 (broadcastInDim S50000x128 ![0, 1] bcast_S50000x1_S50000x128_0_1),
    binary main_v107 main_v119 main_v120 (subf),
    nullary main_cst_10 (constant S_ .f32 0x3727C5AC#32),
    unary main_cst_10 main_v121 (broadcastInDim S50000x1 ![] bcast_S_S50000x1),
    binary main_v118 main_v121 main_v122 (addf),
    unary main_v122 main_v123 (Host.rsqrt),
    unary main_v123 main_v124 (broadcastInDim S50000x128 ![0, 1] bcast_S50000x1_S50000x128_0_1),
    binary main_v120 main_v124 main_v125 (mulf) ]

abbrev W8 : List (Ref sig .tc) := [main_v110, main_v111, main_v112, main_v113, main_v114, main_cst_8, main_v115, main_v116, main_cst_9, main_v117, main_v118, main_v119, main_v120, main_cst_10, main_v121, main_v122, main_v123, main_v124, main_v125]

theorem ops8_writes : (ops8 : List (HloOp τ sig (Elt F))).Forall fun op => op.writes ⊆ (W8.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops8_sub : (ops8 : List (HloOp τ sig (Elt F))).Forall fun op => op.bufs ⊆ tcRefs τ sig :=
  ⟨unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub ..⟩

theorem ops8_fresh : ∀ op ∈ (ops8 : List (HloOp τ sig (Elt F))), op.fresh = ∅ := by
  intro _ h; (repeat (cases h with | head => rfl | tail _ h => ?_)); exact nomatch h

theorem step8 (V : Valuation τ sig (Elt F)) (X : Args F) (h : Inv7 V X) : Inv8 (after ops8 V) X where
  args := h.args.after ops8 W8 ops8_writes (by decide)
  v3 := (after_of_writes_sub ops8 V ops8_writes (by decide)).trans h.v3
  v7 := (after_of_writes_sub ops8 V ops8_writes (by decide)).trans h.v7
  v9 := (after_of_writes_sub ops8 V ops8_writes (by decide)).trans h.v9
  v11 := (after_of_writes_sub ops8 V ops8_writes (by decide)).trans h.v11
  v13 := (after_of_writes_sub ops8 V ops8_writes (by decide)).trans h.v13
  v125 := by
    fold_results
    rw [h.v107, h.v109, h.cst_7]
    rfl

abbrev ops9 : List (HloOp τ sig (Elt F)) :=
  [ unary main_arg26 main_v126 ((extractStridedSlice S1x128 ![0, 0] · slices_S2x128_S1x128_0_0)),
    reshape main_v126 main_v127 rfl shapeCasts_S1x128_S128,
    unary main_v127 main_v128 (broadcastInDim S1x128 ![1] bcast_S128_S1x128_1),
    unary main_v128 main_v129 (broadcastInDim S50000x128 ![0, 1] bcast_S1x128_S50000x128_0_1),
    binary main_v125 main_v129 main_v130 (mulf),
    unary main_arg27 main_v131 ((extractStridedSlice S1x128 ![0, 0] · slices_S2x128_S1x128_0_0)),
    reshape main_v131 main_v132 rfl shapeCasts_S1x128_S128,
    unary main_v132 main_v133 (broadcastInDim S1x128 ![1] bcast_S128_S1x128_1),
    unary main_v133 main_v134 (broadcastInDim S50000x128 ![0, 1] bcast_S1x128_S50000x128_0_1),
    binary main_v130 main_v134 main_v135 (addf),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v135) (TRef.of (T := ⟨S50000x128, .f32⟩) main_call3_v0) (TRef.of (T := ⟨S50000x128, .f32⟩) main_v136) maximumf,
    binary main_v136 main_v3 main_v137 (addf),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v137) (TRef.of (T := ⟨S50000x128, .f32⟩) main_call4_v0) (TRef.of (T := ⟨S50000x128, .f32⟩) main_v138) maximumf ]

abbrev W9 : List (Ref sig .tc) := [main_v126, main_v127, main_v128, main_v129, main_v130, main_v131, main_v132, main_v133, main_v134, main_v135, main_call3_cst, main_call3_v0, main_v136, main_v137, main_call4_cst, main_call4_v0, main_v138]

theorem ops9_writes : (ops9 : List (HloOp τ sig (Elt F))).Forall fun op => op.writes ⊆ (W9.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops9_sub : (ops9 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub ..⟩

theorem ops9_fresh : ∀ op ∈ (ops9 : List (HloOp τ sig (Elt F))), op.fresh = ∅ := by
  intro _ h; (repeat (cases h with | head => rfl | tail _ h => ?_)); exact nomatch h

theorem step9 (V : Valuation τ sig (Elt F)) (X : Args F) (h : Inv8 V X) : Inv9 (after ops9 V) X where
  args := h.args.after ops9 W9 ops9_writes (by decide)
  v7 := (after_of_writes_sub ops9 V ops9_writes (by decide)).trans h.v7
  v9 := (after_of_writes_sub ops9 V ops9_writes (by decide)).trans h.v9
  v11 := (after_of_writes_sub ops9 V ops9_writes (by decide)).trans h.v11
  v13 := (after_of_writes_sub ops9 V ops9_writes (by decide)).trans h.v13
  v138 := by
    fold_results
    rw [h.v125, h.args.a26, h.args.a27, h.v3]
    rfl

abbrev ops10 : List (HloOp τ sig (Elt F)) :=
  [ nullary main_c_11 (constantI S_ 32 0#32),
    unary main_c_11 main_v139 (broadcastInDim S400000 ![] bcast_S_S400000),
    binary main_v11 main_v139 main_v140 (cmpi .slt),
    nullary main_c_12 (constantI S_ 32 50000#32),
    unary main_c_12 main_v141 (broadcastInDim S400000 ![] bcast_S_S400000),
    binary main_v11 main_v141 main_v142 (addi),
    ternary main_v140 main_v142 main_v11 main_v143 (select),
    unary main_v143 main_v144 (broadcastInDim S400000x1 ![0] bcast_S400000_S400000x1_0),
    binary main_v138 main_v144 main_v145 ((fun x i => Host.gather gather_S50000x128_S400000x1_S400000x128_1_0_n_n_0_1_1128 x i)),
    nullary main_c_13 (constantI S_ 32 0#32),
    unary main_c_13 main_v146 (broadcastInDim S400000 ![] bcast_S_S400000),
    binary main_v9 main_v146 main_v147 (cmpi .slt),
    nullary main_c_14 (constantI S_ 32 50000#32),
    unary main_c_14 main_v148 (broadcastInDim S400000 ![] bcast_S_S400000),
    binary main_v9 main_v148 main_v149 (addi),
    ternary main_v147 main_v149 main_v9 main_v150 (select),
    unary main_v150 main_v151 (broadcastInDim S400000x1 ![0] bcast_S400000_S400000x1_0),
    binary main_v138 main_v151 main_v152 ((fun x i => Host.gather gather_S50000x128_S400000x1_S400000x128_1_0_n_n_0_1_1128 x i)) ]

abbrev W10 : List (Ref sig .tc) := [main_c_11, main_v139, main_v140, main_c_12, main_v141, main_v142, main_v143, main_v144, main_v145, main_c_13, main_v146, main_v147, main_c_14, main_v148, main_v149, main_v150, main_v151, main_v152]

theorem ops10_writes : (ops10 : List (HloOp τ sig (Elt F))).Forall fun op => op.writes ⊆ (W10.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops10_sub : (ops10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops10_fresh : ∀ op ∈ (ops10 : List (HloOp τ sig (Elt F))), op.fresh = ∅ := by
  intro _ h; (repeat (cases h with | head => rfl | tail _ h => ?_)); exact nomatch h

theorem step10 (V : Valuation τ sig (Elt F)) (X : Args F) (h : Inv9 V X) : Inv10 (after ops10 V) X where
  args := h.args.after ops10 W10 ops10_writes (by decide)
  v7 := (after_of_writes_sub ops10 V ops10_writes (by decide)).trans h.v7
  v11 := (after_of_writes_sub ops10 V ops10_writes (by decide)).trans h.v11
  v13 := (after_of_writes_sub ops10 V ops10_writes (by decide)).trans h.v13
  v138 := (after_of_writes_sub ops10 V ops10_writes (by decide)).trans h.v138
  v145 := by
    fold_results
    rw [h.v138, h.v11]
    rfl
  v152 := by
    fold_results
    rw [h.v138, h.v9]
    rfl

abbrev ops11 : List (HloOp τ sig (Elt F)) :=
  [ nary ![main_v145, main_v152, main_v7] main_v153 (fun u => concatenate S400000x384 1 [⟨S400000x128, u 0⟩, ⟨S400000x128, u 1⟩, ⟨S400000x128, u 2⟩] concatenates_S400000x128_S400000x128_S400000x128_S400000x384_d1),
    unary main_arg12 main_v154 ((extractStridedSlice S1x384x128 ![1, 0, 0] · slices_S2x384x128_S1x384x128_1_0_0)),
    reshape main_v154 main_v155 rfl shapeCasts_S1x384x128_S384x128,
    binary main_v153 main_v155 main_v156 ((fun l r => Host.dotGeneral dot_S400000x384_S384x128_S400000x128_1_0_0_1_n_n none l r)),
    unary main_arg13 main_v157 ((extractStridedSlice S1x128 ![1, 0] · slices_S2x128_S1x128_1_0)),
    reshape main_v157 main_v158 rfl shapeCasts_S1x128_S128,
    unary main_v158 main_v159 (broadcastInDim S1x128 ![1] bcast_S128_S1x128_1),
    unary main_v159 main_v160 (broadcastInDim S400000x128 ![0, 1] bcast_S1x128_S400000x128_0_1),
    binary main_v156 main_v160 main_v161 (addf),
    TRef.nullary (TRef.of (T := ⟨S_, .f32⟩) main_call5_cst) (constant S_ .f32 0x00000000#32),
    TRef.unary (TRef.of (T := ⟨S_, .f32⟩) main_call5_cst) (TRef.of (T := ⟨S400000x128, .f32⟩) main_call5_v0) (broadcastInDim S400000x128 ![] bcast_S_S400000x128),
    TRef.binary (TRef.of (T := ⟨S400000x128, .f32⟩) main_v161) (TRef.of (T := ⟨S400000x128, .f32⟩) main_call5_v0) (TRef.of (T := ⟨S400000x128, .f32⟩) main_v162) maximumf ]

abbrev W11 : List (Ref sig .tc) := [main_v153, main_v154, main_v155, main_v156, main_v157, main_v158, main_v159, main_v160, main_v161, main_call5_cst, main_call5_v0, main_v162]

theorem ops11_writes : (ops11 : List (HloOp τ sig (Elt F))).Forall fun op => op.writes ⊆ (W11.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops11_sub : (ops11 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ops11_fresh : ∀ op ∈ (ops11 : List (HloOp τ sig (Elt F))), op.fresh = ∅ := by
  intro _ h; (repeat (cases h with | head => rfl | tail _ h => ?_)); exact nomatch h

theorem step11 (V : Valuation τ sig (Elt F)) (X : Args F) (h : Inv10 V X) : Inv11 (after ops11 V) X where
  args := h.args.after ops11 W11 ops11_writes (by decide)
  v11 := (after_of_writes_sub ops11 V ops11_writes (by decide)).trans h.v11
  v13 := (after_of_writes_sub ops11 V ops11_writes (by decide)).trans h.v13
  v138 := (after_of_writes_sub ops11 V ops11_writes (by decide)).trans h.v138
  v145 := (after_of_writes_sub ops11 V ops11_writes (by decide)).trans h.v145
  v152 := (after_of_writes_sub ops11 V ops11_writes (by decide)).trans h.v152
  v153 := by
    fold_results
    rw [nary3_result_of' _ _ _ V _ _ _ h.v145 h.v152 h.v7]
    rfl
  v162 := by
    fold_results
    rw [nary3_result_of' _ _ _ V _ _ _ h.v145 h.v152 h.v7, h.args.a12, h.args.a13]
    rfl

abbrev opsP2 : List (HloOp τ sig (Elt F)) := ops8 ++ (ops9 ++ (ops10 ++ (ops11)))

theorem main_part2_eq (c : Dev nD) : main_part2 (F := F) c = seq opsP2 := by
  chain_rfl

theorem opsP2_sub : (opsP2 : List (HloOp τ sig (Elt F))).Forall fun op => op.bufs ⊆ tcRefs τ sig :=
  List.forall_append.2 ⟨ops8_sub, List.forall_append.2 ⟨ops9_sub, List.forall_append.2 ⟨ops10_sub, ops11_sub⟩⟩⟩

theorem opsP2_fresh : ∀ op ∈ (opsP2 : List (HloOp τ sig (Elt F))), op.fresh = ∅ := by
  intro op hop
  simp only [opsP2, List.mem_append] at hop
  rcases hop with hop | hop | hop | hop
  · exact ops8_fresh op hop
  · exact ops9_fresh op hop
  · exact ops10_fresh op hop
  · exact ops11_fresh op hop

theorem stepP2 (V : Valuation τ sig (Elt F)) (X : Args F) (h : Inv7 V X) : Inv11 (after opsP2 V) X := by
  simp only [opsP2, after_append]
  exact step11 _ X (step10 _ X (step9 _ X (step8 _ X (h))))

end Cert.ReferenceIdeal.RefRun

end
-- ==== Proof.RefRun4.lean ====
-- The reference's run through its fourth printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops12 : List (HloOp τ sig (Elt F)) :=
  [ unary main_arg14 main_v163 ((extractStridedSlice S1x128x128 ![1, 0, 0] · slices_S2x128x128_S1x128x128_1_0_0)),
    reshape main_v163 main_v164 rfl shapeCasts_S1x128x128_S128x128,
    binary main_v162 main_v164 main_v165 ((fun l r => Host.dotGeneral dot_S400000x128_S128x128_S400000x128_1_0_0_1_n_n none l r)),
    unary main_arg15 main_v166 ((extractStridedSlice S1x128 ![1, 0] · slices_S2x128_S1x128_1_0)),
    reshape main_v166 main_v167 rfl shapeCasts_S1x128_S128,
    unary main_v167 main_v168 (broadcastInDim S1x128 ![1] bcast_S128_S1x128_1),
    unary main_v168 main_v169 (broadcastInDim S400000x128 ![0, 1] bcast_S1x128_S400000x128_0_1),
    binary main_v165 main_v169 main_v170 (addf),
    unary main_arg16 main_v171 ((extractStridedSlice S1x384x128 ![1, 0, 0] · slices_S2x384x128_S1x384x128_1_0_0)),
    reshape main_v171 main_v172 rfl shapeCasts_S1x384x128_S384x128,
    binary main_v153 main_v172 main_v173 ((fun l r => Host.dotGeneral dot_S400000x384_S384x128_S400000x128_1_0_0_1_n_n none l r)),
    unary main_arg17 main_v174 ((extractStridedSlice S1x128 ![1, 0] · slices_S2x128_S1x128_1_0)),
    reshape main_v174 main_v175 rfl shapeCasts_S1x128_S128,
    unary main_v175 main_v176 (broadcastInDim S1x128 ![1] bcast_S128_S1x128_1),
    unary main_v176 main_v177 (broadcastInDim S400000x128 ![0, 1] bcast_S1x128_S400000x128_0_1),
    binary main_v173 main_v177 main_v178 (addf),
    TRef.nullary (TRef.of (T := ⟨S_, .f32⟩) main_call6_cst) (constant S_ .f32 0x00000000#32),
    TRef.unary (TRef.of (T := ⟨S_, .f32⟩) main_call6_cst) (TRef.of (T := ⟨S400000x128, .f32⟩) main_call6_v0) (broadcastInDim S400000x128 ![] bcast_S_S400000x128),
    TRef.binary (TRef.of (T := ⟨S400000x128, .f32⟩) main_v178) (TRef.of (T := ⟨S400000x128, .f32⟩) main_call6_v0) (TRef.of (T := ⟨S400000x128, .f32⟩) main_v179) maximumf,
    unary main_arg18 main_v180 ((extractStridedSlice S1x128x128 ![1, 0, 0] · slices_S2x128x128_S1x128x128_1_0_0)),
    reshape main_v180 main_v181 rfl shapeCasts_S1x128x128_S128x128,
    binary main_v179 main_v181 main_v182 ((fun l r => Host.dotGeneral dot_S400000x128_S128x128_S400000x128_1_0_0_1_n_n none l r)),
    unary main_arg19 main_v183 ((extractStridedSlice S1x128 ![1, 0] · slices_S2x128_S1x128_1_0)),
    reshape main_v183 main_v184 rfl shapeCasts_S1x128_S128,
    unary main_v184 main_v185 (broadcastInDim S1x128 ![1] bcast_S128_S1x128_1),
    unary main_v185 main_v186 (broadcastInDim S400000x128 ![0, 1] bcast_S1x128_S400000x128_0_1),
    binary main_v182 main_v186 main_v187 (addf) ]

abbrev W12 : List (Ref sig .tc) := [main_v163, main_v164, main_v165, main_v166, main_v167, main_v168, main_v169, main_v170, main_v171, main_v172, main_v173, main_v174, main_v175, main_v176, main_v177, main_v178, main_call6_cst, main_call6_v0, main_v179, main_v180, main_v181, main_v182, main_v183, main_v184, main_v185, main_v186, main_v187]

theorem ops12_writes : (ops12 : List (HloOp τ sig (Elt F))).Forall fun op => op.writes ⊆ (W12.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops12_sub : (ops12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem ops12_fresh : ∀ op ∈ (ops12 : List (HloOp τ sig (Elt F))), op.fresh = ∅ := by
  intro _ h; (repeat (cases h with | head => rfl | tail _ h => ?_)); exact nomatch h

theorem step12 (V : Valuation τ sig (Elt F)) (X : Args F) (h : Inv11 V X) : Inv12 (after ops12 V) X where
  args := h.args.after ops12 W12 ops12_writes (by decide)
  v11 := (after_of_writes_sub ops12 V ops12_writes (by decide)).trans h.v11
  v13 := (after_of_writes_sub ops12 V ops12_writes (by decide)).trans h.v13
  v138 := (after_of_writes_sub ops12 V ops12_writes (by decide)).trans h.v138
  v145 := (after_of_writes_sub ops12 V ops12_writes (by decide)).trans h.v145
  v152 := (after_of_writes_sub ops12 V ops12_writes (by decide)).trans h.v152
  v170 := by
    fold_results
    rw [h.v162, h.args.a14, h.args.a15]
    rfl
  v187 := by
    fold_results
    rw [h.v153, h.args.a16, h.args.a17, h.args.a18, h.args.a19]
    rfl

abbrev ops13 : List (HloOp τ sig (Elt F)) :=
  [ binary main_v145 main_v152 main_v188 ((fun a b => concatenate S400000x256 1 [⟨S400000x128, a⟩, ⟨S400000x128, b⟩] concatenates_S400000x128_S400000x128_S400000x256_d1)),
    unary main_arg20 main_v189 ((extractStridedSlice S1x256x64 ![1, 0, 0] · slices_S2x256x64_S1x256x64_1_0_0)),
    reshape main_v189 main_v190 rfl shapeCasts_S1x256x64_S256x64,
    binary main_v188 main_v190 main_v191 ((fun l r => Host.dotGeneral dot_S400000x256_S256x64_S400000x64_1_0_0_1_n_n none l r)),
    unary main_arg21 main_v192 ((extractStridedSlice S1x64 ![1, 0] · slices_S2x64_S1x64_1_0)),
    reshape main_v192 main_v193 rfl shapeCasts_S1x64_S64,
    unary main_v193 main_v194 (broadcastInDim S1x64 ![1] bcast_S64_S1x64_1),
    unary main_v194 main_v195 (broadcastInDim S400000x64 ![0, 1] bcast_S1x64_S400000x64_0_1),
    binary main_v191 main_v195 main_v196 (addf),
    TRef.nullary (TRef.of (T := ⟨S_, .f32⟩) main_call7_cst) (constant S_ .f32 0x00000000#32),
    TRef.unary (TRef.of (T := ⟨S_, .f32⟩) main_call7_cst) (TRef.of (T := ⟨S400000x64, .f32⟩) main_call7_v0) (broadcastInDim S400000x64 ![] bcast_S_S400000x64),
    TRef.binary (TRef.of (T := ⟨S400000x64, .f32⟩) main_v196) (TRef.of (T := ⟨S400000x64, .f32⟩) main_call7_v0) (TRef.of (T := ⟨S400000x64, .f32⟩) main_v197) maximumf,
    unary main_arg22 main_v198 ((extractStridedSlice S1x64x1 ![1, 0, 0] · slices_S2x64x1_S1x64x1_1_0_0)),
    reshape main_v198 main_v199 rfl shapeCasts_S1x64x1_S64x1,
    binary main_v197 main_v199 main_v200 ((fun l r => Host.dotGeneral dot_S400000x64_S64x1_S400000x1_1_0_0_1_n_n none l r)),
    unary main_arg23 main_v201 ((extractStridedSlice S1x1 ![1, 0] · slices_S2x1_S1x1_1_0)),
    reshape main_v201 main_v202 rfl shapeCasts_S1x1_S1,
    unary main_v202 main_v203 (broadcastInDim S1x1 ![1] bcast_S1_S1x1_1),
    unary main_v203 main_v204 (broadcastInDim S400000x1 ![0, 1] bcast_S1x1_S400000x1_0_1),
    binary main_v200 main_v204 main_v205 (addf) ]

abbrev W13 : List (Ref sig .tc) := [main_v188, main_v189, main_v190, main_v191, main_v192, main_v193, main_v194, main_v195, main_v196, main_call7_cst, main_call7_v0, main_v197, main_v198, main_v199, main_v200, main_v201, main_v202, main_v203, main_v204, main_v205]

theorem ops13_writes : (ops13 : List (HloOp τ sig (Elt F))).Forall fun op => op.writes ⊆ (W13.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops13_sub : (ops13 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem ops13_fresh : ∀ op ∈ (ops13 : List (HloOp τ sig (Elt F))), op.fresh = ∅ := by
  intro _ h; (repeat (cases h with | head => rfl | tail _ h => ?_)); exact nomatch h

theorem step13 (V : Valuation τ sig (Elt F)) (X : Args F) (h : Inv12 V X) : Inv13 (after ops13 V) X where
  args := h.args.after ops13 W13 ops13_writes (by decide)
  v11 := (after_of_writes_sub ops13 V ops13_writes (by decide)).trans h.v11
  v13 := (after_of_writes_sub ops13 V ops13_writes (by decide)).trans h.v13
  v138 := (after_of_writes_sub ops13 V ops13_writes (by decide)).trans h.v138
  v170 := (after_of_writes_sub ops13 V ops13_writes (by decide)).trans h.v170
  v187 := (after_of_writes_sub ops13 V ops13_writes (by decide)).trans h.v187
  v205 := by
    fold_results
    rw [h.v145, h.v152, h.args.a20, h.args.a21, h.args.a22, h.args.a23]
    rfl

abbrev ops14 : List (HloOp τ sig (Elt F)) :=
  [ unary main_v205 main_v206 (Host.negf),
    unary main_v206 main_v207 (Host.exp),
    nullary main_cst_15 (constant S_ .f32 0x3F800000#32),
    unary main_cst_15 main_v208 (broadcastInDim S400000x1 ![] bcast_S_S400000x1),
    binary main_v208 main_v207 main_v209 (addf),
    nullary main_cst_16 (constant S_ .f32 0x3F800000#32),
    unary main_cst_16 main_v210 (broadcastInDim S400000x1 ![] bcast_S_S400000x1),
    binary main_v210 main_v209 main_v211 (Host.divf),
    nullary main_cst_17 (constant S_ .f32 0x3F800000#32),
    unary main_cst_17 main_v212 (broadcastInDim S400000x1 ![] bcast_S_S400000x1),
    binary main_v212 main_v13 main_v213 (subf),
    unary main_v213 main_v214 (broadcastInDim S400000x128 ![0, 1] bcast_S400000x1_S400000x128_0_1),
    binary main_v214 main_v170 main_v215 (mulf),
    unary main_v211 main_v216 (broadcastInDim S400000x128 ![0, 1] bcast_S400000x1_S400000x128_0_1),
    binary main_v187 main_v216 main_v217 (mulf),
    unary main_v13 main_v218 (broadcastInDim S400000x128 ![0, 1] bcast_S400000x1_S400000x128_0_1),
    binary main_v218 main_v217 main_v219 (mulf) ]

abbrev W14 : List (Ref sig .tc) := [main_v206, main_v207, main_cst_15, main_v208, main_v209, main_cst_16, main_v210, main_v211, main_cst_17, main_v212, main_v213, main_v214, main_v215, main_v216, main_v217, main_v218, main_v219]

theorem ops14_writes : (ops14 : List (HloOp τ sig (Elt F))).Forall fun op => op.writes ⊆ (W14.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops14_sub : (ops14 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub ..⟩

theorem ops14_fresh : ∀ op ∈ (ops14 : List (HloOp τ sig (Elt F))), op.fresh = ∅ := by
  intro _ h; (repeat (cases h with | head => rfl | tail _ h => ?_)); exact nomatch h

theorem step14 (V : Valuation τ sig (Elt F)) (X : Args F) (h : Inv13 V X) : Inv14 (after ops14 V) X where
  args := h.args.after ops14 W14 ops14_writes (by decide)
  v11 := (after_of_writes_sub ops14 V ops14_writes (by decide)).trans h.v11
  v138 := (after_of_writes_sub ops14 V ops14_writes (by decide)).trans h.v138
  v215 := by
    fold_results
    rw [h.v13, h.v170]
    rfl
  v219 := by
    fold_results
    rw [h.v13, h.v187, h.v205]
    rfl

abbrev opsP3 : List (HloOp τ sig (Elt F)) := ops12 ++ (ops13 ++ (ops14))

theorem main_part3_eq (c : Dev nD) : main_part3 (F := F) c = seq opsP3 := by
  chain_rfl

theorem opsP3_sub : (opsP3 : List (HloOp τ sig (Elt F))).Forall fun op => op.bufs ⊆ tcRefs τ sig :=
  List.forall_append.2 ⟨ops12_sub, List.forall_append.2 ⟨ops13_sub, ops14_sub⟩⟩

theorem opsP3_fresh : ∀ op ∈ (opsP3 : List (HloOp τ sig (Elt F))), op.fresh = ∅ := by
  intro op hop
  simp only [opsP3, List.mem_append] at hop
  rcases hop with hop | hop | hop
  · exact ops12_fresh op hop
  · exact ops13_fresh op hop
  · exact ops14_fresh op hop

theorem stepP3 (V : Valuation τ sig (Elt F)) (X : Args F) (h : Inv11 V X) : Inv14 (after opsP3 V) X := by
  simp only [opsP3, after_append]
  exact step14 _ X (step13 _ X (step12 _ X (h)))

end Cert.ReferenceIdeal.RefRun

end
-- ==== Proof.RefRun5.lean ====
-- The reference's run through its fifth printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops15 : List (HloOp τ sig (Elt F)) :=
  [ binary main_v215 main_v219 main_v220 (addf),
    nullary main_cst_18 (constant S_ .f32 0x00000000#32),
    unary main_cst_18 main_v221 (broadcastInDim S50000x128 ![] bcast_S_S50000x128),
    unary main_v11 main_v222 (broadcastInDim S400000x1 ![0] bcast_S400000_S400000x1_0),
    ternary main_v221 main_v222 main_v220 main_v223 ((fun x i u => Host.scatterAdd scatter_S50000x128_S400000x1_S400000x128_1_0_0_1 x i u)) ]

abbrev W15 : List (Ref sig .tc) := [main_v220, main_cst_18, main_v221, main_v222, main_v223]

theorem ops15_writes : (ops15 : List (HloOp τ sig (Elt F))).Forall fun op => op.writes ⊆ (W15.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops15_sub : (ops15 : List (HloOp τ sig (Elt F))).Forall fun op => op.bufs ⊆ tcRefs τ sig :=
  ⟨binary_bufs_sub .., nullary_bufs_sub .., unary_bufs_sub .., unary_bufs_sub .., ternary_bufs_sub ..⟩

theorem ops15_fresh : ∀ op ∈ (ops15 : List (HloOp τ sig (Elt F))), op.fresh = ∅ := by
  intro _ h; (repeat (cases h with | head => rfl | tail _ h => ?_)); exact nomatch h

theorem step15 (V : Valuation τ sig (Elt F)) (X : Args F) (h : Inv14 V X) : Inv15 (after ops15 V) X where
  args := h.args.after ops15 W15 ops15_writes (by decide)
  v138 := (after_of_writes_sub ops15 V ops15_writes (by decide)).trans h.v138
  v223 := by
    fold_results
    rw [h.v11, h.v215, h.v219]
    rfl

abbrev ops16 : List (HloOp τ sig (Elt F)) :=
  [ binary main_v138 main_v223 main_v224 ((fun a b => concatenate S50000x256 1 [⟨S50000x128, a⟩, ⟨S50000x128, b⟩] concatenates_S50000x128_S50000x128_S50000x256_d1)),
    unary main_arg24 main_v225 ((extractStridedSlice S1x256x128 ![1, 0, 0] · slices_S2x256x128_S1x256x128_1_0_0)),
    reshape main_v225 main_v226 rfl shapeCasts_S1x256x128_S256x128,
    binary main_v224 main_v226 main_v227 ((fun l r => Host.dotGeneral dot_S50000x256_S256x128_S50000x128_1_0_0_1_n_n none l r)),
    unary main_arg25 main_v228 ((extractStridedSlice S1x128 ![1, 0] · slices_S2x128_S1x128_1_0)),
    reshape main_v228 main_v229 rfl shapeCasts_S1x128_S128,
    unary main_v229 main_v230 (broadcastInDim S1x128 ![1] bcast_S128_S1x128_1),
    unary main_v230 main_v231 (broadcastInDim S50000x128 ![0, 1] bcast_S1x128_S50000x128_0_1),
    binary main_v227 main_v231 main_v232 (addf),
    nullary main_cst_19 (constant S_ .f32 0x00000000#32),
    binary main_v232 main_cst_19 main_v233 ((fun x v => Host.reduceAdd x v reducesTo_S50000x128_S50000_d1 h_S_)),
    unary main_v233 main_v234 (broadcastInDim S50000x1 ![0] bcast_S50000_S50000x1_0),
    nullary main_cst_20 (constant S_ .f32 0x43000000#32),
    unary main_cst_20 main_v235 (broadcastInDim S50000x1 ![] bcast_S_S50000x1),
    binary main_v234 main_v235 main_v236 (Host.divf),
    unary main_v236 main_v237 (broadcastInDim S50000x128 ![0, 1] bcast_S50000x1_S50000x128_0_1),
    binary main_v232 main_v237 main_v238 (subf),
    binary main_v238 main_v238 main_v239 (mulf),
    nullary main_cst_21 (constant S_ .f32 0x00000000#32),
    binary main_v239 main_cst_21 main_v240 ((fun x v => Host.reduceAdd x v reducesTo_S50000x128_S50000_d1 h_S_)) ]

abbrev W16 : List (Ref sig .tc) := [main_v224, main_v225, main_v226, main_v227, main_v228, main_v229, main_v230, main_v231, main_v232, main_cst_19, main_v233, main_v234, main_cst_20, main_v235, main_v236, main_v237, main_v238, main_v239, main_cst_21, main_v240]

theorem ops16_writes : (ops16 : List (HloOp τ sig (Elt F))).Forall fun op => op.writes ⊆ (W16.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops16_sub : (ops16 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub ..⟩

theorem ops16_fresh : ∀ op ∈ (ops16 : List (HloOp τ sig (Elt F))), op.fresh = ∅ := by
  intro _ h; (repeat (cases h with | head => rfl | tail _ h => ?_)); exact nomatch h

theorem step16 (V : Valuation τ sig (Elt F)) (X : Args F) (h : Inv15 V X) : Inv16 (after ops16 V) X where
  args := h.args.after ops16 W16 ops16_writes (by decide)
  v138 := (after_of_writes_sub ops16 V ops16_writes (by decide)).trans h.v138
  v232 := by
    fold_results
    rw [h.v138, h.v223, h.args.a24, h.args.a25]
    rfl
  v236 := by
    fold_results
    rw [h.v138, h.v223, h.args.a24, h.args.a25]
    rfl
  v240 := by
    fold_results
    rw [h.v138, h.v223, h.args.a24, h.args.a25]
    rfl

abbrev ops17 : List (HloOp τ sig (Elt F)) :=
  [ unary main_v240 main_v241 (broadcastInDim S50000x1 ![0] bcast_S50000_S50000x1_0),
    nullary main_cst_22 (constant S_ .f32 0x43000000#32),
    unary main_cst_22 main_v242 (broadcastInDim S50000x1 ![] bcast_S_S50000x1),
    binary main_v241 main_v242 main_v243 (Host.divf),
    unary main_v236 main_v244 (broadcastInDim S50000x128 ![0, 1] bcast_S50000x1_S50000x128_0_1),
    binary main_v232 main_v244 main_v245 (subf),
    nullary main_cst_23 (constant S_ .f32 0x3727C5AC#32),
    unary main_cst_23 main_v246 (broadcastInDim S50000x1 ![] bcast_S_S50000x1),
    binary main_v243 main_v246 main_v247 (addf),
    unary main_v247 main_v248 (Host.rsqrt),
    unary main_v248 main_v249 (broadcastInDim S50000x128 ![0, 1] bcast_S50000x1_S50000x128_0_1),
    binary main_v245 main_v249 main_v250 (mulf),
    unary main_arg26 main_v251 ((extractStridedSlice S1x128 ![1, 0] · slices_S2x128_S1x128_1_0)),
    reshape main_v251 main_v252 rfl shapeCasts_S1x128_S128,
    unary main_v252 main_v253 (broadcastInDim S1x128 ![1] bcast_S128_S1x128_1),
    unary main_v253 main_v254 (broadcastInDim S50000x128 ![0, 1] bcast_S1x128_S50000x128_0_1),
    binary main_v250 main_v254 main_v255 (mulf) ]

abbrev W17 : List (Ref sig .tc) := [main_v241, main_cst_22, main_v242, main_v243, main_v244, main_v245, main_cst_23, main_v246, main_v247, main_v248, main_v249, main_v250, main_v251, main_v252, main_v253, main_v254, main_v255]

theorem ops17_writes : (ops17 : List (HloOp τ sig (Elt F))).Forall fun op => op.writes ⊆ (W17.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops17_sub : (ops17 : List (HloOp τ sig (Elt F))).Forall fun op => op.bufs ⊆ tcRefs τ sig :=
  ⟨unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub ..⟩

theorem ops17_fresh : ∀ op ∈ (ops17 : List (HloOp τ sig (Elt F))), op.fresh = ∅ := by
  intro _ h; (repeat (cases h with | head => rfl | tail _ h => ?_)); exact nomatch h

theorem step17 (V : Valuation τ sig (Elt F)) (X : Args F) (h : Inv16 V X) : Inv17 (after ops17 V) X where
  args := h.args.after ops17 W17 ops17_writes (by decide)
  v138 := (after_of_writes_sub ops17 V ops17_writes (by decide)).trans h.v138
  v255 := by
    fold_results
    rw [h.v232, h.v236, h.v240, h.args.a26]
    rfl

abbrev ops18 : List (HloOp τ sig (Elt F)) :=
  [ unary main_arg27 main_v256 ((extractStridedSlice S1x128 ![1, 0] · slices_S2x128_S1x128_1_0)),
    reshape main_v256 main_v257 rfl shapeCasts_S1x128_S128,
    unary main_v257 main_v258 (broadcastInDim S1x128 ![1] bcast_S128_S1x128_1),
    unary main_v258 main_v259 (broadcastInDim S50000x128 ![0, 1] bcast_S1x128_S50000x128_0_1),
    binary main_v255 main_v259 main_v260 (addf),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v260) (TRef.of (T := ⟨S50000x128, .f32⟩) main_call8_v0) (TRef.of (T := ⟨S50000x128, .f32⟩) main_v261) maximumf,
    binary main_v261 main_v138 main_v262 (addf),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v262) (TRef.of (T := ⟨S50000x128, .f32⟩) main_call9_v0) (TRef.of (T := ⟨S50000x128, .f32⟩) main_v263) maximumf,
    nullary main_cst_24 (constant S_ .f32 0x00000000#32),
    unary main_cst_24 main_v264 (broadcastInDim S1x128 ![] bcast_S_S1x128),
    unary main_arg4 main_v265 (broadcastInDim S50000x1 ![0] bcast_S50000_S50000x1_0),
    ternary main_v264 main_v265 main_v263 main_v266 ((fun x i u => Host.scatterAdd scatter_S1x128_S50000x1_S50000x128_1_0_0_1 x i u)),
    nullary main_cst_25 (constant S_ .f32 0x3F800000#32),
    unary main_cst_25 main_v267 (broadcastInDim S50000x1 ![] bcast_S_S50000x1),
    nullary main_cst_26 (constant S_ .f32 0x00000000#32),
    unary main_cst_26 main_v268 (broadcastInDim S1x1 ![] bcast_S_S1x1),
    unary main_arg4 main_v269 (broadcastInDim S50000x1 ![0] bcast_S50000_S50000x1_0),
    ternary main_v268 main_v269 main_v267 main_v270 ((fun x i u => Host.scatterAdd scatter_S1x1_S50000x1_S50000x1_1_0_0_1 x i u)) ]

abbrev W18 : List (Ref sig .tc) := [main_v256, main_v257, main_v258, main_v259, main_v260, main_call8_cst, main_call8_v0, main_v261, main_v262, main_call9_cst, main_call9_v0, main_v263, main_cst_24, main_v264, main_v265, main_v266, main_cst_25, main_v267, main_cst_26, main_v268, main_v269, main_v270]

theorem ops18_writes : (ops18 : List (HloOp τ sig (Elt F))).Forall fun op => op.writes ⊆ (W18.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops18_sub : (ops18 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

theorem ops18_fresh : ∀ op ∈ (ops18 : List (HloOp τ sig (Elt F))), op.fresh = ∅ := by
  intro _ h; (repeat (cases h with | head => rfl | tail _ h => ?_)); exact nomatch h

theorem step18 (V : Valuation τ sig (Elt F)) (X : Args F) (h : Inv17 V X) : Inv18 (after ops18 V) X where
  args := h.args.after ops18 W18 ops18_writes (by decide)
  v266 := by
    fold_results
    rw [h.args.a4, h.v255, h.args.a27, h.v138]
    rfl
  v270 := by
    fold_results
    rw [h.args.a4]
    rfl

abbrev opsP4 : List (HloOp τ sig (Elt F)) := ops15 ++ (ops16 ++ (ops17 ++ (ops18)))

theorem main_part4_eq (c : Dev nD) : main_part4 (F := F) c = seq opsP4 := by
  chain_rfl

theorem opsP4_sub : (opsP4 : List (HloOp τ sig (Elt F))).Forall fun op => op.bufs ⊆ tcRefs τ sig :=
  List.forall_append.2 ⟨ops15_sub, List.forall_append.2 ⟨ops16_sub, List.forall_append.2 ⟨ops17_sub, ops18_sub⟩⟩⟩

theorem opsP4_fresh : ∀ op ∈ (opsP4 : List (HloOp τ sig (Elt F))), op.fresh = ∅ := by
  intro op hop
  simp only [opsP4, List.mem_append] at hop
  rcases hop with hop | hop | hop | hop
  · exact ops15_fresh op hop
  · exact ops16_fresh op hop
  · exact ops17_fresh op hop
  · exact ops18_fresh op hop

theorem stepP4 (V : Valuation τ sig (Elt F)) (X : Args F) (h : Inv14 V X) : Inv18 (after opsP4 V) X := by
  simp only [opsP4, after_append]
  exact step18 _ X (step17 _ X (step16 _ X (step15 _ X (h))))

end Cert.ReferenceIdeal.RefRun

end
-- ==== Proof.RefRun6.lean ====
-- The reference's run through its sixth printed window, stretch by stretch.
import proofs.«416830_j43473658970339_2_alg».proof.Proof.RefRun0
import proofs.«416830_j43473658970339_2_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops19 : List (HloOp τ sig (Elt F)) :=
  [ unary main_v270 main_v271 (broadcastInDim S1x128 ![0, 1] bcast_S1x1_S1x128_0_1),
    binary main_v266 main_v271 main_v272 (Host.divf),
    binary main_v272 main_arg28 main_v273 ((fun l r => Host.dotGeneral dot_S1x128_S128x128_S1x128_1_0_0_1_n_n none l r)),
    unary main_arg29 main_v274 (broadcastInDim S1x128 ![1] bcast_S128_S1x128_1),
    binary main_v273 main_v274 main_v275 (addf),
    TRef.nullary (TRef.of (T := ⟨S_, .f32⟩) main_call10_cst) (constant S_ .f32 0x00000000#32),
    TRef.unary (TRef.of (T := ⟨S_, .f32⟩) main_call10_cst) (TRef.of (T := ⟨S1x128, .f32⟩) main_call10_v0) (broadcastInDim S1x128 ![] bcast_S_S1x128),
    TRef.binary (TRef.of (T := ⟨S1x128, .f32⟩) main_v275) (TRef.of (T := ⟨S1x128, .f32⟩) main_call10_v0) (TRef.of (T := ⟨S1x128, .f32⟩) main_v276) maximumf,
    binary main_v276 main_arg30 main_v277 ((fun l r => Host.dotGeneral dot_S1x128_S128x16_S1x16_1_0_0_1_n_n none l r)),
    unary main_arg31 main_v278 (broadcastInDim S1x16 ![1] bcast_S16_S1x16_1),
    binary main_v277 main_v278 main_v279 (addf),
    unary main_v279 main_v280 ((extractStridedSlice S1x3 ![0, 0] · slices_S1x16_S1x3_0_0)),
    binary main_arg7 main_v280 main_v281 (addf) ]

abbrev W19 : List (Ref sig .tc) := [main_v271, main_v272, main_v273, main_v274, main_v275, main_call10_cst, main_call10_v0, main_v276, main_v277, main_v278, main_v279, main_v280, main_v281]

theorem ops19_writes : (ops19 : List (HloOp τ sig (Elt F))).Forall fun op => op.writes ⊆ (W19.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem ops19_sub : (ops19 : List (HloOp τ sig (Elt F))).Forall fun op => op.bufs ⊆ tcRefs τ sig :=
  ⟨unary_bufs_sub .., binary_bufs_sub .., binary_bufs_sub .., unary_bufs_sub .., binary_bufs_sub .., nullary_bufs_sub .., unary_bufs_sub .., binary_bufs_sub .., binary_bufs_sub .., unary_bufs_sub .., binary_bufs_sub .., unary_bufs_sub .., binary_bufs_sub ..⟩

theorem ops19_fresh : ∀ op ∈ (ops19 : List (HloOp τ sig (Elt F))), op.fresh = ∅ := by
  intro _ h; (repeat (cases h with | head => rfl | tail _ h => ?_)); exact nomatch h

theorem step19 (V : Valuation τ sig (Elt F)) (X : Args F) (h : Inv18 V X) : Inv19 (after ops19 V) X where
  args := h.args.after ops19 W19 ops19_writes (by decide)
  v272 := by
    fold_results
    rw [h.v266, h.v270]
    rfl
  v281 := by
    fold_results
    rw [h.args.a7, h.v266, h.v270, h.args.a28, h.args.a29, h.args.a30, h.args.a31]
    rfl

abbrev opsP5 : List (HloOp τ sig (Elt F)) := ops19

theorem main_part5_eq (c : Dev nD) : main_part5 (F := F) c = seq opsP5 := by
  chain_rfl

theorem opsP5_sub : (opsP5 : List (HloOp τ sig (Elt F))).Forall fun op => op.bufs ⊆ tcRefs τ sig := ops19_sub

theorem opsP5_fresh : ∀ op ∈ (opsP5 : List (HloOp τ sig (Elt F))), op.fresh = ∅ := ops19_fresh

theorem stepP5 (V : Valuation τ sig (Elt F)) (X : Args F) (h : Inv18 V X) : Inv19 (after opsP5 V) X := step19 V X h

end Cert.ReferenceIdeal.RefRun

end
-- ==== Proof.RefRun.lean ====
/-
  The reference program's run: every weakly fair execution of its 333 host operations terminates, the two computed
  results at their stage functions of the launch arguments, the two pass-through results and every argument unchanged.
  @main is its six printed windows in order, each the straight line of its operations; the invariant of the cuts steps
  across each window, so after the whole line every argument holds what it was launched with and the two results hold
  their stage functions of the launch arguments; the library's run of a straight line then gives the statement.
-/
import proofs.«416830_j43473658970339_2_alg».proof.Proof.Gen.ReferenceIdeal
import proofs.«416830_j43473658970339_2_alg».proof.Proof.RefRead
import proofs.«416830_j43473658970339_2_alg».proof.Proof.RefRun1
import proofs.«416830_j43473658970339_2_alg».proof.Proof.RefRun2
import proofs.«416830_j43473658970339_2_alg».proof.Proof.RefRun3
import proofs.«416830_j43473658970339_2_alg».proof.Proof.RefRun4
import proofs.«416830_j43473658970339_2_alg».proof.Proof.RefRun5
import proofs.«416830_j43473658970339_2_alg».proof.Proof.RefRun6
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Fold

variable {F : FTy → Type} [FloatOps F]

/-- @main's 333 operations: the six windows' in order. -/
abbrev ops : List (HloOp τ sig (Elt F)) := opsP0 ++ (opsP1 ++ (opsP2 ++ (opsP3 ++ (opsP4 ++ (opsP5)))))

/-- @main is the straight line of its operations: it runs its windows in order, each the line of its own, and two lines
    run one after the other are their concatenation run as one. -/
theorem main_eq (c : Dev nD) : main (F := F) c = seq ops := by
  simp only [ops, seq_append, ← main_part0_eq c, ← main_part1_eq c, ← main_part2_eq c, ← main_part3_eq c,
    ← main_part4_eq c, ← main_part5_eq c]
  rfl

/-- The signature scopes no TensorCore reference and no semaphore. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsP0_sub, List.forall_append.2 ⟨opsP1_sub, List.forall_append.2 ⟨opsP2_sub, List.forall_append.2 ⟨opsP3_sub, List.forall_append.2 ⟨opsP4_sub, opsP5_sub⟩⟩⟩⟩⟩

theorem ops_fresh : ∀ op ∈ (ops : List (HloOp τ sig (Elt F))), op.fresh = ∅ :=
  List.forall_mem_append.2 ⟨opsP0_fresh, List.forall_mem_append.2 ⟨opsP1_fresh, List.forall_mem_append.2 ⟨opsP2_fresh, List.forall_mem_append.2 ⟨opsP3_fresh, List.forall_mem_append.2 ⟨opsP4_fresh, opsP5_fresh⟩⟩⟩⟩⟩

/-- The arguments' contents in a valuation. -/
def argsOf (V : Valuation τ sig (Elt F)) : Args F where
  x0 := V (Proc.devRef .tc main_arg0)
  x1 := V (Proc.devRef .tc main_arg1)
  x2 := V (Proc.devRef .tc main_arg2)
  x3 := V (Proc.devRef .tc main_arg3)
  x4 := V (Proc.devRef .tc main_arg4)
  x5 := V (Proc.devRef .tc main_arg5)
  x6 := V (Proc.devRef .tc main_arg6)
  x7 := V (Proc.devRef .tc main_arg7)
  x8 := V (Proc.devRef .tc main_arg8)
  x9 := V (Proc.devRef .tc main_arg9)
  x10 := V (Proc.devRef .tc main_arg10)
  x11 := V (Proc.devRef .tc main_arg11)
  x12 := V (Proc.devRef .tc main_arg12)
  x13 := V (Proc.devRef .tc main_arg13)
  x14 := V (Proc.devRef .tc main_arg14)
  x15 := V (Proc.devRef .tc main_arg15)
  x16 := V (Proc.devRef .tc main_arg16)
  x17 := V (Proc.devRef .tc main_arg17)
  x18 := V (Proc.devRef .tc main_arg18)
  x19 := V (Proc.devRef .tc main_arg19)
  x20 := V (Proc.devRef .tc main_arg20)
  x21 := V (Proc.devRef .tc main_arg21)
  x22 := V (Proc.devRef .tc main_arg22)
  x23 := V (Proc.devRef .tc main_arg23)
  x24 := V (Proc.devRef .tc main_arg24)
  x25 := V (Proc.devRef .tc main_arg25)
  x26 := V (Proc.devRef .tc main_arg26)
  x27 := V (Proc.devRef .tc main_arg27)
  x28 := V (Proc.devRef .tc main_arg28)
  x29 := V (Proc.devRef .tc main_arg29)
  x30 := V (Proc.devRef .tc main_arg30)
  x31 := V (Proc.devRef .tc main_arg31)

/-- A valuation holds its own arguments' contents. -/
theorem argsAt_argsOf (V : Valuation τ sig (Elt F)) : ArgsAt V (argsOf V) where
  a0 := rfl
  a1 := rfl
  a2 := rfl
  a3 := rfl
  a4 := rfl
  a5 := rfl
  a6 := rfl
  a7 := rfl
  a8 := rfl
  a9 := rfl
  a10 := rfl
  a11 := rfl
  a12 := rfl
  a13 := rfl
  a14 := rfl
  a15 := rfl
  a16 := rfl
  a17 := rfl
  a18 := rfl
  a19 := rfl
  a20 := rfl
  a21 := rfl
  a22 := rfl
  a23 := rfl
  a24 := rfl
  a25 := rfl
  a26 := rfl
  a27 := rfl
  a28 := rfl
  a29 := rfl
  a30 := rfl
  a31 := rfl

/-- After the whole line, from any valuation: every argument holds what it held, and the two computed results hold
    their stage functions of those contents. The fold over the concatenation is the windows' folds in turn. -/
theorem after_ops (V : Valuation τ sig (Elt F)) : Inv19 (after ops V) (argsOf V) := by
  simp only [ops, after_append]
  exact stepP5 _ _ (stepP4 _ _ (stepP3 _ _ (stepP2 _ _ (stepP1 _ _ (stepP0 V _ (argsAt_argsOf V))))))

end Fold

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v281) = ReadP.val_main_v281 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31))
      ∧ r.2.mem ((c.tc : Thread nD τ).loc main_v272) = ReadP.val_main_v272 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run (defs (F := Ideal)) _ _).mono (fun _ h c =>
      have I := after_ops (F := Ideal) (launchContents m c)
      ⟨(h c main_arg5).trans I.args.a5,
        (h c main_arg6).trans I.args.a6,
        (h c main_v281).trans I.v281,
        (h c main_v272).trans I.v272,
        (h c main_arg0).trans I.args.a0,
        (h c main_arg1).trans I.args.a1,
        (h c main_arg2).trans I.args.a2,
        (h c main_arg3).trans I.args.a3,
        (h c main_arg4).trans I.args.a4,
        (h c main_arg5).trans I.args.a5,
        (h c main_arg6).trans I.args.a6,
        (h c main_arg7).trans I.args.a7,
        (h c main_arg8).trans I.args.a8,
        (h c main_arg9).trans I.args.a9,
        (h c main_arg10).trans I.args.a10,
        (h c main_arg11).trans I.args.a11,
        (h c main_arg12).trans I.args.a12,
        (h c main_arg13).trans I.args.a13,
        (h c main_arg14).trans I.args.a14,
        (h c main_arg15).trans I.args.a15,
        (h c main_arg16).trans I.args.a16,
        (h c main_arg17).trans I.args.a17,
        (h c main_arg18).trans I.args.a18,
        (h c main_arg19).trans I.args.a19,
        (h c main_arg20).trans I.args.a20,
        (h c main_arg21).trans I.args.a21,
        (h c main_arg22).trans I.args.a22,
        (h c main_arg23).trans I.args.a23,
        (h c main_arg24).trans I.args.a24,
        (h c main_arg25).trans I.args.a25,
        (h c main_arg26).trans I.args.a26,
        (h c main_arg27).trans I.args.a27,
        (h c main_arg28).trans I.args.a28,
        (h c main_arg29).trans I.args.a29,
        (h c main_arg30).trans I.args.a30,
        (h c main_arg31).trans I.args.a31⟩)
    (run_seq scopedRefs_eq scopedSems_eq (defs (F := Ideal)) (main (F := Ideal)) (fun _ => ops) main_eq (fun _ => ops_sub) m ρ
      (fun _ => ops_fresh))

end Cert.ReferenceIdeal.RefRun

end
-- ==== Proof.lean ====
-- Both programs compute one row-wise function of the arguments; their gathers differ only at an endpoint outside the node range: such a target adds to no aggregate, and the precondition excludes such a source.
import proofs.«416830_j43473658970339_2_alg».proof.Defs
import proofs.«416830_j43473658970339_2_alg».proof.Proof.Gen.Kernel
import proofs.«416830_j43473658970339_2_alg».proof.Proof.Gen.Kernel.Skeleton
import proofs.«416830_j43473658970339_2_alg».proof.Proof.Gen.Kernel.Launch
import proofs.«416830_j43473658970339_2_alg».proof.Proof.Gen.Kernel.Points
import proofs.«416830_j43473658970339_2_alg».proof.Proof.Gen.Kernel.Frame
import proofs.«416830_j43473658970339_2_alg».proof.Proof.Gen.KernelIdeal
import proofs.«416830_j43473658970339_2_alg».proof.Proof.Gen.KernelIdeal.Skeleton
import proofs.«416830_j43473658970339_2_alg».proof.Proof.Gen.KernelIdeal.Launch
import proofs.«416830_j43473658970339_2_alg».proof.Proof.Gen.KernelIdeal.Points
import proofs.«416830_j43473658970339_2_alg».proof.Proof.Gen.KernelIdeal.Frame
import proofs.«416830_j43473658970339_2_alg».proof.Proof.Gen.ReferenceIdeal
import proofs.«416830_j43473658970339_2_alg».proof.Proof.Gen.Pre_finite_inputs
import proofs.«416830_j43473658970339_2_alg».proof.Proof.KRun
import proofs.«416830_j43473658970339_2_alg».proof.Proof.KFoldA
import proofs.«416830_j43473658970339_2_alg».proof.Proof.KFoldB1
import proofs.«416830_j43473658970339_2_alg».proof.Proof.KFoldB2
import proofs.«416830_j43473658970339_2_alg».proof.Proof.KFoldC1
import proofs.«416830_j43473658970339_2_alg».proof.Proof.KFoldC2
import proofs.«416830_j43473658970339_2_alg».proof.Proof.KFoldD
import proofs.«416830_j43473658970339_2_alg».proof.Proof.PreSrc
import proofs.«416830_j43473658970339_2_alg».proof.Proof.RefRun
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.RefRun.run m ρ)

theorem preserves : Cert.preserves_Kernel_KernelIdeal := trivial

section
open Cert.KernelIdeal Cert.ReferenceIdeal.ReadP

variable (m : (ℓ : Loc nD τ sig) → Buf (Elt Ideal) ℓ) (c : Dev nD)

/-- What a memory holds at a reference on device `c`. -/
abbrev arg (r : Ref sig .tc) := m ((c.tc : Thread nD τ).loc r)

/-- The reference's refined trajectory as a function of a memory's arguments. -/
abbrev refined := val_main_v281 (F := Ideal) (arg m c main_arg0) (arg m c main_arg1) (arg m c main_arg2) (arg m c main_arg3) (arg m c main_arg4) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31)

/-- The reference's pooled representation as a function of a memory's arguments. -/
abbrev pooled := val_main_v272 (F := Ideal) (arg m c main_arg0) (arg m c main_arg1) (arg m c main_arg2) (arg m c main_arg3) (arg m c main_arg4) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27)

/-- Both computed results of the kernel, read through its fold of segment boundaries, are the reference's terms. -/
theorem folds (ρ : Dev nD → PrngReg) (hpre : Cert.Pre_KernelIdeal m) :
    Gen.W20 m ρ c (Proc.devRef .tc main_v123) = refined m c ∧ Gen.W20 m ρ c (Proc.devRef .tc main_v114) = pooled m c :=
  have hxh := Fold.xh m ρ c
  have hea := Fold.ea m ρ c
  have hsrc := fun e => Cert.PreSrc.src_ok m hpre c e
  have hagg1 := Fold.agg1 m ρ c hsrc hxh hea
  have hx1 := Fold.upd1 m ρ c hxh hagg1
  have hagg2 := Fold.agg2 m ρ c hsrc hx1 hea
  have hx2 := Fold.upd2 m ρ c hx1 hagg2
  ⟨Fold.head123 m ρ c hx2, Fold.head114 m ρ c hx2⟩

end

theorem algebraic : Cert.algebraic_KernelIdeal_ReferenceIdeal := by
  intro m ρ m' ρ' hpre hagree
  refine ⟨fun c => arg m c Cert.KernelIdeal.main_arg5, fun c => arg m c Cert.KernelIdeal.main_arg6, refined m, pooled m, ?_, ?_⟩
  · refine (θ_run Cert.KernelIdeal.defs _ _).mono (fun r h c => ?_) (Cert.KernelIdeal.ValRun.run_vals m ρ)
    obtain ⟨h5, h6, h123, h114, hargs⟩ := h c
    exact ⟨h5, h6, h123.trans (folds m c ρ hpre).1, h114.trans (folds m c ρ hpre).2, hargs⟩
  · refine (θ_run Cert.ReferenceIdeal.defs _ _).mono (fun r h c => ?_) (Cert.ReferenceIdeal.RefRun.run m' ρ')
    obtain ⟨h5, h6, h281, h272, hargs⟩ := h c
    obtain ⟨a0, a1, a2, a3, a4, a5, a6, a7, a8, a9, a10, a11, a12, a13, a14, a15, a16, a17, a18, a19, a20, a21, a22, a23, a24, a25, a26, a27, a28, a29, a30, a31⟩ := hagree c
    exact ⟨h5.trans a5, h6.trans a6, by rw [h281, a0, a1, a2, a3, a4, a7, a8, a9, a10, a11, a12, a13, a14, a15, a16, a17, a18, a19, a20, a21, a22, a23, a24, a25, a26, a27, a28, a29, a30, a31], by rw [h272, a0, a1, a2, a3, a4, a8, a9, a10, a11, a12, a13, a14, a15, a16, a17, a18, a19, a20, a21, a22, a23, a24, a25, a26, a27], hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
